-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S200000x1 : Shape := ⟨2, ![200000, 1]⟩
abbrev S4x128 : Shape := ⟨2, ![4, 128]⟩
abbrev S128 : Shape := ⟨1, ![128]⟩
abbrev S128x128 : Shape := ⟨2, ![128, 128]⟩
abbrev S3x1x128 : Shape := ⟨3, ![3, 1, 128]⟩
abbrev S3x128 : Shape := ⟨2, ![3, 128]⟩
abbrev S3x128x128 : Shape := ⟨3, ![3, 128, 128]⟩
abbrev S3x384x128 : Shape := ⟨3, ![3, 384, 128]⟩
abbrev S3x256x128 : Shape := ⟨3, ![3, 256, 128]⟩
abbrev S2x200000 : Shape := ⟨2, ![2, 200000]⟩
abbrev S50000 : Shape := ⟨1, ![50000]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x1x128 : S_.BroadcastsInDim S3x1x128 (![] : Fin 0 → Fin S3x1x128.rank)
  reducesTo_S3x1x128_S_d0_1_2 : S3x1x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x384x128 : S_.BroadcastsInDim S3x384x128 (![] : Fin 0 → Fin S3x384x128.rank)
  reducesTo_S3x384x128_S_d0_1_2 : S3x384x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S2x200000 : S_.BroadcastsInDim S2x200000 (![] : Fin 0 → Fin S2x200000.rank)
  reducesTo_S2x200000_S_d0_1 : S2x200000.ReducesTo [0, 1] S_

variable [Facts]

def fn_part6 {F : FTy → Type} [FloatOps F] (main_arg21 : FVec F S128 .f32) (main_arg22 : IVec S2x200000 32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S2x200000 32 := broadcastInDim S2x200000 ![] bcast_S_S2x200000 main_c_42
  let main_v110 : IVec S2x200000 1 := cmpi .sge main_arg22 main_v109
  let main_c_43 : IVec S_ 32 := constantI S_ 32 50000#32
  let main_v111 : IVec S2x200000 32 := broadcastInDim S2x200000 ![] bcast_S_S2x200000 main_c_43
  let main_v112 : IVec S2x200000 1 := cmpi .slt main_arg22 main_v111
  let main_v113 : IVec S2x200000 1 := andi main_v110 main_v112
  let main_c_44 : IVec S_ 1 := constantI S_ 1 1#1
  let main_v114 : IVec S_ 1 := (fun x v => Host.reduce IntOp.andi x v reducesTo_S2x200000_S_d0_1 h_S_) main_v113 main_c_44
  let main_v115 : IVec S_ 1 := andi main_v108 main_v114
  main_v115

def fn_part5 {F : FTy → Type} [FloatOps F] (main_arg18 : FVec F S128x128 .f32) (main_arg19 : FVec F S128 .f32) (main_arg20 : FVec F S128x128 .f32) (main_arg21 : FVec F S128 .f32) (main_arg22 : IVec S2x200000 32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S3x256x128 .f32) (main_arg15 : FVec F S3x128 .f32) (main_arg16 : FVec F S3x128x128 .f32) (main_arg17 : FVec F S3x128 .f32) (main_arg18 : FVec F S128x128 .f32) (main_arg19 : FVec F S128 .f32) (main_arg20 : FVec F S128x128 .f32) (main_arg21 : FVec F S128 .f32) (main_arg22 : IVec S2x200000 32) (main_v63 : IVec S_ 1) (main_v67 : IVec S_ 1) : IVec S_ 1 :=
  let main_v68 : IVec S_ 1 := andi main_v63 main_v67
  let main_v69 : FVec F S3x256x128 .f32 := Host.absf main_arg14
  let main_cst_26 : FVec F S_ .f32 := constant S_ .f32 0x7F800000#32
  let main_v70 : FVec F S3x256x128 .f32 := broadcastInDim S3x256x128 ![] bcast_S_S3x256x128 main_cst_26
  let main_v71 : IVec S3x256x128 1 := cmpf .olt main_v69 main_v70
  let main_c_27 : IVec S_ 1 := constantI S_ 1 1#1
  let main_v72 : IVec S_ 1 := (fun x v => Host.reduce IntOp.andi x v reducesTo_S3x256x128_S_d0_1_2 h_S_) main_v71 main_c_27
  let main_v73 : IVec S_ 1 := andi main_v68 main_v72
  let main_v74 : FVec F S3x128 .f32 := Host.absf main_arg15
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg16
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S3x128 .f32) (main_arg12 : FVec F S3x128x128 .f32) (main_arg13 : FVec F S3x128 .f32) (main_arg14 : FVec F S3x256x128 .f32) (main_arg15 : FVec F S3x128 .f32) (main_arg16 : FVec F S3x128x128 .f32) (main_arg17 : FVec F S3x128 .f32) (main_arg18 : FVec F S128x128 .f32) (main_arg19 : FVec F S128 .f32) (main_arg20 : FVec F S128x128 .f32) (main_arg21 : FVec F S128 .f32) (main_arg22 : IVec S2x200000 32) (main_v48 : IVec S_ 1) (main_v49 : FVec F S3x384x128 .f32) (main_v50 : FVec F S3x384x128 .f32) : IVec S_ 1 :=
  let main_v51 : IVec S3x384x128 1 := cmpf .olt main_v49 main_v50
  let main_c_19 : IVec S_ 1 := constantI S_ 1 1#1
  let main_v52 : IVec S_ 1 := (fun x v => Host.reduce IntOp.andi x v reducesTo_S3x384x128_S_d0_1_2 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg12
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S3x128 .f32) (main_arg8 : FVec F S3x128x128 .f32) (main_arg9 : FVec F S3x128 .f32) (main_arg10 : FVec F S3x384x128 .f32) (main_arg11 : FVec F S3x128 .f32) (main_arg12 : FVec F S3x128x128 .f32) (main_arg13 : FVec F S3x128 .f32) (main_arg14 : FVec F S3x256x128 .f32) (main_arg15 : FVec F S3x128 .f32) (main_arg16 : FVec F S3x128x128 .f32) (main_arg17 : FVec F S3x128 .f32) (main_arg18 : FVec F S128x128 .f32) (main_arg19 : FVec F S128 .f32) (main_arg20 : FVec F S128x128 .f32) (main_arg21 : FVec F S128 .f32) (main_arg22 : IVec S2x200000 32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x384x128 .f32 := Host.absf main_arg10
  let main_cst_18 : FVec F S_ .f32 := constant S_ .f32 0x7F800000#32
  let main_v50 : FVec F S3x384x128 .f32 := broadcastInDim S3x384x128 ![] bcast_S_S3x384x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128x128 .f32) (main_arg5 : FVec F S128 .f32) (main_arg6 : FVec F S3x1x128 .f32) (main_arg7 : FVec F S3x128 .f32) (main_arg8 : FVec F S3x128x128 .f32) (main_arg9 : FVec F S3x128 .f32) (main_arg10 : FVec F S3x384x128 .f32) (main_arg11 : FVec F S3x128 .f32) (main_arg12 : FVec F S3x128x128 .f32) (main_arg13 : FVec F S3x128 .f32) (main_arg14 : FVec F S3x256x128 .f32) (main_arg15 : FVec F S3x128 .f32) (main_arg16 : FVec F S3x128x128 .f32) (main_arg17 : FVec F S3x128 .f32) (main_arg18 : FVec F S128x128 .f32) (main_arg19 : FVec F S128 .f32) (main_arg20 : FVec F S128x128 .f32) (main_arg21 : FVec F S128 .f32) (main_arg22 : IVec S2x200000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x1x128 .f32 := Host.absf main_arg6
  let main_cst_10 : FVec F S_ .f32 := constant S_ .f32 0x7F800000#32
  let main_v30 : FVec F S3x1x128 .f32 := broadcastInDim S3x1x128 ![] bcast_S_S3x1x128 main_cst_10
  let main_v31 : IVec S3x1x128 1 := cmpf .olt main_v29 main_v30
  let main_c_11 : IVec S_ 1 := constantI S_ 1 1#1
  let main_v32 : IVec S_ 1 := (fun x v => Host.reduce IntOp.andi x v reducesTo_S3x1x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x4 .f32) (main_arg1 : FVec F S200000x1 .f32) (main_arg2 : FVec F S4x128 .f32) (main_arg3 : FVec F S128 .f32) (main_arg4 : FVec F S128x128 .f32) (main_arg5 : FVec F S128 .f32) (main_arg6 : FVec F S3x1x128 .f32) (main_arg7 : FVec F S3x128 .f32) (main_arg8 : FVec F S3x128x128 .f32) (main_arg9 : FVec F S3x128 .f32) (main_arg10 : FVec F S3x384x128 .f32) (main_arg11 : FVec F S3x128 .f32) (main_arg12 : FVec F S3x128x128 .f32) (main_arg13 : FVec F S3x128 .f32) (main_arg14 : FVec F S3x256x128 .f32) (main_arg15 : FVec F S3x128 .f32) (main_arg16 : FVec F S3x128x128 .f32) (main_arg17 : FVec F S3x128 .f32) (main_arg18 : FVec F S128x128 .f32) (main_arg19 : FVec F S128 .f32) (main_arg20 : FVec F S128x128 .f32) (main_arg21 : FVec F S128 .f32) (main_arg22 : IVec S2x200000 32) (main_arg23 : IVec S50000 32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S200000x1 .f32 := Host.absf main_arg1
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x4 : Shape := ⟨2, ![50000, 4]⟩
abbrev S200000x1 : Shape := ⟨2, ![200000, 1]⟩
abbrev S4x128 : Shape := ⟨2, ![4, 128]⟩
abbrev S128 : Shape := ⟨1, ![128]⟩
abbrev S128x128 : Shape := ⟨2, ![128, 128]⟩
abbrev S3x1x128 : Shape := ⟨3, ![3, 1, 128]⟩
abbrev S3x128 : Shape := ⟨2, ![3, 128]⟩
abbrev S3x128x128 : Shape := ⟨3, ![3, 128, 128]⟩
abbrev S3x384x128 : Shape := ⟨3, ![3, 384, 128]⟩
abbrev S3x256x128 : Shape := ⟨3, ![3, 256, 128]⟩
abbrev S2x200000 : Shape := ⟨2, ![2, 200000]⟩
abbrev S50000 : Shape := ⟨1, ![50000]⟩
abbrev S1x128 : Shape := ⟨2, ![1, 128]⟩
abbrev S50000x128 : Shape := ⟨2, ![50000, 128]⟩
abbrev S10000x4 : Shape := ⟨2, ![10000, 4]⟩
abbrev S10000x128 : Shape := ⟨2, ![10000, 128]⟩
abbrev S1x200000 : Shape := ⟨2, ![1, 200000]⟩
abbrev S200000 : Shape := ⟨1, ![200000]⟩
abbrev S_ : Shape := ⟨0, ![]⟩
abbrev S1 : Shape := ⟨1, ![1]⟩
abbrev S1x1 : Shape := ⟨2, ![1, 1]⟩
abbrev S200000x128 : Shape := ⟨2, ![200000, 128]⟩
abbrev S1x128x128 : Shape := ⟨3, ![1, 128, 128]⟩
abbrev S1x1x128 : Shape := ⟨3, ![1, 1, 128]⟩
abbrev S10000x1 : Shape := ⟨2, ![10000, 1]⟩
abbrev S16x128 : Shape := ⟨2, ![16, 128]⟩
abbrev S50000x1 : Shape := ⟨2, ![50000, 1]⟩
abbrev S16x1 : Shape := ⟨2, ![16, 1]⟩

abbrev nBuf : Space → Nat
  | .hbm => 313
  | .vmem => 101
  | .smem => 0
  | _ => 0

abbrev hbmTy0_0 (i : Nat) : BufTy := match i % 128 with
  | 0 => ⟨S50000x4, .f32⟩
  | 1 => ⟨S200000x1, .f32⟩
  | 2 => ⟨S4x128, .f32⟩
  | 3 => ⟨S128, .f32⟩
  | 4 => ⟨S128x128, .f32⟩
  | 5 => ⟨S128, .f32⟩
  | 6 => ⟨S3x1x128, .f32⟩
  | 7 => ⟨S3x128, .f32⟩
  | 8 => ⟨S3x128x128, .f32⟩
  | 9 => ⟨S3x128, .f32⟩
  | 10 => ⟨S3x384x128, .f32⟩
  | 11 => ⟨S3x128, .f32⟩
  | 12 => ⟨S3x128x128, .f32⟩
  | 13 => ⟨S3x128, .f32⟩
  | 14 => ⟨S3x256x128, .f32⟩
  | 15 => ⟨S3x128, .f32⟩
  | 16 => ⟨S3x128x128, .f32⟩
  | 17 => ⟨S3x128, .f32⟩
  | 18 => ⟨S128x128, .f32⟩
  | 19 => ⟨S128, .f32⟩
  | 20 => ⟨S128x128, .f32⟩
  | 21 => ⟨S128, .f32⟩
  | 22 => ⟨S2x200000, .i32⟩
  | 23 => ⟨S50000, .i32⟩
  | 24 => ⟨S1x128, .f32⟩
  | 25 => ⟨S1x128, .f32⟩
  | 26 => ⟨S50000x128, .f32⟩
  | 27 => ⟨S1x200000, .i32⟩
  | 28 => ⟨S200000, .i32⟩
  | 29 => ⟨S1x200000, .i32⟩
  | 30 => ⟨S200000, .i32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S1, .i32⟩
  | 40 => ⟨S_, .i32⟩
  | 41 => ⟨S200000x1, .i32⟩
  | 42 => ⟨S200000x1, .i1⟩
  | 43 => ⟨S1x1, .i32⟩
  | 44 => ⟨S200000x1, .i32⟩
  | 45 => ⟨S200000x1, .i1⟩
  | 46 => ⟨S200000x1, .i1⟩
  | 47 => ⟨S_, .i1⟩
  | 48 => ⟨S200000, .i1⟩
  | 49 => ⟨S200000x128, .f32⟩
  | 50 => ⟨S200000x128, .i1⟩
  | 51 => ⟨S_, .f32⟩
  | 52 => ⟨S200000x128, .f32⟩
  | 53 => ⟨S200000x128, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S1, .i32⟩
  | 63 => ⟨S_, .i32⟩
  | 64 => ⟨S200000x1, .i32⟩
  | 65 => ⟨S200000x1, .i1⟩
  | 66 => ⟨S1x1, .i32⟩
  | 67 => ⟨S200000x1, .i32⟩
  | 68 => ⟨S200000x1, .i1⟩
  | 69 => ⟨S200000x1, .i1⟩
  | 70 => ⟨S_, .i1⟩
  | 71 => ⟨S200000, .i1⟩
  | 72 => ⟨S200000x128, .f32⟩
  | 73 => ⟨S200000x128, .i1⟩
  | 74 => ⟨S_, .f32⟩
  | 75 => ⟨S200000x128, .f32⟩
  | 76 => ⟨S200000x128, .f32⟩
  | 77 => ⟨S1x128x128, .f32⟩
  | 78 => ⟨S128x128, .f32⟩
  | 79 => ⟨S1x128x128, .f32⟩
  | 80 => ⟨S128x128, .f32⟩
  | 81 => ⟨S1x128x128, .f32⟩
  | 82 => ⟨S128x128, .f32⟩
  | 83 => ⟨S1x1x128, .f32⟩
  | 84 => ⟨S1x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128, .f32⟩
  | 99 => ⟨S1x128, .f32⟩
  | 100 => ⟨S1x128, .f32⟩
  | 101 => ⟨S200000x128, .f32⟩
  | 102 => ⟨S_, .f32⟩
  | 103 => ⟨S50000x128, .f32⟩
  | 104 => ⟨S200000x1, .i32⟩
  | 105 => ⟨S50000x128, .f32⟩
  | 106 => ⟨S1x128x128, .f32⟩
  | 107 => ⟨S128x128, .f32⟩
  | 108 => ⟨S1x128x128, .f32⟩
  | 109 => ⟨S128x128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S1x128, .f32⟩
  | 118 => ⟨S50000x128, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S1, .i32⟩
  | _ => ⟨S50000x4, .f32⟩

abbrev hbmTy0_1 (i : Nat) : BufTy := match i % 128 with
  | 0 => ⟨S_, .i32⟩
  | 1 => ⟨S200000x1, .i32⟩
  | 2 => ⟨S200000x1, .i1⟩
  | 3 => ⟨S1x1, .i32⟩
  | 4 => ⟨S200000x1, .i32⟩
  | 5 => ⟨S200000x1, .i1⟩
  | 6 => ⟨S200000x1, .i1⟩
  | 7 => ⟨S_, .i1⟩
  | 8 => ⟨S200000, .i1⟩
  | 9 => ⟨S200000x128, .f32⟩
  | 10 => ⟨S200000x128, .i1⟩
  | 11 => ⟨S_, .f32⟩
  | 12 => ⟨S200000x128, .f32⟩
  | 13 => ⟨S200000x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S1, .i32⟩
  | 23 => ⟨S_, .i32⟩
  | 24 => ⟨S200000x1, .i32⟩
  | 25 => ⟨S200000x1, .i1⟩
  | 26 => ⟨S1x1, .i32⟩
  | 27 => ⟨S200000x1, .i32⟩
  | 28 => ⟨S200000x1, .i1⟩
  | 29 => ⟨S200000x1, .i1⟩
  | 30 => ⟨S_, .i1⟩
  | 31 => ⟨S200000, .i1⟩
  | 32 => ⟨S200000x128, .f32⟩
  | 33 => ⟨S200000x128, .i1⟩
  | 34 => ⟨S_, .f32⟩
  | 35 => ⟨S200000x128, .f32⟩
  | 36 => ⟨S200000x128, .f32⟩
  | 37 => ⟨S1x128x128, .f32⟩
  | 38 => ⟨S128x128, .f32⟩
  | 39 => ⟨S1x128x128, .f32⟩
  | 40 => ⟨S128x128, .f32⟩
  | 41 => ⟨S1x128x128, .f32⟩
  | 42 => ⟨S128x128, .f32⟩
  | 43 => ⟨S1x1x128, .f32⟩
  | 44 => ⟨S1x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S1x128, .f32⟩
  | 59 => ⟨S1x128, .f32⟩
  | 60 => ⟨S1x128, .f32⟩
  | 61 => ⟨S200000x128, .f32⟩
  | 62 => ⟨S_, .f32⟩
  | 63 => ⟨S50000x128, .f32⟩
  | 64 => ⟨S200000x1, .i32⟩
  | 65 => ⟨S50000x128, .f32⟩
  | 66 => ⟨S1x128x128, .f32⟩
  | 67 => ⟨S128x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S50000x128, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S1, .i32⟩
  | 88 => ⟨S_, .i32⟩
  | 89 => ⟨S200000x1, .i32⟩
  | 90 => ⟨S200000x1, .i1⟩
  | 91 => ⟨S1x1, .i32⟩
  | 92 => ⟨S200000x1, .i32⟩
  | 93 => ⟨S200000x1, .i1⟩
  | 94 => ⟨S200000x1, .i1⟩
  | 95 => ⟨S_, .i1⟩
  | 96 => ⟨S200000, .i1⟩
  | 97 => ⟨S200000x128, .f32⟩
  | 98 => ⟨S200000x128, .i1⟩
  | 99 => ⟨S_, .f32⟩
  | 100 => ⟨S200000x128, .f32⟩
  | 101 => ⟨S200000x128, .f32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S1, .i32⟩
  | 111 => ⟨S_, .i32⟩
  | 112 => ⟨S200000x1, .i32⟩
  | 113 => ⟨S200000x1, .i1⟩
  | 114 => ⟨S1x1, .i32⟩
  | 115 => ⟨S200000x1, .i32⟩
  | 116 => ⟨S200000x1, .i1⟩
  | 117 => ⟨S200000x1, .i1⟩
  | 118 => ⟨S_, .i1⟩
  | 119 => ⟨S200000, .i1⟩
  | 120 => ⟨S200000x128, .f32⟩
  | 121 => ⟨S200000x128, .i1⟩
  | 122 => ⟨S_, .f32⟩
  | 123 => ⟨S200000x128, .f32⟩
  | 124 => ⟨S200000x128, .f32⟩
  | 125 => ⟨S1x128x128, .f32⟩
  | 126 => ⟨S128x128, .f32⟩
  | 127 => ⟨S1x128x128, .f32⟩
  | _ => ⟨S50000x4, .f32⟩

abbrev hbmTy0_2 (i : Nat) : BufTy := match i % 128 with
  | 0 => ⟨S128x128, .f32⟩
  | 1 => ⟨S1x128x128, .f32⟩
  | 2 => ⟨S128x128, .f32⟩
  | 3 => ⟨S1x1x128, .f32⟩
  | 4 => ⟨S1x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S1x128, .f32⟩
  | 19 => ⟨S1x128, .f32⟩
  | 20 => ⟨S1x128, .f32⟩
  | 21 => ⟨S200000x128, .f32⟩
  | 22 => ⟨S_, .f32⟩
  | 23 => ⟨S50000x128, .f32⟩
  | 24 => ⟨S200000x1, .i32⟩
  | 25 => ⟨S50000x128, .f32⟩
  | 26 => ⟨S1x128x128, .f32⟩
  | 27 => ⟨S128x128, .f32⟩
  | 28 => ⟨S1x128x128, .f32⟩
  | 29 => ⟨S128x128, .f32⟩
  | 30 => ⟨S1x128, .f32⟩
  | 31 => ⟨S128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S1x128, .f32⟩
  | 38 => ⟨S50000x128, .f32⟩
  | 39 => ⟨S_, .f32⟩
  | 40 => ⟨S16x128, .f32⟩
  | 41 => ⟨S50000x1, .i32⟩
  | 42 => ⟨S16x128, .f32⟩
  | 43 => ⟨S_, .f32⟩
  | 44 => ⟨S50000x1, .f32⟩
  | 45 => ⟨S_, .f32⟩
  | 46 => ⟨S16x1, .f32⟩
  | 47 => ⟨S50000x1, .i32⟩
  | 48 => ⟨S16x1, .f32⟩
  | 49 => ⟨S_, .f32⟩
  | 50 => ⟨S16x1, .f32⟩
  | 51 => ⟨S16x1, .f32⟩
  | 52 => ⟨S16x128, .f32⟩
  | 53 => ⟨S16x128, .f32⟩
  | 54 => ⟨S1x128, .f32⟩
  | 55 => ⟨S1x128, .f32⟩
  | 56 => ⟨S16x128, .f32⟩
  | _ => ⟨S50000x4, .f32⟩

abbrev hbmTy (i : Nat) : BufTy := match i / 128 with
  | 0 => hbmTy0_0 i
  | 1 => hbmTy0_1 i
  | 2 => hbmTy0_2 i
  | _ => ⟨S50000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S4x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x1, .f32⟩
  | .local _ .vmem, ⟨13, _⟩ => ⟨S10000x1, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x1, .f32⟩
  | .local _ .vmem, ⟨42, _⟩ => ⟨S10000x1, .f32⟩
  | .local _ .vmem, ⟨43, _⟩ => ⟨S1x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S1x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S128x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S10000x128, .f32⟩
  | .local _ .vmem, ⟨69, _⟩ => ⟨S10000x128, .f32⟩
  | .local _ .vmem, ⟨70, _⟩ => ⟨S10000x1, .f32⟩
  | .local _ .vmem, ⟨71, _⟩ => ⟨S10000x1, .f32⟩
  | .local _ .vmem, ⟨72, _⟩ => ⟨S1x128, .f32⟩
  | .local _ .vmem, ⟨73, _⟩ => ⟨S1x128, .f32⟩
  | .local _ .vmem, ⟨74, _⟩ => ⟨S128x128, .f32⟩
  | .local _ .vmem, ⟨75, _⟩ => ⟨S1x128, .f32⟩
  | .local _ .vmem, ⟨76, _⟩ => ⟨S128x128, .f32⟩
  | .local _ .vmem, ⟨77, _⟩ => ⟨S128x128, .f32⟩
  | .local _ .vmem, ⟨78, _⟩ => ⟨S128x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S10000x128, .f32⟩
  | .local _ .vmem, ⟨83, _⟩ => ⟨S10000x128, .f32⟩
  | .local _ .vmem, ⟨84, _⟩ => ⟨S10000x128, .f32⟩
  | .local _ .vmem, ⟨85, _⟩ => ⟨S10000x128, .f32⟩
  | .local _ .vmem, ⟨86, _⟩ => ⟨S10000x128, .f32⟩
  | .local _ .vmem, ⟨87, _⟩ => ⟨S10000x128, .f32⟩
  | .local _ .vmem, ⟨88, _⟩ => ⟨S128x128, .f32⟩
  | .local _ .vmem, ⟨89, _⟩ => ⟨S128x128, .f32⟩
  | .local _ .vmem, ⟨90, _⟩ => ⟨S1x128, .f32⟩
  | .local _ .vmem, ⟨91, _⟩ => ⟨S128x128, .f32⟩
  | .local _ .vmem, ⟨92, _⟩ => ⟨S1x128, .f32⟩
  | .local _ .vmem, ⟨93, _⟩ => ⟨S10000x128, .f32⟩
  | .local _ .vmem, ⟨94, _⟩ => ⟨S10000x128, .f32⟩
  | .local _ .vmem, ⟨95, _⟩ => ⟨S16x128, .f32⟩
  | .local _ .vmem, ⟨96, _⟩ => ⟨S128x128, .f32⟩
  | .local _ .vmem, ⟨97, _⟩ => ⟨S1x128, .f32⟩
  | .local _ .vmem, ⟨98, _⟩ => ⟨S128x128, .f32⟩
  | .local _ .vmem, ⟨99, _⟩ => ⟨S1x128, .f32⟩
  | .local _ .vmem, ⟨100, _⟩ => ⟨S16x128, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v7 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_cst : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_call2_c : Ref sig .tc := ⟨.hbm, 119, rfl⟩
abbrev main_call2_v0 : Ref sig .tc := ⟨.hbm, 120, rfl⟩
abbrev main_call2_v1 : Ref sig .tc := ⟨.hbm, 121, rfl⟩
abbrev main_call2_c_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_c_1 : Ref sig .tc := ⟨.hbm, 127, rfl⟩
abbrev main_call2_c_2 : Ref sig .tc := ⟨.hbm, 128, rfl⟩
abbrev main_call2_v6 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_3 : Ref sig .tc := ⟨.hbm, 135, rfl⟩
abbrev main_call2_v12 : Ref sig .tc := ⟨.hbm, 136, rfl⟩
abbrev main_call2_v13 : Ref sig .tc := ⟨.hbm, 137, rfl⟩
abbrev main_call2_v14 : Ref sig .tc := ⟨.hbm, 138, rfl⟩
abbrev main_call2_cst : Ref sig .tc := ⟨.hbm, 139, rfl⟩
abbrev main_call2_v15 : Ref sig .tc := ⟨.hbm, 140, rfl⟩
abbrev main_v50 : Ref sig .tc := ⟨.hbm, 141, rfl⟩
abbrev main_call3_c : Ref sig .tc := ⟨.hbm, 142, rfl⟩
abbrev main_call3_v0 : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_c_1 : Ref sig .tc := ⟨.hbm, 150, rfl⟩
abbrev main_call3_c_2 : Ref sig .tc := ⟨.hbm, 151, rfl⟩
abbrev main_call3_v6 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_3 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_call3_cst : Ref sig .tc := ⟨.hbm, 162, rfl⟩
abbrev main_call3_v15 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_cst_0 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_call4_c : Ref sig .tc := ⟨.hbm, 207, rfl⟩
abbrev main_call4_v0 : Ref sig .tc := ⟨.hbm, 208, rfl⟩
abbrev main_call4_v1 : Ref sig .tc := ⟨.hbm, 209, rfl⟩
abbrev main_call4_c_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_c_1 : Ref sig .tc := ⟨.hbm, 215, rfl⟩
abbrev main_call4_c_2 : Ref sig .tc := ⟨.hbm, 216, rfl⟩
abbrev main_call4_v6 : Ref sig .tc := ⟨.hbm, 217, rfl⟩
abbrev main_call4_v7 : Ref sig .tc := ⟨.hbm, 218, rfl⟩
abbrev main_call4_v8 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_c_3 : Ref sig .tc := ⟨.hbm, 223, rfl⟩
abbrev main_call4_v12 : Ref sig .tc := ⟨.hbm, 224, rfl⟩
abbrev main_call4_v13 : Ref sig .tc := ⟨.hbm, 225, rfl⟩
abbrev main_call4_v14 : Ref sig .tc := ⟨.hbm, 226, rfl⟩
abbrev main_call4_cst : Ref sig .tc := ⟨.hbm, 227, rfl⟩
abbrev main_call4_v15 : Ref sig .tc := ⟨.hbm, 228, rfl⟩
abbrev main_v93 : Ref sig .tc := ⟨.hbm, 229, rfl⟩
abbrev main_call5_c : Ref sig .tc := ⟨.hbm, 230, rfl⟩
abbrev main_call5_v0 : Ref sig .tc := ⟨.hbm, 231, rfl⟩
abbrev main_call5_v1 : Ref sig .tc := ⟨.hbm, 232, rfl⟩
abbrev main_call5_c_0 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_call5_v5 : Ref sig .tc := ⟨.hbm, 237, rfl⟩
abbrev main_call5_c_1 : Ref sig .tc := ⟨.hbm, 238, rfl⟩
abbrev main_call5_c_2 : Ref sig .tc := ⟨.hbm, 239, rfl⟩
abbrev main_call5_v6 : Ref sig .tc := ⟨.hbm, 240, rfl⟩
abbrev main_call5_v7 : Ref sig .tc := ⟨.hbm, 241, rfl⟩
abbrev main_call5_v8 : Ref sig .tc := ⟨.hbm, 242, rfl⟩
abbrev main_call5_v9 : Ref sig .tc := ⟨.hbm, 243, rfl⟩
abbrev main_call5_v10 : Ref sig .tc := ⟨.hbm, 244, rfl⟩
abbrev main_call5_v11 : Ref sig .tc := ⟨.hbm, 245, rfl⟩
abbrev main_call5_c_3 : Ref sig .tc := ⟨.hbm, 246, rfl⟩
abbrev main_call5_v12 : Ref sig .tc := ⟨.hbm, 247, rfl⟩
abbrev main_call5_v13 : Ref sig .tc := ⟨.hbm, 248, rfl⟩
abbrev main_call5_v14 : Ref sig .tc := ⟨.hbm, 249, rfl⟩
abbrev main_call5_cst : Ref sig .tc := ⟨.hbm, 250, rfl⟩
abbrev main_call5_v15 : Ref sig .tc := ⟨.hbm, 251, rfl⟩
abbrev main_v94 : Ref sig .tc := ⟨.hbm, 252, rfl⟩
abbrev main_v95 : Ref sig .tc := ⟨.hbm, 253, rfl⟩
abbrev main_v96 : Ref sig .tc := ⟨.hbm, 254, rfl⟩
abbrev main_v97 : Ref sig .tc := ⟨.hbm, 255, rfl⟩
abbrev main_v98 : Ref sig .tc := ⟨.hbm, 256, rfl⟩
abbrev main_v99 : Ref sig .tc := ⟨.hbm, 257, rfl⟩
abbrev main_v100 : Ref sig .tc := ⟨.hbm, 258, rfl⟩
abbrev main_v101 : Ref sig .tc := ⟨.hbm, 259, rfl⟩
abbrev main_v102 : Ref sig .tc := ⟨.hbm, 260, rfl⟩
abbrev main_v103 : Ref sig .tc := ⟨.hbm, 261, rfl⟩
abbrev main_v104 : Ref sig .tc := ⟨.hbm, 262, rfl⟩
abbrev main_v105 : Ref sig .tc := ⟨.hbm, 263, rfl⟩
abbrev main_v106 : Ref sig .tc := ⟨.hbm, 264, rfl⟩
abbrev main_v107 : Ref sig .tc := ⟨.hbm, 265, rfl⟩
abbrev main_v108 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_v112 : Ref sig .tc := ⟨.hbm, 270, rfl⟩
abbrev main_v113 : Ref sig .tc := ⟨.hbm, 271, rfl⟩
abbrev main_v114 : Ref sig .tc := ⟨.hbm, 272, rfl⟩
abbrev main_v115 : Ref sig .tc := ⟨.hbm, 273, rfl⟩
abbrev main_v116 : Ref sig .tc := ⟨.hbm, 274, rfl⟩
abbrev main_v117 : Ref sig .tc := ⟨.hbm, 275, rfl⟩
abbrev main_v118 : Ref sig .tc := ⟨.hbm, 276, rfl⟩
abbrev main_v119 : Ref sig .tc := ⟨.hbm, 277, rfl⟩
abbrev main_cst_1 : Ref sig .tc := ⟨.hbm, 278, rfl⟩
abbrev main_v120 : Ref sig .tc := ⟨.hbm, 279, rfl⟩
abbrev main_v121 : Ref sig .tc := ⟨.hbm, 280, rfl⟩
abbrev main_v122 : Ref sig .tc := ⟨.hbm, 281, rfl⟩
abbrev main_v123 : Ref sig .tc := ⟨.hbm, 282, rfl⟩
abbrev main_v124 : Ref sig .tc := ⟨.hbm, 283, rfl⟩
abbrev main_v125 : Ref sig .tc := ⟨.hbm, 284, rfl⟩
abbrev main_v126 : Ref sig .tc := ⟨.hbm, 285, rfl⟩
abbrev main_v127 : Ref sig .tc := ⟨.hbm, 286, rfl⟩
abbrev main_v128 : Ref sig .tc := ⟨.hbm, 287, rfl⟩
abbrev main_v129 : Ref sig .tc := ⟨.hbm, 288, rfl⟩
abbrev main_v130 : Ref sig .tc := ⟨.hbm, 289, rfl⟩
abbrev main_v131 : Ref sig .tc := ⟨.hbm, 290, rfl⟩
abbrev main_v132 : Ref sig .tc := ⟨.hbm, 291, rfl⟩
abbrev main_v133 : Ref sig .tc := ⟨.hbm, 292, rfl⟩
abbrev main_v134 : Ref sig .tc := ⟨.hbm, 293, rfl⟩
abbrev main_v135 : Ref sig .tc := ⟨.hbm, 294, rfl⟩
abbrev main_cst_2 : Ref sig .tc := ⟨.hbm, 295, rfl⟩
abbrev main_v136 : Ref sig .tc := ⟨.hbm, 296, rfl⟩
abbrev main_v137 : Ref sig .tc := ⟨.hbm, 297, rfl⟩
abbrev main_v138 : Ref sig .tc := ⟨.hbm, 298, rfl⟩
abbrev main_cst_3 : Ref sig .tc := ⟨.hbm, 299, rfl⟩
abbrev main_v139 : Ref sig .tc := ⟨.hbm, 300, rfl⟩
abbrev main_cst_4 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_cst_5 : Ref sig .tc := ⟨.hbm, 305, rfl⟩
abbrev main_v143 : Ref sig .tc := ⟨.hbm, 306, rfl⟩
abbrev main_v144 : Ref sig .tc := ⟨.hbm, 307, rfl⟩
abbrev main_v145 : Ref sig .tc := ⟨.hbm, 308, rfl⟩
abbrev main_v146 : Ref sig .tc := ⟨.hbm, 309, rfl⟩
abbrev main_v147 : Ref sig .tc := ⟨.hbm, 310, rfl⟩
abbrev main_v148 : Ref sig .tc := ⟨.hbm, 311, rfl⟩
abbrev main_v149 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg13_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg10_0 : Ref sig .tc := ⟨.vmem, 50, rfl⟩
abbrev cc3_stg11_0 : Ref sig .tc := ⟨.vmem, 51, rfl⟩
abbrev cc3_stg12_0 : Ref sig .tc := ⟨.vmem, 52, rfl⟩
abbrev cc3_stg13_0 : Ref sig .tc := ⟨.vmem, 53, rfl⟩
abbrev cc3_stg13_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg7_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg4_0 : Ref sig .tc := ⟨.vmem, 73, rfl⟩
abbrev cc5_stg5_0 : Ref sig .tc := ⟨.vmem, 74, rfl⟩
abbrev cc5_stg6_0 : Ref sig .tc := ⟨.vmem, 75, rfl⟩
abbrev cc5_stg7_0 : Ref sig .tc := ⟨.vmem, 76, rfl⟩
abbrev cc5_stg8_0 : Ref sig .tc := ⟨.vmem, 77, rfl⟩
abbrev cc5_stg9_0 : Ref sig .tc := ⟨.vmem, 78, rfl⟩
abbrev cc5_stg10_0 : Ref sig .tc := ⟨.vmem, 79, rfl⟩
abbrev cc5_stg11_0 : Ref sig .tc := ⟨.vmem, 80, rfl⟩
abbrev cc5_stg12_0 : Ref sig .tc := ⟨.vmem, 81, rfl⟩
abbrev cc5_stg13_0 : Ref sig .tc := ⟨.vmem, 82, rfl⟩
abbrev cc5_stg13_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg3_0 : Ref sig .tc := ⟨.vmem, 89, rfl⟩
abbrev cc6_stg4_0 : Ref sig .tc := ⟨.vmem, 90, rfl⟩
abbrev cc6_stg5_0 : Ref sig .tc := ⟨.vmem, 91, rfl⟩
abbrev cc6_stg6_0 : Ref sig .tc := ⟨.vmem, 92, rfl⟩
abbrev cc6_stg7_0 : Ref sig .tc := ⟨.vmem, 93, rfl⟩
abbrev cc6_stg7_1 : Ref sig .tc := ⟨.vmem, 94, rfl⟩
abbrev cc7_stg0_0 : Ref sig .tc := ⟨.vmem, 95, rfl⟩
abbrev cc7_stg1_0 : Ref sig .tc := ⟨.vmem, 96, rfl⟩
abbrev cc7_stg2_0 : Ref sig .tc := ⟨.vmem, 97, rfl⟩
abbrev cc7_stg3_0 : Ref sig .tc := ⟨.vmem, 98, rfl⟩
abbrev cc7_stg4_0 : Ref sig .tc := ⟨.vmem, 99, rfl⟩
abbrev cc7_stg5_0 : Ref sig .tc := ⟨.vmem, 100, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem13_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem11_0 : DmaSem sig := 51
abbrev cc3_sem12_0 : DmaSem sig := 52
abbrev cc3_sem13_0 : DmaSem sig := 53
abbrev cc3_sem13_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem7_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem4_0 : DmaSem sig := 73
abbrev cc5_sem5_0 : DmaSem sig := 74
abbrev cc5_sem6_0 : DmaSem sig := 75
abbrev cc5_sem7_0 : DmaSem sig := 76
abbrev cc5_sem8_0 : DmaSem sig := 77
abbrev cc5_sem9_0 : DmaSem sig := 78
abbrev cc5_sem10_0 : DmaSem sig := 79
abbrev cc5_sem11_0 : DmaSem sig := 80
abbrev cc5_sem12_0 : DmaSem sig := 81
abbrev cc5_sem13_0 : DmaSem sig := 82
abbrev cc5_sem13_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem3_0 : DmaSem sig := 89
abbrev cc6_sem4_0 : DmaSem sig := 90
abbrev cc6_sem5_0 : DmaSem sig := 91
abbrev cc6_sem6_0 : DmaSem sig := 92
abbrev cc6_sem7_0 : DmaSem sig := 93
abbrev cc6_sem7_1 : DmaSem sig := 94
abbrev cc7_sem0_0 : DmaSem sig := 95
abbrev cc7_sem1_0 : DmaSem sig := 96
abbrev cc7_sem2_0 : DmaSem sig := 97
abbrev cc7_sem3_0 : DmaSem sig := 98
abbrev cc7_sem4_0 : DmaSem sig := 99
abbrev cc7_sem5_0 : DmaSem sig := 100

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S10000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S10000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S128x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S10000x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S16x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S16x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

class Facts₀ : Prop where
  shapeCasts_S128_S1x128 : S128.ShapeCasts S1x128
  inb_S10000x4_S10000x4_0_0 : ∀ a, (![0, 0] : Fin 2 → Nat) a + S10000x4.size a ≤ S10000x4.size a
  h_S10000x4 : 0 < S10000x4.numel
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  slices_S3x384x128_S1x128x128_0_0_0 : S3x384x128.Slices ![0, 0, 0] S1x128x128
  shapeCasts_S1x128x128_S128x128 : S1x128x128.ShapeCasts S128x128
  slices_S3x384x128_S1x128x128_0_128_0 : S3x384x128.Slices ![0, 128, 0] S1x128x128
  slices_S3x384x128_S1x128x128_0_256_0 : S3x384x128.Slices ![0, 256, 0] S1x128x128
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S128x128_S128x128 : S128x128.ShapeCasts S128x128
  bcast_S_S50000x128 : S_.BroadcastsInDim S50000x128 (![] : Fin 0 → Fin S50000x128.rank)
  slices_S3x256x128_S1x128x128_0_0_0 : S3x256x128.Slices ![0, 0, 0] S1x128x128
  slices_S3x256x128_S1x128x128_0_128_0 : S3x256x128.Slices ![0, 128, 0] S1x128x128
  slices_S3x384x128_S1x128x128_1_0_0 : S3x384x128.Slices ![1, 0, 0] S1x128x128
  slices_S3x384x128_S1x128x128_1_128_0 : S3x384x128.Slices ![1, 128, 0] S1x128x128
  slices_S3x384x128_S1x128x128_1_256_0 : S3x384x128.Slices ![1, 256, 0] S1x128x128
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x256x128_S1x128x128_1_0_0 : S3x256x128.Slices ![1, 0, 0] S1x128x128
  slices_S3x256x128_S1x128x128_1_128_0 : S3x256x128.Slices ![1, 128, 0] S1x128x128
  slices_S3x384x128_S1x128x128_2_0_0 : S3x384x128.Slices ![2, 0, 0] S1x128x128
  slices_S3x384x128_S1x128x128_2_128_0 : S3x384x128.Slices ![2, 128, 0] S1x128x128
  slices_S3x384x128_S1x128x128_2_256_0 : S3x384x128.Slices ![2, 256, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  slices_S3x256x128_S1x128x128_2_0_0 : S3x256x128.Slices ![2, 0, 0] S1x128x128
  slices_S3x256x128_S1x128x128_2_128_0 : S3x256x128.Slices ![2, 128, 0] S1x128x128
  bcast_S_S16x128 : S_.BroadcastsInDim S16x128 (![] : Fin 0 → Fin S16x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S16x128 : S1x128.Broadcasts S16x128
  dot_S10000x4_S4x128_S10000x128_1_0_0_1_n_n_wf : DotDims.WF S10000x4 S4x128 S10000x128 [1] [0] [0] [1] [] []
  dot_S10000x128_S128x128_S10000x128_1_0_0_1_n_n_wf : DotDims.WF S10000x128 S128x128 S10000x128 [1] [0] [0] [1] [] []
  gather_S50000x128_S200000x1_S200000x128_1_0_n_n_0_1_1128_wf : GatherDims.WF S50000x128 S200000x1 S200000x128 [1] [0] [] [0] [] 1 ![1, 128]
  dot_S10000x1_S1x128_S10000x128_1_0_0_1_n_n_wf : DotDims.WF S10000x1 S1x128 S10000x128 [1] [0] [0] [1] [] []
  scatter_S50000x128_S200000x1_S200000x128_1_0_0_1_wf : ScatterDims.WF S50000x128 S200000x1 S200000x128 [1] [0] [0] 1
  scatter_S16x128_S50000x1_S50000x128_1_0_0_1_wf : ScatterDims.WF S16x128 S50000x1 S50000x128 [1] [0] [0] 1
  scatter_S16x1_S50000x1_S50000x1_1_0_0_1_wf : ScatterDims.WF S16x1 S50000x1 S50000x1 [1] [0] [0] 1
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S50000x4.size a
  hwx0_0 : ∀ i : grid0.Coords, EltTy.bits .f32 = 32 ∨ (Rect.block (s := S50000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S200000x128.size a
  hwx1_1 : ∀ i : grid1.Coords, EltTy.bits .f32 = 32 ∨ (Rect.block (s := S200000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S200000x1.size a
  hwx1_2 : ∀ i : grid1.Coords, EltTy.bits .f32 = 32 ∨ (Rect.block (s := S200000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S10000x128.size a ≤ S200000x128.size a
  hwx1_13 : ∀ i : grid1.Coords, EltTy.bits .f32 = 32 ∨ (Rect.block (s := S200000x128) S10000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S50000x128.size a
  hwx2_7 : ∀ i : grid2.Coords, EltTy.bits .f32 = 32 ∨ (Rect.block (s := S50000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S200000x128.size a
  hwx3_0 : ∀ i : grid3.Coords, EltTy.bits .f32 = 32 ∨ (Rect.block (s := S200000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S200000x128.size a
  hwx3_1 : ∀ i : grid3.Coords, EltTy.bits .f32 = 32 ∨ (Rect.block (s := S200000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S200000x1.size a
  hwx3_2 : ∀ i : grid3.Coords, EltTy.bits .f32 = 32 ∨ (Rect.block (s := S200000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x128.size a ≤ S128x128.size a
  hwx3_11 : ∀ i : grid3.Coords, EltTy.bits .f32 = 32 ∨ (Rect.block (s := S128x128) S128x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S10000x128.size a ≤ S200000x128.size a
  hwx3_13 : ∀ i : grid3.Coords, EltTy.bits .f32 = 32 ∨ (Rect.block (s := S200000x128) S10000x128.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .f32 = 32 ∨ (Rect.block (s := S50000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S50000x128.size a
  hwx4_7 : ∀ i : grid4.Coords, EltTy.bits .f32 = 32 ∨ (Rect.block (s := S50000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S200000x128.size a
  hwx5_0 : ∀ i : grid5.Coords, EltTy.bits .f32 = 32 ∨ (Rect.block (s := S200000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S200000x128.size a
  hwx5_1 : ∀ i : grid5.Coords, EltTy.bits .f32 = 32 ∨ (Rect.block (s := S200000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S200000x1.size a
  hwx5_2 : ∀ i : grid5.Coords, EltTy.bits .f32 = 32 ∨ (Rect.block (s := S200000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x128.size a ≤ S128x128.size a
  hwx5_9 : ∀ i : grid5.Coords, EltTy.bits .f32 = 32 ∨ (Rect.block (s := S128x128) S128x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S128x128.size a ≤ S128x128.size a
  hwx5_11 : ∀ i : grid5.Coords, EltTy.bits .f32 = 32 ∨ (Rect.block (s := S128x128) S128x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S10000x128.size a ≤ S200000x128.size a
  hwx5_13 : ∀ i : grid5.Coords, EltTy.bits .f32 = 32 ∨ (Rect.block (s := S200000x128) S10000x128.size (cc5_transform_13 i) (hinb5_13 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .f32 = 32 ∨ (Rect.block (s := S50000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x128.size a ≤ S50000x128.size a
  hwx6_7 : ∀ i : grid6.Coords, EltTy.bits .f32 = 32 ∨ (Rect.block (s := S50000x128) S10000x128.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S16x128.size a ≤ S16x128.size a
  hwx7_0 : ∀ i : grid7.Coords, EltTy.bits .f32 = 32 ∨ (Rect.block (s := S16x128) S16x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S16x128.size a ≤ S16x128.size a
  hwx7_5 : ∀ i : grid7.Coords, EltTy.bits .f32 = 32 ∨ (Rect.block (s := S16x128) S16x128.size (cc7_transform_5 i) (hinb7_5 i)).WholeWords (EltTy.packing .f32)

variable [Facts₀]

def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16x1_S50000x1_S50000x1_1_0_0_1 : ScatterDims S16x1 S50000x1 S50000x1 where
  updateWindowDims := [1]
  insertedWindowDims := [0]
  scatterDimsToOperandDims := [0]
  indexVectorDim := 1
  wf := scatter_S16x1_S50000x1_S50000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v26) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v32) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v33) S10000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v2) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v55) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v57) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v74) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v69) S128x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v75) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v76) S10000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v49) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v93) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v115) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v116) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v96) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v98) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v100) S128x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v117) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v112) S128x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v118) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v119) S10000x128.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

abbrev win6_0 : Pipeline.Window sig grid6 :=
  Pipeline.Window.ofSpec (Memref.whole main_v92) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v124) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v130) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v134) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v135) S10000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v146) S16x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg18) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v147) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg20) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v148) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v149) S16x128.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x4 : Shape := ⟨2, ![50000, 4]⟩
abbrev S200000x1 : Shape := ⟨2, ![200000, 1]⟩
abbrev S4x128 : Shape := ⟨2, ![4, 128]⟩
abbrev S128 : Shape := ⟨1, ![128]⟩
abbrev S128x128 : Shape := ⟨2, ![128, 128]⟩
abbrev S3x1x128 : Shape := ⟨3, ![3, 1, 128]⟩
abbrev S3x128 : Shape := ⟨2, ![3, 128]⟩
abbrev S3x128x128 : Shape := ⟨3, ![3, 128, 128]⟩
abbrev S3x384x128 : Shape := ⟨3, ![3, 384, 128]⟩
abbrev S3x256x128 : Shape := ⟨3, ![3, 256, 128]⟩
abbrev S2x200000 : Shape := ⟨2, ![2, 200000]⟩
abbrev S50000 : Shape := ⟨1, ![50000]⟩
abbrev S50000x128 : Shape := ⟨2, ![50000, 128]⟩
abbrev S1x128 : Shape := ⟨2, ![1, 128]⟩
abbrev S_ : Shape := ⟨0, ![]⟩
abbrev S1x200000 : Shape := ⟨2, ![1, 200000]⟩
abbrev S200000 : Shape := ⟨1, ![200000]⟩
abbrev S1x1x128 : Shape := ⟨3, ![1, 1, 128]⟩
abbrev S1x128x128 : Shape := ⟨3, ![1, 128, 128]⟩
abbrev S200000x128 : Shape := ⟨2, ![200000, 128]⟩
abbrev S200000x384 : Shape := ⟨2, ![200000, 384]⟩
abbrev S1x384x128 : Shape := ⟨3, ![1, 384, 128]⟩
abbrev S384x128 : Shape := ⟨2, ![384, 128]⟩
abbrev S50000x256 : Shape := ⟨2, ![50000, 256]⟩
abbrev S1x256x128 : Shape := ⟨3, ![1, 256, 128]⟩
abbrev S256x128 : Shape := ⟨2, ![256, 128]⟩
abbrev S16x128 : Shape := ⟨2, ![16, 128]⟩
abbrev S50000x1 : Shape := ⟨2, ![50000, 1]⟩
abbrev S16x1 : Shape := ⟨2, ![16, 1]⟩

abbrev nBuf : Space → Nat
  | .hbm => 308
  | .vmem => 0
  | .smem => 0
  | _ => 0

abbrev hbmTy0_0 (i : Nat) : BufTy := match i % 128 with
  | 0 => ⟨S50000x4, .f32⟩
  | 1 => ⟨S200000x1, .f32⟩
  | 2 => ⟨S4x128, .f32⟩
  | 3 => ⟨S128, .f32⟩
  | 4 => ⟨S128x128, .f32⟩
  | 5 => ⟨S128, .f32⟩
  | 6 => ⟨S3x1x128, .f32⟩
  | 7 => ⟨S3x128, .f32⟩
  | 8 => ⟨S3x128x128, .f32⟩
  | 9 => ⟨S3x128, .f32⟩
  | 10 => ⟨S3x384x128, .f32⟩
  | 11 => ⟨S3x128, .f32⟩
  | 12 => ⟨S3x128x128, .f32⟩
  | 13 => ⟨S3x128, .f32⟩
  | 14 => ⟨S3x256x128, .f32⟩
  | 15 => ⟨S3x128, .f32⟩
  | 16 => ⟨S3x128x128, .f32⟩
  | 17 => ⟨S3x128, .f32⟩
  | 18 => ⟨S128x128, .f32⟩
  | 19 => ⟨S128, .f32⟩
  | 20 => ⟨S128x128, .f32⟩
  | 21 => ⟨S128, .f32⟩
  | 22 => ⟨S2x200000, .i32⟩
  | 23 => ⟨S50000, .i32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x200000, .i32⟩
  | 36 => ⟨S200000, .i32⟩
  | 37 => ⟨S1x200000, .i32⟩
  | 38 => ⟨S200000, .i32⟩
  | 39 => ⟨S1x1x128, .f32⟩
  | 40 => ⟨S1x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S200000x128, .f32⟩
  | 48 => ⟨S1x128, .f32⟩
  | 49 => ⟨S200000x128, .f32⟩
  | 50 => ⟨S200000x128, .f32⟩
  | 51 => ⟨S_, .f32⟩
  | 52 => ⟨S200000x128, .f32⟩
  | 53 => ⟨S200000x128, .f32⟩
  | 54 => ⟨S200000x128, .f32⟩
  | 55 => ⟨S1x128, .f32⟩
  | 56 => ⟨S200000x128, .f32⟩
  | 57 => ⟨S200000x128, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x128, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x128, .f32⟩
  | 76 => ⟨S200000x384, .f32⟩
  | 77 => ⟨S1x384x128, .f32⟩
  | 78 => ⟨S384x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S200000x128, .f32⟩
  | 86 => ⟨S1x128, .f32⟩
  | 87 => ⟨S200000x128, .f32⟩
  | 88 => ⟨S200000x128, .f32⟩
  | 89 => ⟨S_, .f32⟩
  | 90 => ⟨S200000x128, .f32⟩
  | 91 => ⟨S200000x128, .f32⟩
  | 92 => ⟨S200000x128, .f32⟩
  | 93 => ⟨S1x128, .f32⟩
  | 94 => ⟨S200000x128, .f32⟩
  | 95 => ⟨S200000x128, .f32⟩
  | 96 => ⟨S_, .f32⟩
  | 97 => ⟨S50000x128, .f32⟩
  | 98 => ⟨S200000x1, .i32⟩
  | 99 => ⟨S50000x128, .f32⟩
  | 100 => ⟨S50000x256, .f32⟩
  | 101 => ⟨S1x256x128, .f32⟩
  | 102 => ⟨S256x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x1x128, .f32⟩
  | 121 => ⟨S1x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S50000x4, .f32⟩

abbrev hbmTy0_1 (i : Nat) : BufTy := match i % 128 with
  | 0 => ⟨S200000x128, .f32⟩
  | 1 => ⟨S1x128, .f32⟩
  | 2 => ⟨S200000x128, .f32⟩
  | 3 => ⟨S200000x128, .f32⟩
  | 4 => ⟨S_, .f32⟩
  | 5 => ⟨S200000x128, .f32⟩
  | 6 => ⟨S200000x128, .f32⟩
  | 7 => ⟨S200000x128, .f32⟩
  | 8 => ⟨S1x128, .f32⟩
  | 9 => ⟨S200000x128, .f32⟩
  | 10 => ⟨S200000x128, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x128, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x128, .f32⟩
  | 29 => ⟨S200000x384, .f32⟩
  | 30 => ⟨S1x384x128, .f32⟩
  | 31 => ⟨S384x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S200000x128, .f32⟩
  | 39 => ⟨S1x128, .f32⟩
  | 40 => ⟨S200000x128, .f32⟩
  | 41 => ⟨S200000x128, .f32⟩
  | 42 => ⟨S_, .f32⟩
  | 43 => ⟨S200000x128, .f32⟩
  | 44 => ⟨S200000x128, .f32⟩
  | 45 => ⟨S200000x128, .f32⟩
  | 46 => ⟨S1x128, .f32⟩
  | 47 => ⟨S200000x128, .f32⟩
  | 48 => ⟨S200000x128, .f32⟩
  | 49 => ⟨S_, .f32⟩
  | 50 => ⟨S50000x128, .f32⟩
  | 51 => ⟨S200000x1, .i32⟩
  | 52 => ⟨S50000x128, .f32⟩
  | 53 => ⟨S50000x256, .f32⟩
  | 54 => ⟨S1x256x128, .f32⟩
  | 55 => ⟨S256x128, .f32⟩
  | 56 => ⟨S1x128, .f32⟩
  | 57 => ⟨S128, .f32⟩
  | 58 => ⟨S1x128x128, .f32⟩
  | 59 => ⟨S128x128, .f32⟩
  | 60 => ⟨S1x128, .f32⟩
  | 61 => ⟨S128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x1x128, .f32⟩
  | 74 => ⟨S1x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S200000x128, .f32⟩
  | 82 => ⟨S1x128, .f32⟩
  | 83 => ⟨S200000x128, .f32⟩
  | 84 => ⟨S200000x128, .f32⟩
  | 85 => ⟨S_, .f32⟩
  | 86 => ⟨S200000x128, .f32⟩
  | 87 => ⟨S200000x128, .f32⟩
  | 88 => ⟨S200000x128, .f32⟩
  | 89 => ⟨S1x128, .f32⟩
  | 90 => ⟨S200000x128, .f32⟩
  | 91 => ⟨S200000x128, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x128, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .f32⟩
  | 110 => ⟨S200000x384, .f32⟩
  | 111 => ⟨S1x384x128, .f32⟩
  | 112 => ⟨S384x128, .f32⟩
  | 113 => ⟨S1x128, .f32⟩
  | 114 => ⟨S128, .f32⟩
  | 115 => ⟨S1x128x128, .f32⟩
  | 116 => ⟨S128x128, .f32⟩
  | 117 => ⟨S1x128, .f32⟩
  | 118 => ⟨S128, .f32⟩
  | 119 => ⟨S200000x128, .f32⟩
  | 120 => ⟨S1x128, .f32⟩
  | 121 => ⟨S200000x128, .f32⟩
  | 122 => ⟨S200000x128, .f32⟩
  | 123 => ⟨S_, .f32⟩
  | 124 => ⟨S200000x128, .f32⟩
  | 125 => ⟨S200000x128, .f32⟩
  | 126 => ⟨S200000x128, .f32⟩
  | 127 => ⟨S1x128, .f32⟩
  | _ => ⟨S50000x4, .f32⟩

abbrev hbmTy0_2 (i : Nat) : BufTy := match i % 128 with
  | 0 => ⟨S200000x128, .f32⟩
  | 1 => ⟨S200000x128, .f32⟩
  | 2 => ⟨S_, .f32⟩
  | 3 => ⟨S50000x128, .f32⟩
  | 4 => ⟨S200000x1, .i32⟩
  | 5 => ⟨S50000x128, .f32⟩
  | 6 => ⟨S50000x256, .f32⟩
  | 7 => ⟨S1x256x128, .f32⟩
  | 8 => ⟨S256x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S16x128, .f32⟩
  | 28 => ⟨S50000x1, .i32⟩
  | 29 => ⟨S16x128, .f32⟩
  | 30 => ⟨S_, .f32⟩
  | 31 => ⟨S50000x1, .f32⟩
  | 32 => ⟨S_, .f32⟩
  | 33 => ⟨S16x1, .f32⟩
  | 34 => ⟨S50000x1, .i32⟩
  | 35 => ⟨S16x1, .f32⟩
  | 36 => ⟨S_, .f32⟩
  | 37 => ⟨S16x1, .f32⟩
  | 38 => ⟨S16x1, .f32⟩
  | 39 => ⟨S16x128, .f32⟩
  | 40 => ⟨S16x128, .f32⟩
  | 41 => ⟨S16x128, .f32⟩
  | 42 => ⟨S1x128, .f32⟩
  | 43 => ⟨S16x128, .f32⟩
  | 44 => ⟨S16x128, .f32⟩
  | 45 => ⟨S_, .f32⟩
  | 46 => ⟨S16x128, .f32⟩
  | 47 => ⟨S16x128, .f32⟩
  | 48 => ⟨S16x128, .f32⟩
  | 49 => ⟨S1x128, .f32⟩
  | 50 => ⟨S16x128, .f32⟩
  | 51 => ⟨S16x128, .f32⟩
  | _ => ⟨S50000x4, .f32⟩

abbrev hbmTy (i : Nat) : BufTy := match i / 128 with
  | 0 => hbmTy0_0 i
  | 1 => hbmTy0_1 i
  | 2 => hbmTy0_2 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call1_cst : Ref sig .tc := ⟨.hbm, 51, rfl⟩
abbrev main_call1_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c : Ref sig .tc := ⟨.hbm, 58, rfl⟩
abbrev main_v30 : Ref sig .tc := ⟨.hbm, 59, rfl⟩
abbrev main_v31 : Ref sig .tc := ⟨.hbm, 60, rfl⟩
abbrev main_c_0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_1 : Ref sig .tc := ⟨.hbm, 67, rfl⟩
abbrev main_v37 : Ref sig .tc := ⟨.hbm, 68, rfl⟩
abbrev main_v38 : Ref sig .tc := ⟨.hbm, 69, rfl⟩
abbrev main_c_2 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call2_cst : Ref sig .tc := ⟨.hbm, 89, rfl⟩
abbrev main_call2_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call3_cst : Ref sig .tc := ⟨.hbm, 113, rfl⟩
abbrev main_call3_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call4_cst : Ref sig .tc := ⟨.hbm, 132, rfl⟩
abbrev main_call4_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_3 : Ref sig .tc := ⟨.hbm, 139, rfl⟩
abbrev main_v100 : Ref sig .tc := ⟨.hbm, 140, rfl⟩
abbrev main_v101 : Ref sig .tc := ⟨.hbm, 141, rfl⟩
abbrev main_c_4 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_5 : Ref sig .tc := ⟨.hbm, 148, rfl⟩
abbrev main_v107 : Ref sig .tc := ⟨.hbm, 149, rfl⟩
abbrev main_v108 : Ref sig .tc := ⟨.hbm, 150, rfl⟩
abbrev main_c_6 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_call5_cst : Ref sig .tc := ⟨.hbm, 170, rfl⟩
abbrev main_call5_v0 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_7 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_call6_cst : Ref sig .tc := ⟨.hbm, 194, rfl⟩
abbrev main_call6_v0 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_call7_cst : Ref sig .tc := ⟨.hbm, 213, rfl⟩
abbrev main_call7_v0 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_c_8 : Ref sig .tc := ⟨.hbm, 220, rfl⟩
abbrev main_v170 : Ref sig .tc := ⟨.hbm, 221, rfl⟩
abbrev main_v171 : Ref sig .tc := ⟨.hbm, 222, rfl⟩
abbrev main_c_9 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_10 : Ref sig .tc := ⟨.hbm, 229, rfl⟩
abbrev main_v177 : Ref sig .tc := ⟨.hbm, 230, rfl⟩
abbrev main_v178 : Ref sig .tc := ⟨.hbm, 231, rfl⟩
abbrev main_c_11 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_call8_cst : Ref sig .tc := ⟨.hbm, 251, rfl⟩
abbrev main_call8_v0 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_cst_12 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_call9_cst : Ref sig .tc := ⟨.hbm, 275, rfl⟩
abbrev main_call9_v0 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_cst_13 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_14 : Ref sig .tc := ⟨.hbm, 286, rfl⟩
abbrev main_v226 : Ref sig .tc := ⟨.hbm, 287, rfl⟩
abbrev main_cst_15 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_16 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_call10_cst : Ref sig .tc := ⟨.hbm, 301, rfl⟩
abbrev main_call10_v0 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  slices_S3x384x128_S1x384x128_0_0_0 : S3x384x128.Slices ![0, 0, 0] S1x384x128
  shapeCasts_S1x384x128_S384x128 : S1x384x128.ShapeCasts S384x128
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x384x128_S1x384x128_1_0_0 : S3x384x128.Slices ![1, 0, 0] S1x384x128
  slices_S3x256x128_S1x256x128_1_0_0 : S3x256x128.Slices ![1, 0, 0] S1x256x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  slices_S3x384x128_S1x384x128_2_0_0 : S3x384x128.Slices ![2, 0, 0] S1x384x128
  slices_S3x256x128_S1x256x128_2_0_0 : S3x256x128.Slices ![2, 0, 0] S1x256x128
  bcast_S_S16x128 : S_.BroadcastsInDim S16x128 (![] : Fin 0 → Fin S16x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  dot_S50000x4_S4x128_S50000x128_1_0_0_1_n_n_wf : DotDims.WF S50000x4 S4x128 S50000x128 [1] [0] [0] [1] [] []
  dot_S50000x128_S128x128_S50000x128_1_0_0_1_n_n_wf : DotDims.WF S50000x128 S128x128 S50000x128 [1] [0] [0] [1] [] []
  dot_S200000x1_S1x128_S200000x128_1_0_0_1_n_n_wf : DotDims.WF S200000x1 S1x128 S200000x128 [1] [0] [0] [1] [] []
  dot_S200000x128_S128x128_S200000x128_1_0_0_1_n_n_wf : DotDims.WF S200000x128 S128x128 S200000x128 [1] [0] [0] [1] [] []
  gather_S50000x128_S200000x1_S200000x128_1_0_n_n_0_1_1128_wf : GatherDims.WF S50000x128 S200000x1 S200000x128 [1] [0] [] [0] [] 1 ![1, 128]
  dot_S200000x384_S384x128_S200000x128_1_0_0_1_n_n_wf : DotDims.WF S200000x384 S384x128 S200000x128 [1] [0] [0] [1] [] []
  scatter_S50000x128_S200000x1_S200000x128_1_0_0_1_wf : ScatterDims.WF S50000x128 S200000x1 S200000x128 [1] [0] [0] 1
  dot_S50000x256_S256x128_S50000x128_1_0_0_1_n_n_wf : DotDims.WF S50000x256 S256x128 S50000x128 [1] [0] [0] [1] [] []
  scatter_S16x128_S50000x1_S50000x128_1_0_0_1_wf : ScatterDims.WF S16x128 S50000x1 S50000x128 [1] [0] [0] 1
  scatter_S16x1_S50000x1_S50000x1_1_0_0_1_wf : ScatterDims.WF S16x1 S50000x1 S50000x1 [1] [0] [0] 1
  dot_S16x128_S128x128_S16x128_1_0_0_1_n_n_wf : DotDims.WF S16x128 S128x128 S16x128 [1] [0] [0] [1] [] []

variable [Facts₀]

def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S200000x1_S1x128_S200000x128_1_0_0_1_n_n : DotDims S200000x1 S1x128 S200000x128 where
  lhsContracting := [1]
  rhsContracting := [0]
  lhsNonContracting := [0]
  rhsNonContracting := [1]
  lhsBatch := []
  rhsBatch := []
  wf := dot_S200000x1_S1x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16x1_S50000x1_S50000x1_1_0_0_1 : ScatterDims S16x1 S50000x1 S50000x1 where
  updateWindowDims := [1]
  insertedWindowDims := [0]
  scatterDimsToOperandDims := [0]
  indexVectorDim := 1
  wf := scatter_S16x1_S50000x1_S50000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

class Facts : Prop extends Facts₀ where

variable [Facts]
-- ==== Proof.RefBase.lean ====
import proofs.«426174_j75376676045031_2_alg».proof.Proof.RRunBase
import proofs.«426174_j75376676045031_2_alg».proof.Proof.RRead
-- ==== Proof.RKeep.lean ====
import proofs.«426174_j75376676045031_2_alg».proof.Proof.RRunBase
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The references part `k` of the program's operations writes. -/
def wr : Nat → List (Ref sig .tc)
  | 0 => [main_v0, main_v1, main_v2, main_v3, main_call0_cst, main_call0_v0, main_v4, main_v5, main_v6, main_v7, main_v8, main_v9, main_v10, main_v11, main_v12, main_v13, main_v14, main_v15, main_v16, main_v17, main_v18, main_v19, main_v20, main_v21, main_v22, main_v23, main_v24, main_call1_cst, main_call1_v0, main_v25, main_v26, main_v27, main_v28, main_v29, main_c, main_v30, main_v31, main_c_0, main_v32, main_v33, main_v34, main_v35, main_v36, main_c_1, main_v37, main_v38, main_c_2, main_v39, main_v40, main_v41, main_v42, main_v43, main_v44, main_v45, main_v46, main_v47, main_v48, main_v49, main_v50, main_v51, main_v52, main_v53, main_v54, main_v55]
  | 1 => [main_v56, main_call2_cst, main_call2_v0, main_v57, main_v58, main_v59, main_v60, main_v61, main_cst, main_v62, main_v63, main_v64, main_v65, main_v66, main_v67, main_v68, main_v69, main_v70, main_v71, main_v72, main_v73, main_v74, main_v75, main_v76, main_v77, main_call3_cst, main_call3_v0, main_v78, main_v79, main_v80, main_v81, main_v82, main_v83, main_v84, main_v85, main_v86, main_v87, main_v88, main_v89, main_v90, main_v91, main_v92, main_v93, main_v94, main_call4_cst, main_call4_v0, main_v95, main_v96, main_v97, main_v98, main_v99, main_c_3, main_v100, main_v101, main_c_4, main_v102, main_v103, main_v104, main_v105, main_v106, main_c_5, main_v107, main_v108, main_c_6, main_v109, main_v110]
  | 2 => [main_v111, main_v112, main_v113, main_v114, main_v115, main_v116, main_v117, main_v118, main_v119, main_v120, main_v121, main_v122, main_v123, main_v124, main_v125, main_v126, main_call5_cst, main_call5_v0, main_v127, main_v128, main_v129, main_v130, main_v131, main_cst_7, main_v132, main_v133, main_v134, main_v135, main_v136, main_v137, main_v138, main_v139, main_v140, main_v141, main_v142, main_v143, main_v144, main_v145, main_v146, main_v147, main_call6_cst, main_call6_v0, main_v148, main_v149, main_v150, main_v151, main_v152, main_v153, main_v154, main_v155, main_v156, main_v157, main_v158, main_v159, main_v160, main_v161, main_v162, main_v163, main_v164, main_call7_cst, main_call7_v0, main_v165, main_v166, main_v167, main_v168, main_v169]
  | 3 => [main_c_8, main_v170, main_v171, main_c_9, main_v172, main_v173, main_v174, main_v175, main_v176, main_c_10, main_v177, main_v178, main_c_11, main_v179, main_v180, main_v181, main_v182, main_v183, main_v184, main_v185, main_v186, main_v187, main_v188, main_v189, main_v190, main_v191, main_v192, main_v193, main_v194, main_v195, main_v196, main_call8_cst, main_call8_v0, main_v197, main_v198, main_v199, main_v200, main_v201, main_cst_12, main_v202, main_v203, main_v204, main_v205, main_v206, main_v207, main_v208, main_v209, main_v210, main_v211, main_v212, main_v213, main_v214, main_v215, main_v216, main_v217, main_call9_cst, main_call9_v0, main_v218, main_v219, main_v220, main_v221, main_v222, main_cst_13, main_v223]
  | 4 => [main_v224, main_v225, main_cst_14, main_v226, main_cst_15, main_v227, main_v228, main_v229, main_cst_16, main_v230, main_v231, main_v232, main_v233, main_v234, main_v235, main_v236, main_v237, main_call10_cst, main_call10_v0, main_v238, main_v239, main_v240, main_v241, main_v242]
  | _ => []

/-- Every operation of the list writes inside `L`. -/
abbrev WritesIn (l : List (HloOp τ sig (Elt F))) (L : List (Ref sig .tc)) : Prop :=
  l.Forall fun op => op.writes ⊆ (L.map (Proc.devRef (τ := τ) .tc)).toFinset

local macro "writes_in" : tactic => `(tactic| (
  simp only [wr, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

theorem ops_part0_writes : WritesIn (F := F) ops_part0 (wr 0) := by writes_in
theorem ops_part1_writes : WritesIn (F := F) ops_part1 (wr 1) := by writes_in
theorem ops_part2_writes : WritesIn (F := F) ops_part2 (wr 2) := by writes_in
theorem ops_part3_writes : WritesIn (F := F) ops_part3 (wr 3) := by writes_in
theorem ops_part4_writes : WritesIn (F := F) ops_part4 (wr 4) := by writes_in

variable (W : Valuation τ sig (Elt F)) (r : Ref sig .tc)

/-- A part leaves a reference it does not write as it found it. -/
theorem keep0 (h : r ∉ wr 0 := by decide) : after (ops_part0 (F := F)) W (Proc.devRef .tc r) = W (Proc.devRef .tc r) :=
  after_of_writes_sub _ _ ops_part0_writes h
theorem keep1 (h : r ∉ wr 1 := by decide) : after (ops_part1 (F := F)) W (Proc.devRef .tc r) = W (Proc.devRef .tc r) :=
  after_of_writes_sub _ _ ops_part1_writes h
theorem keep2 (h : r ∉ wr 2 := by decide) : after (ops_part2 (F := F)) W (Proc.devRef .tc r) = W (Proc.devRef .tc r) :=
  after_of_writes_sub _ _ ops_part2_writes h
theorem keep3 (h : r ∉ wr 3 := by decide) : after (ops_part3 (F := F)) W (Proc.devRef .tc r) = W (Proc.devRef .tc r) :=
  after_of_writes_sub _ _ ops_part3_writes h
theorem keep4 (h : r ∉ wr 4 := by decide) : after (ops_part4 (F := F)) W (Proc.devRef .tc r) = W (Proc.devRef .tc r) :=
  after_of_writes_sub _ _ ops_part4_writes h

/-- The same over the first two, three and four parts, and over the whole program. -/
theorem keepB2 (h0 : r ∉ wr 0 := by decide) (h1 : r ∉ wr 1 := by decide) :
    after (ops_part1 (F := F)) (after (ops_part0 (F := F)) W) (Proc.devRef .tc r) = W (Proc.devRef .tc r) :=
  (keep1 _ r h1).trans (keep0 W r h0)
theorem keepB3 (h0 : r ∉ wr 0 := by decide) (h1 : r ∉ wr 1 := by decide) (h2 : r ∉ wr 2 := by decide) :
    after (ops_part2 (F := F)) (after (ops_part1 (F := F)) (after (ops_part0 (F := F)) W)) (Proc.devRef .tc r) = W (Proc.devRef .tc r) :=
  (keep2 _ r h2).trans (keepB2 W r h0 h1)
theorem keepB4 (h0 : r ∉ wr 0 := by decide) (h1 : r ∉ wr 1 := by decide) (h2 : r ∉ wr 2 := by decide) (h3 : r ∉ wr 3 := by decide) :
    after (ops_part3 (F := F)) (after (ops_part2 (F := F)) (after (ops_part1 (F := F)) (after (ops_part0 (F := F)) W))) (Proc.devRef .tc r)
      = W (Proc.devRef .tc r) :=
  (keep3 _ r h3).trans (keepB3 W r h0 h1 h2)
theorem keep_ops (h0 : r ∉ wr 0 := by decide) (h1 : r ∉ wr 1 := by decide) (h2 : r ∉ wr 2 := by decide) (h3 : r ∉ wr 3 := by decide)
    (h4 : r ∉ wr 4 := by decide) : after (ops (F := F)) W (Proc.devRef .tc r) = W (Proc.devRef .tc r) := by
  simp only [ops, StableHlo.after_append]
  exact (keep4 _ r h4).trans (keepB4 W r h0 h1 h2 h3)

end Cert.ReferenceIdeal.Value

end
-- ==== Proof.RWin0.lean ====
/-
  The reference's first stretch of operations read as values, from any contents of the argument buffers.
-/
import proofs.«426174_j75376676045031_2_alg».proof.Proof.RefBase
import Idealize.ShloMosaic.Lib.StableHlo.Run

set_option maxRecDepth 16384

noncomputable section

namespace Cert.ReferenceIdeal.RunVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (W : Valuation τ sig (Elt F))

theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

macro "read_fold" : tactic =>
  `(tactic| (simp (disch := decide) only [after_cons, after_nil,
      nullary_result', unary_result', binary_result', ternary_result', reshape_result',
      nullary_result_ne', unary_result_ne', binary_result_ne', ternary_result_ne', reshape_result_ne', nary_result_ne']))

theorem w0_v8 (a0 : (⟨S50000x4, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F))
    (hA0 : W (Proc.devRef .tc main_arg0) = a0) (hA2 : W (Proc.devRef .tc main_arg2) = a2) (hA3 : W (Proc.devRef .tc main_arg3) = a3) (hA4 : W (Proc.devRef .tc main_arg4) = a4) (hA5 : W (Proc.devRef .tc main_arg5) = a5) :
    after (ops_part0 (F := F)) W (Proc.devRef .tc main_v8) = Read.val_main_v8 (F := F) a0 a2 a3 a4 a5 := by
  after_results_simp
  rw [hA0, hA2, hA3, hA4, hA5]
  try simp only [TRef.ofBuf, TRef.toBuf, cast_eq]
  rfl

theorem w0_v10 (a22 : (⟨S2x200000, .i32⟩ : BufTy).Contents (Elt F))
    (hA22 : W (Proc.devRef .tc main_arg22) = a22) :
    after (ops_part0 (F := F)) W (Proc.devRef .tc main_v10) = Read.val_main_v10 (F := F) a22 := by
  after_results_simp
  rw [hA22]
  rfl

theorem w0_v12 (a22 : (⟨S2x200000, .i32⟩ : BufTy).Contents (Elt F))
    (hA22 : W (Proc.devRef .tc main_arg22) = a22) :
    after (ops_part0 (F := F)) W (Proc.devRef .tc main_v12) = Read.val_main_v12 (F := F) a22 := by
  after_results_simp
  rw [hA22]
  rfl

theorem w0_v50 (a12 : (⟨S3x128x128, .f32⟩ : BufTy).Contents (Elt F))
    (hA12 : W (Proc.devRef .tc main_arg12) = a12) :
    after (ops_part0 (F := F)) W (Proc.devRef .tc main_v50) = Read.val_main_v50 (F := F) a12 := by
  after_results_simp
  rw [hA12]
  rfl

theorem w0_v52 (a13 : (⟨S3x128, .f32⟩ : BufTy).Contents (Elt F))
    (hA13 : W (Proc.devRef .tc main_arg13) = a13) :
    after (ops_part0 (F := F)) W (Proc.devRef .tc main_v52) = Read.val_main_v52 (F := F) a13 := by
  after_results_simp
  rw [hA13]
  rfl

theorem w0_v55 (a11 : (⟨S3x128, .f32⟩ : BufTy).Contents (Elt F))
    (hA11 : W (Proc.devRef .tc main_arg11) = a11) :
    after (ops_part0 (F := F)) W (Proc.devRef .tc main_v55) = Read.val_main_v55 (F := F) a11 := by
  after_results_simp
  rw [hA11]
  rfl

theorem w0_v53 (a0 : (⟨S50000x4, .f32⟩ : BufTy).Contents (Elt F)) (a1 : (⟨S200000x1, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F)) (a10 : (⟨S3x384x128, .f32⟩ : BufTy).Contents (Elt F)) (a22 : (⟨S2x200000, .i32⟩ : BufTy).Contents (Elt F))
    (hA0 : W (Proc.devRef .tc main_arg0) = a0) (hA1 : W (Proc.devRef .tc main_arg1) = a1) (hA2 : W (Proc.devRef .tc main_arg2) = a2) (hA3 : W (Proc.devRef .tc main_arg3) = a3) (hA4 : W (Proc.devRef .tc main_arg4) = a4) (hA5 : W (Proc.devRef .tc main_arg5) = a5) (hA6 : W (Proc.devRef .tc main_arg6) = a6) (hA7 : W (Proc.devRef .tc main_arg7) = a7) (hA8 : W (Proc.devRef .tc main_arg8) = a8) (hA9 : W (Proc.devRef .tc main_arg9) = a9) (hA10 : W (Proc.devRef .tc main_arg10) = a10) (hA22 : W (Proc.devRef .tc main_arg22) = a22) :
    after (ops_part0 (F := F)) W (Proc.devRef .tc main_v53) = Read.val_main_v53 (F := F) a0 a1 a2 a3 a4 a5 a6 a7 a8 a9 a10 a22 := by
  read_fold
  rw [nary3_result]
  generalize hG : (binary main_v8 main_v42 main_v43 _ _ _ _).result _ = G
  have h36 : G (Proc.devRef .tc main_v36) = Read.val_main_v36 (F := F) a0 a2 a3 a4 a5 a22 := by
    rw [← hG]
    read_fold
    rw [hA0, hA2, hA3, hA4, hA5, hA22]
    try simp only [TRef.ofBuf, TRef.toBuf, cast_eq]
    rfl
  have h43 : G (Proc.devRef .tc main_v43) = Read.val_main_v43 (F := F) a0 a2 a3 a4 a5 a22 := by
    rw [← hG]
    read_fold
    rw [hA0, hA2, hA3, hA4, hA5, hA22]
    try simp only [TRef.ofBuf, TRef.toBuf, cast_eq]
    rfl
  have h29 : G (Proc.devRef .tc main_v29) = Read.val_main_v29 (F := F) a1 a6 a7 a8 a9 := by
    rw [← hG]
    read_fold
    rw [hA1, hA6, hA7, hA8, hA9]
    try simp only [TRef.ofBuf, TRef.toBuf, cast_eq]
    rfl
  rw [h36, h43, h29, hA10]
  rfl

end Cert.ReferenceIdeal.RunVal

end
-- ==== Proof.RWin1.lean ====
/-
  The reference's second stretch of operations read as values.
-/
import proofs.«426174_j75376676045031_2_alg».proof.Proof.RefBase
import Idealize.ShloMosaic.Lib.StableHlo.Run

set_option maxRecDepth 16384

noncomputable section

namespace Cert.ReferenceIdeal.RunVal

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

theorem w1_v108 (W : Valuation τ sig (Elt F)) (a22 : (⟨S2x200000, .i32⟩ : BufTy).Contents (Elt F))
    (h10 : W (Proc.devRef .tc main_v10) = Read.val_main_v10 a22) :
    after (ops_part1 (F := F)) W (Proc.devRef .tc main_v108) = Read.val_main_v108 a22 := by
  after_results_simp
  rw [h10]
  rfl

theorem w1_v110 (W : Valuation τ sig (Elt F)) (a22 : (⟨S2x200000, .i32⟩ : BufTy).Contents (Elt F))
    (h10 : W (Proc.devRef .tc main_v10) = Read.val_main_v10 a22) :
    after (ops_part1 (F := F)) W (Proc.devRef .tc main_v110) = Read.val_main_v110 a22 := by
  after_results_simp
  rw [h10]
  rfl

set_option maxHeartbeats 1000000 in

theorem w1_v99 (W : Valuation τ sig (Elt F)) (a1 : (⟨S200000x1, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F))
    (hA1 : W (Proc.devRef .tc main_arg1) = a1)
    (hA6 : W (Proc.devRef .tc main_arg6) = a6)
    (hA7 : W (Proc.devRef .tc main_arg7) = a7)
    (hA8 : W (Proc.devRef .tc main_arg8) = a8)
    (hA9 : W (Proc.devRef .tc main_arg9) = a9) :
    after (ops_part1 (F := F)) W (Proc.devRef .tc main_v99) = Read.val_main_v99 a1 a6 a7 a8 a9 := by
  after_results_simp
  rw [hA1, hA6, hA7, hA8, hA9]
  try simp only [TRef.ofBuf, TRef.toBuf, cast_eq]
  rfl

set_option maxHeartbeats 4000000 in

theorem w1_v82 (W : Valuation τ sig (Elt F)) (a0 : (⟨S50000x4, .f32⟩ : BufTy).Contents (Elt F)) (a1 : (⟨S200000x1, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F)) (a10 : (⟨S3x384x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x256x128, .f32⟩ : BufTy).Contents (Elt F)) (a15 : (⟨S3x128, .f32⟩ : BufTy).Contents (Elt F)) (a16 : (⟨S3x128x128, .f32⟩ : BufTy).Contents (Elt F)) (a17 : (⟨S3x128, .f32⟩ : BufTy).Contents (Elt F)) (a22 : (⟨S2x200000, .i32⟩ : BufTy).Contents (Elt F))
    (hA14 : W (Proc.devRef .tc main_arg14) = a14)
    (hA15 : W (Proc.devRef .tc main_arg15) = a15)
    (hA16 : W (Proc.devRef .tc main_arg16) = a16)
    (hA17 : W (Proc.devRef .tc main_arg17) = a17)
    (h8 : W (Proc.devRef .tc main_v8) = Read.val_main_v8 a0 a2 a3 a4 a5)
    (h12 : W (Proc.devRef .tc main_v12) = Read.val_main_v12 a22)
    (h50 : W (Proc.devRef .tc main_v50) = Read.val_main_v50 a12)
    (h52 : W (Proc.devRef .tc main_v52) = Read.val_main_v52 a13)
    (h53 : W (Proc.devRef .tc main_v53) = Read.val_main_v53 a0 a1 a2 a3 a4 a5 a6 a7 a8 a9 a10 a22)
    (h55 : W (Proc.devRef .tc main_v55) = Read.val_main_v55 a11) :
    after (ops_part1 (F := F)) W (Proc.devRef .tc main_v82) = Read.val_main_v82 a0 a1 a2 a3 a4 a5 a6 a7 a8 a9 a10 a11 a12 a13 a14 a15 a16 a17 a22 := by
  after_results_simp
  generalize hG : (ternary main_v62 main_v63 main_v61 main_v64 _ _ _ _ _).result _ = G
  have g8 : G (Proc.devRef .tc main_v8) = Read.val_main_v8 a0 a2 a3 a4 a5 := by
    rw [← hG]
    after_results_simp
    rw [h8]
  have g64 : G (Proc.devRef .tc main_v64) = Read.val_main_v64 a0 a1 a2 a3 a4 a5 a6 a7 a8 a9 a10 a11 a12 a13 a22 := by
    rw [← hG]
    after_results_simp
    rw [h12, h50, h52, h53, h55]
    try simp only [TRef.ofBuf, TRef.toBuf, cast_eq]
    rfl
  rw [g8, g64, hA14, hA15, hA16, hA17]
  try simp only [TRef.ofBuf, TRef.toBuf, cast_eq]
  rfl

set_option maxHeartbeats 4000000 in

theorem w1_v106 (W : Valuation τ sig (Elt F)) (a0 : (⟨S50000x4, .f32⟩ : BufTy).Contents (Elt F)) (a1 : (⟨S200000x1, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F)) (a10 : (⟨S3x384x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x256x128, .f32⟩ : BufTy).Contents (Elt F)) (a15 : (⟨S3x128, .f32⟩ : BufTy).Contents (Elt F)) (a16 : (⟨S3x128x128, .f32⟩ : BufTy).Contents (Elt F)) (a17 : (⟨S3x128, .f32⟩ : BufTy).Contents (Elt F)) (a22 : (⟨S2x200000, .i32⟩ : BufTy).Contents (Elt F))
    (hA14 : W (Proc.devRef .tc main_arg14) = a14)
    (hA15 : W (Proc.devRef .tc main_arg15) = a15)
    (hA16 : W (Proc.devRef .tc main_arg16) = a16)
    (hA17 : W (Proc.devRef .tc main_arg17) = a17)
    (h8 : W (Proc.devRef .tc main_v8) = Read.val_main_v8 a0 a2 a3 a4 a5)
    (h12 : W (Proc.devRef .tc main_v12) = Read.val_main_v12 a22)
    (h50 : W (Proc.devRef .tc main_v50) = Read.val_main_v50 a12)
    (h52 : W (Proc.devRef .tc main_v52) = Read.val_main_v52 a13)
    (h53 : W (Proc.devRef .tc main_v53) = Read.val_main_v53 a0 a1 a2 a3 a4 a5 a6 a7 a8 a9 a10 a22)
    (h55 : W (Proc.devRef .tc main_v55) = Read.val_main_v55 a11) :
    after (ops_part1 (F := F)) W (Proc.devRef .tc main_v106) = Read.val_main_v106 a0 a1 a2 a3 a4 a5 a6 a7 a8 a9 a10 a11 a12 a13 a14 a15 a16 a17 a22 := by
  after_results_simp
  generalize hG : (ternary main_v62 main_v63 main_v61 main_v64 _ _ _ _ _).result _ = G
  have g8 : G (Proc.devRef .tc main_v8) = Read.val_main_v8 a0 a2 a3 a4 a5 := by
    rw [← hG]
    after_results_simp
    rw [h8]
  have g64 : G (Proc.devRef .tc main_v64) = Read.val_main_v64 a0 a1 a2 a3 a4 a5 a6 a7 a8 a9 a10 a11 a12 a13 a22 := by
    rw [← hG]
    after_results_simp
    rw [h12, h50, h52, h53, h55]
    try simp only [TRef.ofBuf, TRef.toBuf, cast_eq]
    rfl
  rw [g8, g64, h12, hA14, hA15, hA16, hA17]
  try simp only [TRef.ofBuf, TRef.toBuf, cast_eq]
  rfl

end Cert.ReferenceIdeal.RunVal

end
-- ==== Proof.RWin2.lean ====
/-
  The reference's third stretch of operations read as values.
-/
import proofs.«426174_j75376676045031_2_alg».proof.Proof.RefBase
import proofs.«426174_j75376676045031_2_alg».proof.Proof.RWin0
import Idealize.ShloMosaic.Lib.StableHlo.Run

set_option maxRecDepth 16384

noncomputable section

namespace Cert.ReferenceIdeal.RunVal

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F] (W : Valuation τ sig (Elt F))
variable (a0 : (⟨S50000x4, .f32⟩ : BufTy).Contents (Elt F))
  (a1 : (⟨S200000x1, .f32⟩ : BufTy).Contents (Elt F))
  (a2 : (⟨S4x128, .f32⟩ : BufTy).Contents (Elt F))
  (a3 : (⟨S128, .f32⟩ : BufTy).Contents (Elt F))
  (a4 : (⟨S128x128, .f32⟩ : BufTy).Contents (Elt F))
  (a5 : (⟨S128, .f32⟩ : BufTy).Contents (Elt F))
  (a6 : (⟨S3x1x128, .f32⟩ : BufTy).Contents (Elt F))
  (a7 : (⟨S3x128, .f32⟩ : BufTy).Contents (Elt F))
  (a8 : (⟨S3x128x128, .f32⟩ : BufTy).Contents (Elt F))
  (a9 : (⟨S3x128, .f32⟩ : BufTy).Contents (Elt F))
  (a10 : (⟨S3x384x128, .f32⟩ : BufTy).Contents (Elt F))
  (a11 : (⟨S3x128, .f32⟩ : BufTy).Contents (Elt F))
  (a12 : (⟨S3x128x128, .f32⟩ : BufTy).Contents (Elt F))
  (a13 : (⟨S3x128, .f32⟩ : BufTy).Contents (Elt F))
  (a14 : (⟨S3x256x128, .f32⟩ : BufTy).Contents (Elt F))
  (a15 : (⟨S3x128, .f32⟩ : BufTy).Contents (Elt F))
  (a16 : (⟨S3x128x128, .f32⟩ : BufTy).Contents (Elt F))
  (a17 : (⟨S3x128, .f32⟩ : BufTy).Contents (Elt F))
  (a22 : (⟨S2x200000, .i32⟩ : BufTy).Contents (Elt F))

set_option maxHeartbeats 2000000 in

theorem w2_v169
    (hA1 : W (Proc.devRef .tc main_arg1) = a1) (hA6 : W (Proc.devRef .tc main_arg6) = a6) (hA7 : W (Proc.devRef .tc main_arg7) = a7) (hA8 : W (Proc.devRef .tc main_arg8) = a8) (hA9 : W (Proc.devRef .tc main_arg9) = a9) :
    after (ops_part2 (F := F)) W (Proc.devRef .tc main_v169) = Read.val_main_v169 (F := F) a1 a6 a7 a8 a9 := by
  after_results_simp
  rw [hA1, hA6, hA7, hA8, hA9]
  rfl

set_option maxHeartbeats 4000000 in

theorem w2_v152
    (hA10 : W (Proc.devRef .tc main_arg10) = a10) (hA11 : W (Proc.devRef .tc main_arg11) = a11) (hA12 : W (Proc.devRef .tc main_arg12) = a12) (hA13 : W (Proc.devRef .tc main_arg13) = a13) (hA14 : W (Proc.devRef .tc main_arg14) = a14) (hA15 : W (Proc.devRef .tc main_arg15) = a15) (hA16 : W (Proc.devRef .tc main_arg16) = a16) (hA17 : W (Proc.devRef .tc main_arg17) = a17)
    (h108 : W (Proc.devRef .tc main_v108) = Read.val_main_v108 (F := F) a22) (h110 : W (Proc.devRef .tc main_v110) = Read.val_main_v110 (F := F) a22)
    (h10 : W (Proc.devRef .tc main_v10) = Read.val_main_v10 (F := F) a22) (h12 : W (Proc.devRef .tc main_v12) = Read.val_main_v12 (F := F) a22)
    (h82 : W (Proc.devRef .tc main_v82) = Read.val_main_v82 (F := F) a0 a1 a2 a3 a4 a5 a6 a7 a8 a9 a10 a11 a12 a13 a14 a15 a16 a17 a22)
    (h106 : W (Proc.devRef .tc main_v106) = Read.val_main_v106 (F := F) a0 a1 a2 a3 a4 a5 a6 a7 a8 a9 a10 a11 a12 a13 a14 a15 a16 a17 a22)
    (h99 : W (Proc.devRef .tc main_v99) = Read.val_main_v99 (F := F) a1 a6 a7 a8 a9) :
    after (ops_part2 (F := F)) W (Proc.devRef .tc main_v152) = Read.val_main_v152 (F := F) a0 a1 a2 a3 a4 a5 a6 a7 a8 a9 a10 a11 a12 a13 a14 a15 a16 a17 a22 := by
  read_fold
  generalize hG : (ternary main_v132 main_v133 main_v131 main_v134 _ _ _ _ _).result _ = G
  have e82 : G (Proc.devRef .tc main_v82) = Read.val_main_v82 (F := F) a0 a1 a2 a3 a4 a5 a6 a7 a8 a9 a10 a11 a12 a13 a14 a15 a16 a17 a22 := by
    rw [← hG]
    read_fold
    exact h82
  have e134 : G (Proc.devRef .tc main_v134) = Read.val_main_v134 (F := F) a0 a1 a2 a3 a4 a5 a6 a7 a8 a9 a10 a11 a12 a13 a14 a15 a16 a17 a22 := by
    rw [← hG]
    read_fold
    rw [nary3_result]
    generalize hG' : (binary main_v82 main_v112 main_v113 _ _ _ _).result _ = G'
    have e106 : G' (Proc.devRef .tc main_v106) = Read.val_main_v106 (F := F) a0 a1 a2 a3 a4 a5 a6 a7 a8 a9 a10 a11 a12 a13 a14 a15 a16 a17 a22 := by
      rw [← hG']
      read_fold
      exact h106
    have e113 : G' (Proc.devRef .tc main_v113) = Read.val_main_v113 (F := F) a0 a1 a2 a3 a4 a5 a6 a7 a8 a9 a10 a11 a12 a13 a14 a15 a16 a17 a22 := by
      rw [← hG']
      read_fold
      rw [h82, h108, h110, h10]
      rfl
    have e99 : G' (Proc.devRef .tc main_v99) = Read.val_main_v99 (F := F) a1 a6 a7 a8 a9 := by
      rw [← hG']
      read_fold
      exact h99
    rw [e106, e113, e99, hA10, hA11, hA12, hA13, h12]
    try simp only [TRef.ofBuf, TRef.toBuf, cast_eq]
    rfl
  rw [e82, e134, hA14, hA15, hA16, hA17]
  try simp only [TRef.ofBuf, TRef.toBuf, cast_eq]
  rfl

end Cert.ReferenceIdeal.RunVal

end
-- ==== Proof.RWin3.lean ====
/-
  The reference's fourth stretch of operations read as values.
-/
import proofs.«426174_j75376676045031_2_alg».proof.Proof.RefBase
import Idealize.ShloMosaic.Lib.StableHlo.Run
import proofs.«426174_j75376676045031_2_alg».proof.Proof.RWin0

set_option maxRecDepth 16384

noncomputable section

namespace Cert.ReferenceIdeal.RunVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (W : Valuation τ sig (Elt F))

set_option maxHeartbeats 2000000 in

theorem w3_v222 (a0 : (⟨S50000x4, .f32⟩ : BufTy).Contents (Elt F)) (a1 : (⟨S200000x1, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F)) (a10 : (⟨S3x384x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x256x128, .f32⟩ : BufTy).Contents (Elt F)) (a15 : (⟨S3x128, .f32⟩ : BufTy).Contents (Elt F)) (a16 : (⟨S3x128x128, .f32⟩ : BufTy).Contents (Elt F)) (a17 : (⟨S3x128, .f32⟩ : BufTy).Contents (Elt F)) (a22 : (⟨S2x200000, .i32⟩ : BufTy).Contents (Elt F))
    (hA10 : W (Proc.devRef .tc main_arg10) = a10) (hA11 : W (Proc.devRef .tc main_arg11) = a11) (hA12 : W (Proc.devRef .tc main_arg12) = a12) (hA13 : W (Proc.devRef .tc main_arg13) = a13) (hA14 : W (Proc.devRef .tc main_arg14) = a14) (hA15 : W (Proc.devRef .tc main_arg15) = a15) (hA16 : W (Proc.devRef .tc main_arg16) = a16) (hA17 : W (Proc.devRef .tc main_arg17) = a17)
    (h12 : W (Proc.devRef .tc main_v12) = Read.val_main_v12 (F := F) a22)
    (h152 : W (Proc.devRef .tc main_v152) = Read.val_main_v152 (F := F) a0 a1 a2 a3 a4 a5 a6 a7 a8 a9 a10 a11 a12 a13 a14 a15 a16 a17 a22)
    (h10 : W (Proc.devRef .tc main_v10) = Read.val_main_v10 (F := F) a22)
    (h169 : W (Proc.devRef .tc main_v169) = Read.val_main_v169 (F := F) a1 a6 a7 a8 a9) :
    after (ops_part3 (F := F)) W (Proc.devRef .tc main_v222) = Read.val_main_v222 (F := F) a0 a1 a2 a3 a4 a5 a6 a7 a8 a9 a10 a11 a12 a13 a14 a15 a16 a17 a22 := by
  read_fold

  generalize hG : (ternary main_v202 main_v203 main_v201 main_v204 _ _ _ _ _).result _ = G
  have e152 : G (Proc.devRef .tc main_v152) = Read.val_main_v152 (F := F) a0 a1 a2 a3 a4 a5 a6 a7 a8 a9 a10 a11 a12 a13 a14 a15 a16 a17 a22 := by
    rw [← hG]
    read_fold
    exact h152
  have e204 : G (Proc.devRef .tc main_v204) = Read.val_main_v204 (F := F) a0 a1 a2 a3 a4 a5 a6 a7 a8 a9 a10 a11 a12 a13 a14 a15 a16 a17 a22 := by
    rw [← hG]
    read_fold
    rw [nary3_result]

    generalize hH : (binary main_v152 main_v182 main_v183 _ _ _ _).result _ = H
    have e176 : H (Proc.devRef .tc main_v176) = Read.val_main_v176 (F := F) a0 a1 a2 a3 a4 a5 a6 a7 a8 a9 a10 a11 a12 a13 a14 a15 a16 a17 a22 := by
      rw [← hH]
      read_fold
      rw [h12, h152]
      rfl
    have e183 : H (Proc.devRef .tc main_v183) = Read.val_main_v183 (F := F) a0 a1 a2 a3 a4 a5 a6 a7 a8 a9 a10 a11 a12 a13 a14 a15 a16 a17 a22 := by
      rw [← hH]
      read_fold
      rw [h10, h152]
      rfl
    have e169 : H (Proc.devRef .tc main_v169) = Read.val_main_v169 (F := F) a1 a6 a7 a8 a9 := by
      rw [← hH]
      read_fold
      exact h169
    rw [e176, e183, e169, h12, hA10, hA11, hA12, hA13]
    try simp only [TRef.ofBuf, TRef.toBuf, cast_eq]
    rfl
  rw [e152, e204, hA14, hA15, hA16, hA17]
  try simp only [TRef.ofBuf, TRef.toBuf, cast_eq]
  rfl

theorem w3_v223 :
    after (ops_part3 (F := F)) W (Proc.devRef .tc main_v223) = Read.val_main_v223 (F := F) := by
  read_fold
  rfl

end Cert.ReferenceIdeal.RunVal

end
-- ==== Proof.RWin4.lean ====
/-
  The reference's last stretch of operations read as values: the pooling and the readout.
-/
import proofs.«426174_j75376676045031_2_alg».proof.Proof.RefBase
import Idealize.ShloMosaic.Lib.StableHlo.Run

set_option maxRecDepth 16384

noncomputable section

namespace Cert.ReferenceIdeal.RunVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (W : Valuation τ sig (Elt F))

theorem w4_v242 (a0 : (⟨S50000x4, .f32⟩ : BufTy).Contents (Elt F)) (a1 : (⟨S200000x1, .f32⟩ : BufTy).Contents (Elt F)) (a2 : (⟨S4x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S3x1x128, .f32⟩ : BufTy).Contents (Elt F)) (a7 : (⟨S3x128, .f32⟩ : BufTy).Contents (Elt F)) (a8 : (⟨S3x128x128, .f32⟩ : BufTy).Contents (Elt F)) (a9 : (⟨S3x128, .f32⟩ : BufTy).Contents (Elt F)) (a10 : (⟨S3x384x128, .f32⟩ : BufTy).Contents (Elt F)) (a11 : (⟨S3x128, .f32⟩ : BufTy).Contents (Elt F)) (a12 : (⟨S3x128x128, .f32⟩ : BufTy).Contents (Elt F)) (a13 : (⟨S3x128, .f32⟩ : BufTy).Contents (Elt F)) (a14 : (⟨S3x256x128, .f32⟩ : BufTy).Contents (Elt F)) (a15 : (⟨S3x128, .f32⟩ : BufTy).Contents (Elt F)) (a16 : (⟨S3x128x128, .f32⟩ : BufTy).Contents (Elt F)) (a17 : (⟨S3x128, .f32⟩ : BufTy).Contents (Elt F)) (a18 : (⟨S128x128, .f32⟩ : BufTy).Contents (Elt F)) (a19 : (⟨S128, .f32⟩ : BufTy).Contents (Elt F)) (a20 : (⟨S128x128, .f32⟩ : BufTy).Contents (Elt F)) (a21 : (⟨S128, .f32⟩ : BufTy).Contents (Elt F)) (a22 : (⟨S2x200000, .i32⟩ : BufTy).Contents (Elt F)) (a23 : (⟨S50000, .i32⟩ : BufTy).Contents (Elt F))
    (hA18 : W (Proc.devRef .tc main_arg18) = a18) (hA19 : W (Proc.devRef .tc main_arg19) = a19) (hA20 : W (Proc.devRef .tc main_arg20) = a20) (hA21 : W (Proc.devRef .tc main_arg21) = a21) (hA23 : W (Proc.devRef .tc main_arg23) = a23)
    (h222 : W (Proc.devRef .tc main_v222) = Read.val_main_v222 (F := F) a0 a1 a2 a3 a4 a5 a6 a7 a8 a9 a10 a11 a12 a13 a14 a15 a16 a17 a22)
    (h223 : W (Proc.devRef .tc main_v223) = Read.val_main_v223 (F := F)) :
    after (ops_part4 (F := F)) W (Proc.devRef .tc main_v242) = Read.val_main_v242 (F := F) a0 a1 a2 a3 a4 a5 a6 a7 a8 a9 a10 a11 a12 a13 a14 a15 a16 a17 a18 a19 a20 a21 a22 a23 := by
  after_results_simp
  rw [hA18, hA19, hA20, hA21, hA23, h222, h223]
  try simp only [TRef.ofBuf, TRef.toBuf, cast_eq]
  rfl

end Cert.ReferenceIdeal.RunVal

end
-- ==== Proof.RRun.lean ====
/-
  The reference's run: stretch after stretch, the buffers later stretches read hold the program's stages as functions
  of the launch arguments, no operation writes an argument, and the result buffer ends at the last stage.
-/
import proofs.«426174_j75376676045031_2_alg».proof.Proof.RefBase
import proofs.«426174_j75376676045031_2_alg».proof.Proof.RKeep
import proofs.«426174_j75376676045031_2_alg».proof.Proof.RWin0
import proofs.«426174_j75376676045031_2_alg».proof.Proof.RWin1
import proofs.«426174_j75376676045031_2_alg».proof.Proof.RWin2
import proofs.«426174_j75376676045031_2_alg».proof.Proof.RWin3
import proofs.«426174_j75376676045031_2_alg».proof.Proof.RWin4
import Idealize.ShloMosaic.Lib.Pipeline.Frame
import Idealize.ShloMosaic.Lib.StableHlo.Run

set_option maxRecDepth 16384

noncomputable section

namespace Cert.ReferenceIdeal.RunVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (W : Valuation τ sig (Elt F))

abbrev B1 : Valuation τ sig (Elt F) := after (ops_part0 (F := F)) W
abbrev B2 : Valuation τ sig (Elt F) := after (ops_part1 (F := F)) (B1 W)
abbrev B3 : Valuation τ sig (Elt F) := after (ops_part2 (F := F)) (B2 W)
abbrev B4 : Valuation τ sig (Elt F) := after (ops_part3 (F := F)) (B3 W)

macro "keep_b1" : tactic => `(tactic| exact keep0 _ _)
macro "keep_b2" : tactic => `(tactic| exact keepB2 _ _)
macro "keep_b3" : tactic => `(tactic| exact keepB3 _ _)
macro "keep_b4" : tactic => `(tactic| exact keepB4 _ _)

theorem b1_v8 : B1 W (Proc.devRef .tc main_v8) = Read.val_main_v8 (W (Proc.devRef .tc main_arg0)) (W (Proc.devRef .tc main_arg2)) (W (Proc.devRef .tc main_arg3)) (W (Proc.devRef .tc main_arg4)) (W (Proc.devRef .tc main_arg5)) := by apply w0_v8 <;> rfl
theorem b1_v10 : B1 W (Proc.devRef .tc main_v10) = Read.val_main_v10 (W (Proc.devRef .tc main_arg22)) := by apply w0_v10 <;> rfl
theorem b1_v12 : B1 W (Proc.devRef .tc main_v12) = Read.val_main_v12 (W (Proc.devRef .tc main_arg22)) := by apply w0_v12 <;> rfl
theorem b1_v50 : B1 W (Proc.devRef .tc main_v50) = Read.val_main_v50 (W (Proc.devRef .tc main_arg12)) := by apply w0_v50 <;> rfl
theorem b1_v52 : B1 W (Proc.devRef .tc main_v52) = Read.val_main_v52 (W (Proc.devRef .tc main_arg13)) := by apply w0_v52 <;> rfl
theorem b1_v53 : B1 W (Proc.devRef .tc main_v53) = Read.val_main_v53 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg22)) := by apply w0_v53 <;> rfl
theorem b1_v55 : B1 W (Proc.devRef .tc main_v55) = Read.val_main_v55 (W (Proc.devRef .tc main_arg11)) := by apply w0_v55 <;> rfl

macro "from_b1" : tactic => `(tactic| first | exact b1_v8 _ | exact b1_v10 _ | exact b1_v12 _ | exact b1_v50 _ | exact b1_v52 _ | exact b1_v53 _ | exact b1_v55 _ | keep_b1)

set_option maxHeartbeats 2000000 in
theorem b2_v82 : B2 W (Proc.devRef .tc main_v82) = Read.val_main_v82 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg22)) := by apply w1_v82 <;> from_b1
set_option maxHeartbeats 2000000 in
theorem b2_v99 : B2 W (Proc.devRef .tc main_v99) = Read.val_main_v99 (W (Proc.devRef .tc main_arg1)) (W (Proc.devRef .tc main_arg6)) (W (Proc.devRef .tc main_arg7)) (W (Proc.devRef .tc main_arg8)) (W (Proc.devRef .tc main_arg9)) := by apply w1_v99 <;> from_b1
set_option maxHeartbeats 2000000 in
theorem b2_v106 : B2 W (Proc.devRef .tc main_v106) = Read.val_main_v106 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg22)) := by apply w1_v106 <;> from_b1
set_option maxHeartbeats 2000000 in
theorem b2_v108 : B2 W (Proc.devRef .tc main_v108) = Read.val_main_v108 (W (Proc.devRef .tc main_arg22)) := by apply w1_v108 <;> from_b1
set_option maxHeartbeats 2000000 in
theorem b2_v110 : B2 W (Proc.devRef .tc main_v110) = Read.val_main_v110 (W (Proc.devRef .tc main_arg22)) := by apply w1_v110 <;> from_b1
theorem b2_v10 : B2 W (Proc.devRef .tc main_v10) = Read.val_main_v10 (W (Proc.devRef .tc main_arg22)) := (keep1 _ main_v10).trans (b1_v10 W)
theorem b2_v12 : B2 W (Proc.devRef .tc main_v12) = Read.val_main_v12 (W (Proc.devRef .tc main_arg22)) := (keep1 _ main_v12).trans (b1_v12 W)

macro "from_b2" : tactic => `(tactic| first | exact b2_v82 _ | exact b2_v99 _ | exact b2_v106 _ | exact b2_v108 _ | exact b2_v110 _ | exact b2_v10 _ | exact b2_v12 _ | keep_b2)

set_option maxHeartbeats 2000000 in
theorem b3_v152 : B3 W (Proc.devRef .tc main_v152) = Read.val_main_v152 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg22)) := by apply w2_v152 <;> from_b2
set_option maxHeartbeats 2000000 in
theorem b3_v169 : B3 W (Proc.devRef .tc main_v169) = Read.val_main_v169 (W (Proc.devRef .tc main_arg1)) (W (Proc.devRef .tc main_arg6)) (W (Proc.devRef .tc main_arg7)) (W (Proc.devRef .tc main_arg8)) (W (Proc.devRef .tc main_arg9)) := by apply w2_v169 <;> from_b2
theorem b3_v10 : B3 W (Proc.devRef .tc main_v10) = Read.val_main_v10 (W (Proc.devRef .tc main_arg22)) := (keep2 _ main_v10).trans (b2_v10 W)
theorem b3_v12 : B3 W (Proc.devRef .tc main_v12) = Read.val_main_v12 (W (Proc.devRef .tc main_arg22)) := (keep2 _ main_v12).trans (b2_v12 W)

macro "from_b3" : tactic => `(tactic| first | exact b3_v152 _ | exact b3_v169 _ | exact b3_v10 _ | exact b3_v12 _ | keep_b3)

set_option maxHeartbeats 2000000 in
theorem b4_v222 : B4 W (Proc.devRef .tc main_v222) = Read.val_main_v222 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg22)) := by apply w3_v222 <;> from_b3
set_option maxHeartbeats 2000000 in
theorem b4_v223 : B4 W (Proc.devRef .tc main_v223) = Read.val_main_v223 := by apply w3_v223 <;> from_b3

macro "from_b4" : tactic => `(tactic| first | exact b4_v222 _ | exact b4_v223 _ | keep_b4)

set_option maxHeartbeats 2000000 in

theorem after_ops_v242 : after (ops (F := F)) W (Proc.devRef .tc main_v242) = Read.val_main_v242 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) := by
  simp only [ops, StableHlo.after_append]
  apply w4_v242 <;> from_b4

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v242) = Read.val_main_v242 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v242).trans (after_ops_v242 _),
      (h c main_arg0).trans (keep_ops _ main_arg0),
      (h c main_arg1).trans (keep_ops _ main_arg1),
      (h c main_arg2).trans (keep_ops _ main_arg2),
      (h c main_arg3).trans (keep_ops _ main_arg3),
      (h c main_arg4).trans (keep_ops _ main_arg4),
      (h c main_arg5).trans (keep_ops _ main_arg5),
      (h c main_arg6).trans (keep_ops _ main_arg6),
      (h c main_arg7).trans (keep_ops _ main_arg7),
      (h c main_arg8).trans (keep_ops _ main_arg8),
      (h c main_arg9).trans (keep_ops _ main_arg9),
      (h c main_arg10).trans (keep_ops _ main_arg10),
      (h c main_arg11).trans (keep_ops _ main_arg11),
      (h c main_arg12).trans (keep_ops _ main_arg12),
      (h c main_arg13).trans (keep_ops _ main_arg13),
      (h c main_arg14).trans (keep_ops _ main_arg14),
      (h c main_arg15).trans (keep_ops _ main_arg15),
      (h c main_arg16).trans (keep_ops _ main_arg16),
      (h c main_arg17).trans (keep_ops _ main_arg17),
      (h c main_arg18).trans (keep_ops _ main_arg18),
      (h c main_arg19).trans (keep_ops _ main_arg19),
      (h c main_arg20).trans (keep_ops _ main_arg20),
      (h c main_arg21).trans (keep_ops _ main_arg21),
      (h c main_arg22).trans (keep_ops _ main_arg22),
      (h c main_arg23).trans (keep_ops _ main_arg23)⟩)
    (run_after m ρ)

end Cert.ReferenceIdeal.RunVal

end
-- ==== Proof.Spec.lean ====
/-
  Dense layers, the rectifier, row gathers and column-wise joins as functions of matrices over the extended reals, and
  the one law the two programs differ by: a product with a weight matrix whose rows are stacked in blocks is the sum
  of the products with the blocks.
-/
import Mathlib.Data.EReal.Basic
import Mathlib.Algebra.BigOperators.Fin
import Mathlib.Algebra.BigOperators.Intervals
import Idealize.ShloMosaic.Lib.ValueIdx

noncomputable section

namespace Cert.Gnn

open Finset Idealize.ShloMosaic Idealize.ShloMosaic.ValueIdx

abbrev Mat (M N : Nat) := Fin M → Fin N → EReal

def cur {M N : Nat} (v : (⟨2, ![M, N]⟩ : Shape).Idx → EReal) : Mat M N := fun r n => v (ix2 r n)

def unc {M N : Nat} (f : Mat M N) : (⟨2, ![M, N]⟩ : Shape).Idx → EReal := fun i => f (i 0) (i 1)

def cur1 {N : Nat} (v : (⟨1, ![N]⟩ : Shape).Idx → EReal) : Fin N → EReal := fun n => v (ix1 n)

def row {N : Nat} (v : (⟨2, ![1, N]⟩ : Shape).Idx → EReal) : Fin N → EReal := fun n => v (ix2 0 n)

theorem unc_apply {M N : Nat} (f : Mat M N) (r : Fin M) (n : Fin N) : unc f (ix2 r n) = f r n := rfl

theorem cur_unc {M N : Nat} (f : Mat M N) : cur (unc f) = f := rfl

def dense {M K N : Nat} (x : Mat M K) (W : Mat K N) (b : Fin N → EReal) : Mat M N :=
  fun r n => (∑ k : Fin K, x r k * W k n) + b n

def relu {M N : Nat} (x : Mat M N) : Mat M N := fun r n => max (x r n) 0

def mlp2 {M K H N : Nat} (x : Mat M K) (W0 : Mat K H) (b0 : Fin H → EReal) (W1 : Mat H N) (b1 : Fin N → EReal) : Mat M N :=
  dense (relu (dense x W0 b0)) W1 b1

def rows {K N : Nat} (o : Nat) (W : Mat K N) (h : o + 128 ≤ K) : Mat 128 N :=
  fun k n => W ⟨o + k.val, by have := k.isLt; omega⟩ n

def cat3 {M : Nat} (a b c : Mat M 128) : Mat M 384 :=
  fun r j => if h : j.val < 128 then a r ⟨j.val, h⟩
    else if h2 : j.val < 256 then b r ⟨j.val - 128, by omega⟩
    else c r ⟨j.val - 256, by have := j.isLt; omega⟩

def cat2 {M : Nat} (a b : Mat M 128) : Mat M 256 :=
  fun r j => if h : j.val < 128 then a r ⟨j.val, h⟩ else b r ⟨j.val - 128, by have := j.isLt; omega⟩

def msgSplit {M : Nat} (xi xj e : Mat M 128) (Wa Wb Wc : Mat 128 128) (bm0 : Fin 128 → EReal)
    (Wm1 : Mat 128 128) (bm1 : Fin 128 → EReal) : Mat M 128 :=
  dense (relu (fun r n => (∑ k : Fin 128, xi r k * Wa k n) + (∑ k : Fin 128, xj r k * Wb k n)
    + (∑ k : Fin 128, e r k * Wc k n) + bm0 n)) Wm1 bm1

def updSplit {M : Nat} (x agg : Mat M 128) (Wx Wagg : Mat 128 128) (bu0 : Fin 128 → EReal)
    (Wu1 : Mat 128 128) (bu1 : Fin 128 → EReal) : Mat M 128 :=
  dense (relu (fun r n => (∑ k : Fin 128, x r k * Wx k n) + (∑ k : Fin 128, agg r k * Wagg k n) + bu0 n)) Wu1 bu1

theorem sum_fin384 (f : Fin 384 → EReal) :
    ∑ j : Fin 384, f j
      = (∑ k : Fin 128, f ⟨k.val, by have := k.isLt; omega⟩)
        + (∑ k : Fin 128, f ⟨128 + k.val, by have := k.isLt; omega⟩)
        + (∑ k : Fin 128, f ⟨256 + k.val, by have := k.isLt; omega⟩) := by
  have h1 := Fin.sum_univ_add (M := EReal) (a := 128 + 128) (b := 128) f
  have h2 := Fin.sum_univ_add (M := EReal) (a := 128) (b := 128) (fun i => f (Fin.castAdd 128 i))
  rw [h2] at h1
  exact h1

theorem sum_fin256 (f : Fin 256 → EReal) :
    ∑ j : Fin 256, f j
      = (∑ k : Fin 128, f ⟨k.val, by have := k.isLt; omega⟩)
        + (∑ k : Fin 128, f ⟨128 + k.val, by have := k.isLt; omega⟩) :=
  Fin.sum_univ_add (M := EReal) (a := 128) (b := 128) f

theorem cat3_lo {M : Nat} (a b c : Mat M 128) (r : Fin M) (k : Fin 128) (h : k.val < 384) :
    cat3 a b c r ⟨k.val, h⟩ = a r k := by
  have hk : (⟨k.val, h⟩ : Fin 384).val < 128 := k.isLt
  unfold cat3
  rw [dif_pos hk]

theorem cat3_mid {M : Nat} (a b c : Mat M 128) (r : Fin M) (k : Fin 128) (h : 128 + k.val < 384) :
    cat3 a b c r ⟨128 + k.val, h⟩ = b r k := by
  have hk := k.isLt
  have h1 : ¬ ((⟨128 + k.val, h⟩ : Fin 384).val < 128) := by show ¬ (128 + k.val < 128); omega
  have h2 : (⟨128 + k.val, h⟩ : Fin 384).val < 256 := by show 128 + k.val < 256; omega
  unfold cat3
  rw [dif_neg h1, dif_pos h2]
  exact congrArg (b r) (Fin.ext (Nat.add_sub_cancel_left _ _))

theorem cat3_hi {M : Nat} (a b c : Mat M 128) (r : Fin M) (k : Fin 128) (h : 256 + k.val < 384) :
    cat3 a b c r ⟨256 + k.val, h⟩ = c r k := by
  have hk := k.isLt
  have h1 : ¬ ((⟨256 + k.val, h⟩ : Fin 384).val < 128) := by show ¬ (256 + k.val < 128); omega
  have h2 : ¬ ((⟨256 + k.val, h⟩ : Fin 384).val < 256) := by show ¬ (256 + k.val < 256); omega
  unfold cat3
  rw [dif_neg h1, dif_neg h2]
  exact congrArg (c r) (Fin.ext (Nat.add_sub_cancel_left _ _))

theorem cat2_lo {M : Nat} (a b : Mat M 128) (r : Fin M) (k : Fin 128) (h : k.val < 256) :
    cat2 a b r ⟨k.val, h⟩ = a r k := by
  have hk : (⟨k.val, h⟩ : Fin 256).val < 128 := k.isLt
  unfold cat2
  rw [dif_pos hk]

theorem cat2_hi {M : Nat} (a b : Mat M 128) (r : Fin M) (k : Fin 128) (h : 128 + k.val < 256) :
    cat2 a b r ⟨128 + k.val, h⟩ = b r k := by
  have hk := k.isLt
  have h1 : ¬ ((⟨128 + k.val, h⟩ : Fin 256).val < 128) := by show ¬ (128 + k.val < 128); omega
  unfold cat2
  rw [dif_neg h1]
  exact congrArg (b r) (Fin.ext (Nat.add_sub_cancel_left _ _))

theorem rows_zero {K N : Nat} (W : Mat K N) (h : 0 + 128 ≤ K) (k : Fin 128) (n : Fin N) :
    rows 0 W h k n = W ⟨k.val, by have := k.isLt; omega⟩ n := by
  unfold rows
  exact congrArg (fun i => W i n) (Fin.ext (Nat.zero_add _))

theorem sum_cat3 {M : Nat} (a b c : Mat M 128) (W : Mat 384 128) (r : Fin M) (n : Fin 128) :
    ∑ j : Fin 384, cat3 a b c r j * W j n
      = (∑ k : Fin 128, a r k * rows 0 W (by omega) k n) + (∑ k : Fin 128, b r k * rows 128 W (by omega) k n)
        + (∑ k : Fin 128, c r k * rows 256 W (by omega) k n) := by
  rw [sum_fin384]
  simp only [cat3_lo, cat3_mid, cat3_hi, rows_zero]
  simp only [rows]

theorem sum_cat2 {M : Nat} (a b : Mat M 128) (W : Mat 256 128) (r : Fin M) (n : Fin 128) :
    ∑ j : Fin 256, cat2 a b r j * W j n
      = (∑ k : Fin 128, a r k * rows 0 W (by omega) k n) + (∑ k : Fin 128, b r k * rows 128 W (by omega) k n) := by
  rw [sum_fin256]
  simp only [cat2_lo, cat2_hi, rows_zero]
  simp only [rows]

theorem msgSplit_eq {M : Nat} (xi xj e : Mat M 128) (W : Mat 384 128) (bm0 : Fin 128 → EReal)
    (Wm1 : Mat 128 128) (bm1 : Fin 128 → EReal) :
    msgSplit xi xj e (rows 0 W (by omega)) (rows 128 W (by omega)) (rows 256 W (by omega)) bm0 Wm1 bm1
      = mlp2 (cat3 xi xj e) W bm0 Wm1 bm1 := by
  funext r n
  simp only [msgSplit, mlp2, dense, relu, sum_cat3]

theorem updSplit_eq {M : Nat} (x agg : Mat M 128) (W : Mat 256 128) (bu0 : Fin 128 → EReal)
    (Wu1 : Mat 128 128) (bu1 : Fin 128 → EReal) :
    updSplit x agg (rows 0 W (by omega)) (rows 128 W (by omega)) bu0 Wu1 bu1 = mlp2 (cat2 x agg) W bu0 Wu1 bu1 := by
  funext r n
  simp only [updSplit, mlp2, dense, relu, sum_cat2]

end Cert.Gnn

end
-- ==== Proof.KReg0.lean ====
/-
  Regions 0 and 7 apply x ↦ max(x · W0 + b0, 0) · W1 + b1 row by row; each region's output array is that function of
  the arrays it finds.
-/
import proofs.«426174_j75376676045031_2_alg».proof.Proof.Gen.KernelIdeal.Frame
import proofs.«426174_j75376676045031_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.TcCoe Idealize.ShloMosaic.ValueIdx
open Idealize.ShloMosaic.Pipeline (Dat)

namespace Mlp

theorem lhs_a_0 (i : S10000x128.Idx) (q : dot_S10000x4_S4x128_S10000x128_1_0_0_1_n_n.contr.Idx) :
    (dot_S10000x4_S4x128_S10000x128_1_0_0_1_n_n.lhsIdx i q 0).val = (i 0).val := by
  unfold DotDims.lhsIdx
  rw [dif_neg (show ¬(0 : Fin S10000x4.rank) ∈ dot_S10000x4_S4x128_S10000x128_1_0_0_1_n_n.lhsBatch by decide), dif_pos (show (0 : Fin S10000x4.rank) ∈ dot_S10000x4_S4x128_S10000x128_1_0_0_1_n_n.lhsNonContracting by decide)]
  rfl
theorem lhs_a_1 (i : S10000x128.Idx) (q : dot_S10000x4_S4x128_S10000x128_1_0_0_1_n_n.contr.Idx) :
    (dot_S10000x4_S4x128_S10000x128_1_0_0_1_n_n.lhsIdx i q 1).val = (q ⟨0, by decide⟩).val :=
  dot_S10000x4_S4x128_S10000x128_1_0_0_1_n_n.lhsIdx_val_of_single rfl i q
theorem rhs_a_0 (i : S10000x128.Idx) (q : dot_S10000x4_S4x128_S10000x128_1_0_0_1_n_n.contr.Idx) :
    (dot_S10000x4_S4x128_S10000x128_1_0_0_1_n_n.rhsIdx i q 0).val = (q ⟨0, by decide⟩).val :=
  dot_S10000x4_S4x128_S10000x128_1_0_0_1_n_n.rhsIdx_val_of_single rfl i q
theorem rhs_a_1 (i : S10000x128.Idx) (q : dot_S10000x4_S4x128_S10000x128_1_0_0_1_n_n.contr.Idx) :
    (dot_S10000x4_S4x128_S10000x128_1_0_0_1_n_n.rhsIdx i q 1).val = (i 1).val := by
  unfold DotDims.rhsIdx
  rw [dif_neg (show ¬(1 : Fin S4x128.rank) ∈ dot_S10000x4_S4x128_S10000x128_1_0_0_1_n_n.rhsBatch by decide), dif_pos (show (1 : Fin S4x128.rank) ∈ dot_S10000x4_S4x128_S10000x128_1_0_0_1_n_n.rhsNonContracting by decide)]
  rfl

theorem matmul_a_apply (l : FVec Ideal S10000x4 .f32) (r : FVec Ideal S4x128 .f32) (p : Fin 10000) (q : Fin 128) :
    matmul dot_S10000x4_S4x128_S10000x128_1_0_0_1_n_n (some .fp32) l r (constant S10000x128 .f32 0x00000000#32) (ix2 p q)
      = ∑ k : Fin 4, l (ix2 p k) * r (ix2 k q) := by
  show FloatOps.matmul dot_S10000x4_S4x128_S10000x128_1_0_0_1_n_n (some .fp32) l r (constant S10000x128 .f32 0x00000000#32) (ix2 p q) = _
  rw [Ideal.matmul_constant_zero_apply, ← Equiv.sum_comp (contrEquiv1 dot_S10000x4_S4x128_S10000x128_1_0_0_1_n_n 4 rfl rfl).symm]
  refine Finset.sum_congr rfl fun k _ => ?_
  have hk := contrEquiv1_symm_val dot_S10000x4_S4x128_S10000x128_1_0_0_1_n_n 4 rfl rfl k
  have el : dot_S10000x4_S4x128_S10000x128_1_0_0_1_n_n.lhsIdx (ix2 p q) ((contrEquiv1 dot_S10000x4_S4x128_S10000x128_1_0_0_1_n_n 4 rfl rfl).symm k) = ix2 p k := funext fun a => Fin.ext (by
    match a with
    | ⟨0, _⟩ => exact lhs_a_0 _ _
    | ⟨1, _⟩ => exact (lhs_a_1 _ _).trans hk)
  have er : dot_S10000x4_S4x128_S10000x128_1_0_0_1_n_n.rhsIdx (ix2 p q) ((contrEquiv1 dot_S10000x4_S4x128_S10000x128_1_0_0_1_n_n 4 rfl rfl).symm k) = ix2 k q := funext fun a => Fin.ext (by
    match a with
    | ⟨0, _⟩ => exact (rhs_a_0 _ _).trans hk
    | ⟨1, _⟩ => exact rhs_a_1 _ _)
  rw [el, er]

theorem lhs_b_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_b_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_b_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_b_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem matmul_b_apply (l : FVec Ideal S10000x128 .f32) (r : FVec Ideal S128x128 .f32) (p : Fin 10000) (q : Fin 128) :
    matmul dot_S10000x128_S128x128_S10000x128_1_0_0_1_n_n (some .fp32) l r (constant S10000x128 .f32 0x00000000#32) (ix2 p q)
      = ∑ k : Fin 128, l (ix2 p k) * r (ix2 k q) := by
  show FloatOps.matmul dot_S10000x128_S128x128_S10000x128_1_0_0_1_n_n (some .fp32) l r (constant S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_b_0 _ _
    | ⟨1, _⟩ => exact (lhs_b_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_b_0 _ _).trans hk
    | ⟨1, _⟩ => exact rhs_b_1 _ _)
  rw [el, er]

theorem lhs_c_0 (i : S16x128.Idx) (q : dot_S16x128_S128x128_S16x128_1_0_0_1_n_n.contr.Idx) :
    (dot_S16x128_S128x128_S16x128_1_0_0_1_n_n.lhsIdx i q 0).val = (i 0).val := by
  unfold DotDims.lhsIdx
  rw [dif_neg (show ¬(0 : Fin S16x128.rank) ∈ dot_S16x128_S128x128_S16x128_1_0_0_1_n_n.lhsBatch by decide), dif_pos (show (0 : Fin S16x128.rank) ∈ dot_S16x128_S128x128_S16x128_1_0_0_1_n_n.lhsNonContracting by decide)]
  rfl
theorem lhs_c_1 (i : S16x128.Idx) (q : dot_S16x128_S128x128_S16x128_1_0_0_1_n_n.contr.Idx) :
    (dot_S16x128_S128x128_S16x128_1_0_0_1_n_n.lhsIdx i q 1).val = (q ⟨0, by decide⟩).val :=
  dot_S16x128_S128x128_S16x128_1_0_0_1_n_n.lhsIdx_val_of_single rfl i q
theorem rhs_c_0 (i : S16x128.Idx) (q : dot_S16x128_S128x128_S16x128_1_0_0_1_n_n.contr.Idx) :
    (dot_S16x128_S128x128_S16x128_1_0_0_1_n_n.rhsIdx i q 0).val = (q ⟨0, by decide⟩).val :=
  dot_S16x128_S128x128_S16x128_1_0_0_1_n_n.rhsIdx_val_of_single rfl i q
theorem rhs_c_1 (i : S16x128.Idx) (q : dot_S16x128_S128x128_S16x128_1_0_0_1_n_n.contr.Idx) :
    (dot_S16x128_S128x128_S16x128_1_0_0_1_n_n.rhsIdx i q 1).val = (i 1).val := by
  unfold DotDims.rhsIdx
  rw [dif_neg (show ¬(1 : Fin S128x128.rank) ∈ dot_S16x128_S128x128_S16x128_1_0_0_1_n_n.rhsBatch by decide), dif_pos (show (1 : Fin S128x128.rank) ∈ dot_S16x128_S128x128_S16x128_1_0_0_1_n_n.rhsNonContracting by decide)]
  rfl

theorem matmul_c_apply (l : FVec Ideal S16x128 .f32) (r : FVec Ideal S128x128 .f32) (p : Fin 16) (q : Fin 128) :
    matmul dot_S16x128_S128x128_S16x128_1_0_0_1_n_n (some .fp32) l r (constant S16x128 .f32 0x00000000#32) (ix2 p q)
      = ∑ k : Fin 128, l (ix2 p k) * r (ix2 k q) := by
  show FloatOps.matmul dot_S16x128_S128x128_S16x128_1_0_0_1_n_n (some .fp32) l r (constant S16x128 .f32 0x00000000#32) (ix2 p q) = _
  rw [Ideal.matmul_constant_zero_apply, ← Equiv.sum_comp (contrEquiv1 dot_S16x128_S128x128_S16x128_1_0_0_1_n_n 128 rfl rfl).symm]
  refine Finset.sum_congr rfl fun k _ => ?_
  have hk := contrEquiv1_symm_val dot_S16x128_S128x128_S16x128_1_0_0_1_n_n 128 rfl rfl k
  have el : dot_S16x128_S128x128_S16x128_1_0_0_1_n_n.lhsIdx (ix2 p q) ((contrEquiv1 dot_S16x128_S128x128_S16x128_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S16x128_S128x128_S16x128_1_0_0_1_n_n.rhsIdx (ix2 p q) ((contrEquiv1 dot_S16x128_S128x128_S16x128_1_0_0_1_n_n 128 rfl rfl).symm k) = ix2 k q := funext fun a => Fin.ext (by
    match a with
    | ⟨0, _⟩ => exact (rhs_c_0 _ _).trans hk
    | ⟨1, _⟩ => exact rhs_c_1 _ _)
  rw [el, er]

theorem pay0_apply (x0 : Vec Ideal S10000x4 .f32) (x1 : Vec Ideal S4x128 .f32) (x2 : Vec Ideal S1x128 .f32)
    (x3 : Vec Ideal S128x128 .f32) (x4 : Vec Ideal S1x128 .f32) (p : Fin 10000) (q : Fin 128) :
    k0_pay1 (F := Ideal) x0 x1 x2 x3 x4 (ix2 p q)
      = (∑ k : Fin 128, max ((∑ j : Fin 4, x0 (ix2 p j) * x1 (ix2 j k)) + x2 (ix2 0 k)) 0 * x3 (ix2 k q)) + x4 (ix2 0 q) := by
  unfold k0_pay1
  simp only [shapeCast_self]
  rw [addf_apply, matmul_b_apply, broadcastTo_1b_ab_apply]
  refine congrArg (· + x4 (ix2 0 q)) (Finset.sum_congr rfl fun k _ => ?_)
  rw [maximumf_apply, addf_apply, matmul_a_apply, broadcastTo_1b_ab_apply, broadcast_apply]
  show max _ (Ideal.ofBits .f32 0x00000000#32) * _ = _
  rw [Ideal.ofBits_zero_f32]

theorem pay0_of_rows (x0 : Vec Ideal S10000x4 .f32) (x1 : Vec Ideal S4x128 .f32) (x2 : Vec Ideal S1x128 .f32)
    (x3 : Vec Ideal S128x128 .f32) (x4 : Vec Ideal S1x128 .f32) {R : Nat} (A0 : (⟨2, ![R, 4]⟩ : Shape).Idx → EReal)
    (A1 : S4x128.Idx → EReal) (A2 : S1x128.Idx → EReal) (A3 : S128x128.Idx → EReal) (A4 : S1x128.Idx → EReal)
    (p : Fin 10000) (q : Fin 128) (r : Fin R)
    (h0 : ∀ k : Fin 4, x0 (ix2 p k) = A0 (ix2 r k)) (h1 : x1 = A1) (h2 : x2 = A2) (h3 : x3 = A3) (h4 : x4 = A4) :
    k0_pay1 (F := Ideal) x0 x1 x2 x3 x4 (ix2 p q) = unc (mlp2 (cur A0) (cur A1) (row A2) (cur A3) (row A4)) (ix2 r q) := by
  subst h1 h2 h3 h4
  rw [pay0_apply]
  show _ = mlp2 (cur A0) (cur x1) (row x2) (cur x3) (row x4) r q
  simp only [mlp2, dense, relu, cur, row, h0]

theorem pay7_apply (x0 : Vec Ideal S16x128 .f32) (x1 : Vec Ideal S128x128 .f32) (x2 : Vec Ideal S1x128 .f32)
    (x3 : Vec Ideal S128x128 .f32) (x4 : Vec Ideal S1x128 .f32) (p : Fin 16) (q : Fin 128) :
    k7_pay1 (F := Ideal) x0 x1 x2 x3 x4 (ix2 p q)
      = (∑ k : Fin 128, max ((∑ j : Fin 128, x0 (ix2 p j) * x1 (ix2 j k)) + x2 (ix2 0 k)) 0 * x3 (ix2 k q)) + x4 (ix2 0 q) := by
  unfold k7_pay1
  simp only [shapeCast_self]
  rw [addf_apply, matmul_c_apply, broadcastTo_1b_ab_apply]
  refine congrArg (· + x4 (ix2 0 q)) (Finset.sum_congr rfl fun k _ => ?_)
  rw [maximumf_apply, addf_apply, matmul_c_apply, broadcastTo_1b_ab_apply, broadcast_apply]
  show max _ (Ideal.ofBits .f32 0x00000000#32) * _ = _
  rw [Ideal.ofBits_zero_f32]

theorem pay7_of_rows (x0 : Vec Ideal S16x128 .f32) (x1 : Vec Ideal S128x128 .f32) (x2 : Vec Ideal S1x128 .f32)
    (x3 : Vec Ideal S128x128 .f32) (x4 : Vec Ideal S1x128 .f32) {R : Nat} (A0 : (⟨2, ![R, 128]⟩ : Shape).Idx → EReal)
    (A1 : S128x128.Idx → EReal) (A2 : S1x128.Idx → EReal) (A3 : S128x128.Idx → EReal) (A4 : S1x128.Idx → EReal)
    (p : Fin 16) (q : Fin 128) (r : Fin R)
    (h0 : ∀ k : Fin 128, x0 (ix2 p k) = A0 (ix2 r k)) (h1 : x1 = A1) (h2 : x2 = A2) (h3 : x3 = A3) (h4 : x4 = A4) :
    k7_pay1 (F := Ideal) x0 x1 x2 x3 x4 (ix2 p q) = unc (mlp2 (cur A0) (cur A1) (row A2) (cur A3) (row A4)) (ix2 r q) := by
  subst h1 h2 h3 h4
  rw [pay7_apply]
  show _ = mlp2 (cur A0) (cur x1) (row x2) (cur x3) (row x4) r q
  simp only [mlp2, dense, relu, cur, row, h0]

variable (V : (c : Dev nD) → (b : Ref sig .tc) → Buf (Elt Ideal) ((c : Thread nD τ).loc b))

theorem hz : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

abbrev G0 (c : Dev nD) : S50000x128.Idx → EReal :=
  unc (mlp2 (cur (V c main_arg0 : S50000x4.Idx → EReal)) (cur (V c main_arg2 : S4x128.Idx → EReal)) (row (V c main_v0 : S1x128.Idx → EReal))
    (cur (V c main_arg4 : S128x128.Idx → EReal)) (row (V c main_v1 : S1x128.Idx → EReal)))

theorem pay0_blocks (c : Dev nD) (t : Fin cfg0.N) (j : S10000x128.Idx) :
    k0_pay1 (F := Ideal) (iblk0 V c 0 t) (iblk0 V c 1 t) (iblk0 V c 2 t) (iblk0 V c 3 t) (iblk0 V c 4 t) j
      = G0 V c (((cfg0.win 5).blk t).view.emb j) := by
  obtain ⟨p, q, rfl⟩ : ∃ (p : Fin 10000) (q : Fin 128), j = ix2 p q := ⟨j 0, j 1, eq_ix2 j⟩
  obtain ⟨e00, e01, e10, e11, e20, e21, e30, e31, e40, e41, e50, e51⟩ := idx_facts0 t
  have ht : t.val < 5 := by have h := t.isLt; have hN : cfg0.N = 5 := N_0; omega
  refine (pay0_of_rows (iblk0 V c 0 t) (iblk0 V c 1 t) (iblk0 V c 2 t) (iblk0 V c 3 t) (iblk0 V c 4 t)
    (V c main_arg0 : S50000x4.Idx → EReal) (V c main_arg2 : S4x128.Idx → EReal) (V c main_v0 : S1x128.Idx → EReal)
    (V c main_arg4 : S128x128.Idx → EReal) (V c main_v1 : S1x128.Idx → EReal)
    p q ⟨t.val * 10000 + p.val, by have := p.isLt; omega⟩ ?_ ?_ ?_ ?_ ?_).trans ?_
  · intro k
    show (V c main_arg0 : S50000x4.Idx → EReal) (((cfg0.win 0).blk t).view.emb (ix2 p k)) = _
    refine congrArg (V c main_arg0 : S50000x4.Idx → EReal) (funext fun a => Fin.ext ?_)
    match a with
    | ⟨0, _⟩ => show win0_0.index t (0 : Fin 2) * 10000 + 1 * p.val = t.val * 10000 + p.val; omega
    | ⟨1, _⟩ => show win0_0.index t (1 : Fin 2) * 4 + 1 * k.val = k.val; omega
  · funext y
    show (V c main_arg2 : S4x128.Idx → EReal) (((cfg0.win 1).blk t).view.emb y) = _
    refine congrArg (V c main_arg2 : S4x128.Idx → EReal) (funext fun a => Fin.ext ?_)
    match a with
    | ⟨0, _⟩ => show win0_1.index t (0 : Fin 2) * 4 + 1 * (y 0).val = (y 0).val; omega
    | ⟨1, _⟩ => show win0_1.index t (1 : Fin 2) * 128 + 1 * (y 1).val = (y 1).val; omega
  · funext y
    show (V c main_v0 : S1x128.Idx → EReal) (((cfg0.win 2).blk t).view.emb y) = _
    refine congrArg (V c main_v0 : S1x128.Idx → EReal) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show (V c main_arg4 : S128x128.Idx → EReal) (((cfg0.win 3).blk t).view.emb y) = _
    refine congrArg (V c main_arg4 : S128x128.Idx → EReal) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show (V c main_v1 : S1x128.Idx → EReal) (((cfg0.win 4).blk t).view.emb y) = _
    refine congrArg (V c main_v1 : S1x128.Idx → EReal) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · refine congrArg (G0 V c) (funext fun a => Fin.ext ?_)
    match a with
    | ⟨0, _⟩ => show t.val * 10000 + p.val = win0_5.index t (0 : Fin 2) * 10000 + 1 * p.val; omega
    | ⟨1, _⟩ => show q.val = win0_5.index t (1 : Fin 2) * 128 + 1 * q.val; omega

theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S10000x4) hz, View.ld_unit_zero (S := S4x128) hz, View.ld_unit_zero (S := S1x128) hz, View.ld_unit_zero (S := S128x128) hz]
  funext j
  exact pay0_blocks V c t j

theorem mem_blk0 (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v2).slice (win0_5.rect t)).set ↔ _
  rw [View.set_slice_whole, Rect.mem_set_unit]
  exact Iff.rfl

theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 10000 < cfg0.N := by rw [show cfg0.N = 5 from N_0]; omega
  obtain ⟨-, -, -, -, -, -, -, -, -, -, e50, e51⟩ := idx_facts0 ⟨(i 0).val / 10000, hlt⟩
  have e50' : win0_5.index ⟨(i 0).val / 10000, hlt⟩ (0 : Fin 2) = (i 0).val / 10000 := e50
  refine ⟨⟨(i 0).val / 10000, hlt⟩, flush0_5 _, ?_⟩
  rw [mem_blk0]
  intro a
  match a with
  | ⟨0, _⟩ =>
    show win0_5.index ⟨(i 0).val / 10000, hlt⟩ (0 : Fin 2) * 10000 ≤ (i 0).val ∧ (i 0).val < win0_5.index ⟨(i 0).val / 10000, hlt⟩ (0 : Fin 2) * 10000 + 10000
    rw [e50']; omega
  | ⟨1, _⟩ =>
    show win0_5.index ⟨(i 0).val / 10000, hlt⟩ (1 : Fin 2) * 128 ≤ (i 1).val ∧ (i 1).val < win0_5.index ⟨(i 0).val / 10000, hlt⟩ (1 : Fin 2) * 128 + 128
    rw [e51]; omega

theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

abbrev G7 (c : Dev nD) : S16x128.Idx → EReal :=
  unc (mlp2 (cur (V c main_v146 : S16x128.Idx → EReal)) (cur (V c main_arg18 : S128x128.Idx → EReal)) (row (V c main_v147 : S1x128.Idx → EReal))
    (cur (V c main_arg20 : S128x128.Idx → EReal)) (row (V c main_v148 : S1x128.Idx → EReal)))

theorem pay7_blocks (c : Dev nD) (t : Fin cfg7.N) (j : S16x128.Idx) :
    k7_pay1 (F := Ideal) (iblk7 V c 0 t) (iblk7 V c 1 t) (iblk7 V c 2 t) (iblk7 V c 3 t) (iblk7 V c 4 t) j
      = G7 V c (((cfg7.win 5).blk t).view.emb j) := by
  obtain ⟨p, q, rfl⟩ : ∃ (p : Fin 16) (q : Fin 128), j = ix2 p q := ⟨j 0, j 1, eq_ix2 j⟩
  obtain ⟨e00, e01, e10, e11, e20, e21, e30, e31, e40, e41, e50, e51⟩ := idx_facts7 t
  have ht : t.val < 1 := by have h := t.isLt; have hN : cfg7.N = 1 := N_7; omega
  refine (pay7_of_rows (iblk7 V c 0 t) (iblk7 V c 1 t) (iblk7 V c 2 t) (iblk7 V c 3 t) (iblk7 V c 4 t)
    (V c main_v146 : S16x128.Idx → EReal) (V c main_arg18 : S128x128.Idx → EReal) (V c main_v147 : S1x128.Idx → EReal)
    (V c main_arg20 : S128x128.Idx → EReal) (V c main_v148 : S1x128.Idx → EReal)
    p q p ?_ ?_ ?_ ?_ ?_).trans ?_
  · intro k
    show (V c main_v146 : S16x128.Idx → EReal) (((cfg7.win 0).blk t).view.emb (ix2 p k)) = _
    refine congrArg (V c main_v146 : S16x128.Idx → EReal) (funext fun a => Fin.ext ?_)
    match a with
    | ⟨0, _⟩ => show win7_0.index t (0 : Fin 2) * 16 + 1 * p.val = p.val; omega
    | ⟨1, _⟩ => show win7_0.index t (1 : Fin 2) * 128 + 1 * k.val = k.val; omega
  · funext y
    show (V c main_arg18 : S128x128.Idx → EReal) (((cfg7.win 1).blk t).view.emb y) = _
    refine congrArg (V c main_arg18 : S128x128.Idx → EReal) (funext fun a => Fin.ext ?_)
    match a with
    | ⟨0, _⟩ => show win7_1.index t (0 : Fin 2) * 128 + 1 * (y 0).val = (y 0).val; omega
    | ⟨1, _⟩ => show win7_1.index t (1 : Fin 2) * 128 + 1 * (y 1).val = (y 1).val; omega
  · funext y
    show (V c main_v147 : S1x128.Idx → EReal) (((cfg7.win 2).blk t).view.emb y) = _
    refine congrArg (V c main_v147 : S1x128.Idx → EReal) (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  · funext y
    show (V c main_arg20 : S128x128.Idx → EReal) (((cfg7.win 3).blk t).view.emb y) = _
    refine congrArg (V c main_arg20 : S128x128.Idx → EReal) (funext fun a => Fin.ext ?_)
    match a with
    | ⟨0, _⟩ => show win7_3.index t (0 : Fin 2) * 128 + 1 * (y 0).val = (y 0).val; omega
    | ⟨1, _⟩ => show win7_3.index t (1 : Fin 2) * 128 + 1 * (y 1).val = (y 1).val; omega
  · funext y
    show (V c main_v148 : S1x128.Idx → EReal) (((cfg7.win 4).blk t).view.emb y) = _
    refine congrArg (V c main_v148 : S1x128.Idx → EReal) (funext fun a => Fin.ext ?_)
    match a with
    | ⟨0, _⟩ => show win7_4.index t (0 : Fin 2) * 1 + 1 * (y 0).val = (y 0).val; omega
    | ⟨1, _⟩ => show win7_4.index t (1 : Fin 2) * 128 + 1 * (y 1).val = (y 1).val; omega
  · refine congrArg (G7 V c) (funext fun a => Fin.ext ?_)
    match a with
    | ⟨0, _⟩ => show p.val = win7_5.index t (0 : Fin 2) * 16 + 1 * p.val; omega
    | ⟨1, _⟩ => show q.val = win7_5.index t (1 : Fin 2) * 128 + 1 * q.val; omega

theorem flushed7_eq (c : Dev nD) (t : Fin cfg7.N) :
    (dat7 (F := Ideal) V c).flushed 5 t = ((cfg7.win 5).blk t).view.read (Elt Ideal) (G7 V c) := by
  show (cfg7.win 5).cut (grid7.coords t) ((dat7 (F := Ideal) V c).after 5 t) = _
  rw [after7_5]
  unfold out7_5
  rw [View.canon_unit_zero hz]
  simp only [View.ld_unit_zero (S := S16x128) hz, View.ld_unit_zero (S := S128x128) hz, View.ld_unit_zero (S := S1x128) hz]
  funext j
  exact pay7_blocks V c t j

theorem mem_blk7 (t : Fin cfg7.N) (i : S16x128.Idx) :
    i ∈ ((cfg7.win 5).blk t).view.set ↔ ∀ a : Fin 2, win7_5.index t a * S16x128.size a ≤ (i a).val ∧ (i a).val < win7_5.index t a * S16x128.size a + S16x128.size a := by
  show i ∈ ((View.whole main_v149).slice (win7_5.rect t)).set ↔ _
  rw [View.set_slice_whole, Rect.mem_set_unit]
  exact Iff.rfl

theorem cover7 (i : S16x128.Idx) :
    ∃ t : Fin cfg7.N, (cfg7.win 5).flush t = true ∧ i ∈ ((cfg7.win 5).blk t).view.set := by
  have hi0 : (i 0).val < 16 := (i 0).isLt
  have hi1 : (i 1).val < 128 := (i 1).isLt
  have hlt : 0 < cfg7.N := by rw [show cfg7.N = 1 from N_7]; omega
  obtain ⟨-, -, -, -, -, -, -, -, -, -, e50, e51⟩ := idx_facts7 ⟨0, hlt⟩
  have e50' : win7_5.index ⟨0, hlt⟩ (0 : Fin 2) = 0 := e50
  refine ⟨⟨0, hlt⟩, flush7_5 _, ?_⟩
  rw [mem_blk7]
  intro a
  match a with
  | ⟨0, _⟩ =>
    show win7_5.index ⟨0, hlt⟩ (0 : Fin 2) * 16 ≤ (i 0).val ∧ (i 0).val < win7_5.index ⟨0, hlt⟩ (0 : Fin 2) * 16 + 16
    rw [e50']; omega
  | ⟨1, _⟩ =>
    show win7_5.index ⟨0, hlt⟩ (1 : Fin 2) * 128 ≤ (i 1).val ∧ (i 1).val < win7_5.index ⟨0, hlt⟩ (1 : Fin 2) * 128 + 128
    rw [e51]; omega

end Mlp

variable (V : (c : Dev nD) → (b : Ref sig .tc) → Buf (Elt Ideal) ((c : Thread nD τ).loc b))

theorem region0_value (c : Dev nD) : (dat0 (F := Ideal) V c).arrAt 5 cfg0.N = unc (mlp2 (cur (V c main_arg0)) (cur (V c main_arg2)) (row (V c main_v0)) (cur (V c main_arg4)) (row (V c main_v1))) :=
  (dat0 (F := Ideal) V c).arrAt_eq_of_cover 5 (Mlp.G0 V c) (fun t _ => Mlp.flushed0_eq V c t) Mlp.cover0

theorem region7_value (c : Dev nD) : (dat7 (F := Ideal) V c).arrAt 5 cfg7.N = unc (mlp2 (cur (V c main_v146)) (cur (V c main_arg18)) (row (V c main_v147)) (cur (V c main_arg20)) (row (V c main_v148))) :=
  (dat7 (F := Ideal) V c).arrAt_eq_of_cover 5 (Mlp.G7 V c) (fun t _ => Mlp.flushed7_eq V c t) Mlp.cover7

end Cert.KernelIdeal.RegVal

end
-- ==== Proof.KReg1.lean ====
/-
  The message region as one function of the arrays it finds: per edge, the encoded edge attribute and the two gathered
  node rows go through the message perceptron, whose first layer is given block by block.
-/
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx Idealize.ShloMosaic.TcCoe

variable (V : (c : Dev nD) → (b : Ref sig .tc) → Buf (Elt Ideal) ((c : Thread nD τ).loc b))

namespace R1

theorem lhs_dot128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_dot128_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dot128_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dot128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem matmul128_apply (x : FVec Ideal S10000x128 .f32) (w : FVec Ideal S128x128 .f32) (p : Fin 10000) (q : Fin 128) :
    matmul dot_S10000x128_S128x128_S10000x128_1_0_0_1_n_n (some .fp32) x w (constant (F := Ideal) S10000x128 .f32 0x00000000#32) (ix2 p q)
      = ∑ k : Fin 128, x (ix2 p k) * w (ix2 k q) := by
  show FloatOps.matmul dot_S10000x128_S128x128_S10000x128_1_0_0_1_n_n (some .fp32) x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_dot128_0 _ _
    | ⟨1, _⟩ => exact (lhs_dot128_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_dot128_0 _ _).trans hk
    | ⟨1, _⟩ => exact rhs_dot128_1 _ _)
  rw [el, er]

theorem lhs_dot1_0 (i : S10000x128.Idx) (q : dot_S10000x1_S1x128_S10000x128_1_0_0_1_n_n.contr.Idx) :
    (dot_S10000x1_S1x128_S10000x128_1_0_0_1_n_n.lhsIdx i q 0).val = (i 0).val := by
  unfold DotDims.lhsIdx
  rw [dif_neg (show ¬(0 : Fin S10000x1.rank) ∈ dot_S10000x1_S1x128_S10000x128_1_0_0_1_n_n.lhsBatch by decide), dif_pos (show (0 : Fin S10000x1.rank) ∈ dot_S10000x1_S1x128_S10000x128_1_0_0_1_n_n.lhsNonContracting by decide)]
  rfl
theorem lhs_dot1_1 (i : S10000x128.Idx) (q : dot_S10000x1_S1x128_S10000x128_1_0_0_1_n_n.contr.Idx) :
    (dot_S10000x1_S1x128_S10000x128_1_0_0_1_n_n.lhsIdx i q 1).val = (q ⟨0, by decide⟩).val :=
  dot_S10000x1_S1x128_S10000x128_1_0_0_1_n_n.lhsIdx_val_of_single rfl i q
theorem rhs_dot1_0 (i : S10000x128.Idx) (q : dot_S10000x1_S1x128_S10000x128_1_0_0_1_n_n.contr.Idx) :
    (dot_S10000x1_S1x128_S10000x128_1_0_0_1_n_n.rhsIdx i q 0).val = (q ⟨0, by decide⟩).val :=
  dot_S10000x1_S1x128_S10000x128_1_0_0_1_n_n.rhsIdx_val_of_single rfl i q
theorem rhs_dot1_1 (i : S10000x128.Idx) (q : dot_S10000x1_S1x128_S10000x128_1_0_0_1_n_n.contr.Idx) :
    (dot_S10000x1_S1x128_S10000x128_1_0_0_1_n_n.rhsIdx i q 1).val = (i 1).val := by
  unfold DotDims.rhsIdx
  rw [dif_neg (show ¬(1 : Fin S1x128.rank) ∈ dot_S10000x1_S1x128_S10000x128_1_0_0_1_n_n.rhsBatch by decide), dif_pos (show (1 : Fin S1x128.rank) ∈ dot_S10000x1_S1x128_S10000x128_1_0_0_1_n_n.rhsNonContracting by decide)]
  rfl

theorem matmul1_apply (x : FVec Ideal S10000x1 .f32) (w : FVec Ideal S1x128 .f32) (p : Fin 10000) (q : Fin 128) :
    matmul dot_S10000x1_S1x128_S10000x128_1_0_0_1_n_n (some .fp32) x w (constant (F := Ideal) S10000x128 .f32 0x00000000#32) (ix2 p q)
      = ∑ k : Fin 1, x (ix2 p k) * w (ix2 k q) := by
  show FloatOps.matmul dot_S10000x1_S1x128_S10000x128_1_0_0_1_n_n (some .fp32) x w (constant (F := Ideal) S10000x128 .f32 0x00000000#32) (ix2 p q) = _
  rw [Ideal.matmul_constant_zero_apply, ← Equiv.sum_comp (contrEquiv1 dot_S10000x1_S1x128_S10000x128_1_0_0_1_n_n 1 rfl rfl).symm]
  refine Finset.sum_congr rfl fun k _ => ?_
  have hk := contrEquiv1_symm_val dot_S10000x1_S1x128_S10000x128_1_0_0_1_n_n 1 rfl rfl k
  have el : dot_S10000x1_S1x128_S10000x128_1_0_0_1_n_n.lhsIdx (ix2 p q) ((contrEquiv1 dot_S10000x1_S1x128_S10000x128_1_0_0_1_n_n 1 rfl rfl).symm k) = ix2 p k := funext fun a => Fin.ext (by
    match a with
    | ⟨0, _⟩ => exact lhs_dot1_0 _ _
    | ⟨1, _⟩ => exact (lhs_dot1_1 _ _).trans hk)
  have er : dot_S10000x1_S1x128_S10000x128_1_0_0_1_n_n.rhsIdx (ix2 p q) ((contrEquiv1 dot_S10000x1_S1x128_S10000x128_1_0_0_1_n_n 1 rfl rfl).symm k) = ix2 k q := funext fun a => Fin.ext (by
    match a with
    | ⟨0, _⟩ => exact (rhs_dot1_0 _ _).trans hk
    | ⟨1, _⟩ => exact rhs_dot1_1 _ _)
  rw [el, er]

theorem ofBits0 : (FloatOps.ofBits .f32 0x00000000#32 : Ideal .f32) = 0 := Ideal.ofBits_zero_f32

theorem pay2_apply (v0 v2 : Vec Ideal S10000x128 .f32) (v4 : Vec Ideal S10000x1 .f32) (v5 v8 : Vec Ideal S1x128 .f32)
    (v14 : Vec Ideal S128x128 .f32) (v17 : Vec Ideal S1x128 .f32) (v21 v23 v25 : Vec Ideal S128x128 .f32)
    (p : Fin 10000) (q : Fin 128) :
    k1_pay2 (F := Ideal) v0 v2 v4 v5 v8 v14 v17 v21 v23 v25 (ix2 p q)
      = (∑ k : Fin 128, v0 (ix2 p k) * v21 (ix2 k q)) + (∑ k : Fin 128, v2 (ix2 p k) * v23 (ix2 k q))
        + ∑ k : Fin 128, ((∑ k' : Fin 128, max ((∑ j : Fin 1, v4 (ix2 p j) * v5 (ix2 j k')) + v8 (ix2 (0 : Fin 1) k')) 0
            * v14 (ix2 k' k)) + v17 (ix2 (0 : Fin 1) k)) * v25 (ix2 k q) := by
  unfold k1_pay2
  simp only [addf_apply, maximumf_apply, broadcast_apply, shapeCast_self, matmul128_apply, matmul1_apply,
    broadcastTo_1b_ab_apply, ofBits0]

theorem pay1_apply (v31 : FVec Ideal S10000x128 .f32) (v32 : Vec Ideal S1x128 .f32) (v38 : Vec Ideal S128x128 .f32)
    (v41 : Vec Ideal S1x128 .f32) (p : Fin 10000) (q : Fin 128) :
    k1_pay1 (F := Ideal) v31 v32 v38 v41 (ix2 p q)
      = (∑ k : Fin 128, max (v31 (ix2 p k) + v32 (ix2 (0 : Fin 1) k)) 0 * v38 (ix2 k q)) + v41 (ix2 (0 : Fin 1) q) := by
  unfold k1_pay1
  simp only [addf_apply, maximumf_apply, broadcast_apply, shapeCast_self, matmul128_apply,
    broadcastTo_1b_ab_apply, ofBits0]

theorem point_eq (x0 x1 : Vec Ideal S10000x128 .f32) (x2 : Vec Ideal S10000x1 .f32) (x3 x4 : Vec Ideal S1x128 .f32)
    (x5 : Vec Ideal S128x128 .f32) (x6 : Vec Ideal S1x128 .f32) (x7 x8 x9 : Vec Ideal S128x128 .f32)
    (x10 : Vec Ideal S1x128 .f32) (x11 : Vec Ideal S128x128 .f32) (x12 : Vec Ideal S1x128 .f32)
    (p : Fin 10000) (q : Fin 128) :
    k1_pay1 (F := Ideal) (k1_pay2 (F := Ideal) x0 x1 x2 x3 x4 x5 x6 x7 x8 x9) x10 x11 x12 (ix2 p q)
      = msgSplit (cur x0) (cur x1) (mlp2 (cur x2) (cur x3) (row x4) (cur x5) (row x6)) (cur x7) (cur x8) (cur x9)
          (row x10) (cur x11) (row x12) p q := by
  rw [pay1_apply]
  simp only [pay2_apply]
  simp only [msgSplit, mlp2, dense, relu, cur, row]

theorem msg_congr {M M' : Nat} {xi xj : Mat M 128} {ea : Mat M 1} {xi' xj' : Mat M' 128} {ea' : Mat M' 1}
    {We0 We0' : Mat 1 128} {be0 be0' : Fin 128 → EReal} {We1 We1' : Mat 128 128} {be1 be1' : Fin 128 → EReal}
    {Wa Wa' Wb Wb' Wc Wc' : Mat 128 128} {bm0 bm0' : Fin 128 → EReal} {Wm1 Wm1' : Mat 128 128}
    {bm1 bm1' : Fin 128 → EReal} (r : Fin M) (r' : Fin M') (n : Fin 128)
    (h0 : ∀ k, xi r k = xi' r' k) (h1 : ∀ k, xj r k = xj' r' k) (h2 : ∀ k, ea r k = ea' r' k)
    (h3 : We0 = We0') (h4 : be0 = be0') (h5 : We1 = We1') (h6 : be1 = be1') (h7 : Wa = Wa') (h8 : Wb = Wb')
    (h9 : Wc = Wc') (h10 : bm0 = bm0') (h11 : Wm1 = Wm1') (h12 : bm1 = bm1') :
    msgSplit xi xj (mlp2 ea We0 be0 We1 be1) Wa Wb Wc bm0 Wm1 bm1 r n
      = msgSplit xi' xj' (mlp2 ea' We0' be0' We1' be1') Wa' Wb' Wc' bm0' Wm1' bm1' r' n := by
  subst h3 h4 h5 h6 h7 h8 h9 h10 h11 h12
  simp only [msgSplit, mlp2, dense, relu, h0, h1, h2]

theorem hz : (![0, 0] : Fin 2 → Nat) = fun _ => 0 := funext fun a => by
  match a with
  | ⟨0, _⟩ => rfl
  | ⟨1, _⟩ => rfl

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)
theorem idx10 : ∀ t : Fin cfg1.N, win1_10.index t (0 : Fin 2) = 0 ∧ win1_10.index t (1 : Fin 2) = 0 :=
  (by decide +kernel : ∀ t : Fin grid1.N, _)
theorem idx11 : ∀ t : Fin cfg1.N, win1_11.index t (0 : Fin 2) = 0 ∧ win1_11.index t (1 : Fin 2) = 0 :=
  (by decide +kernel : ∀ t : Fin grid1.N, _)
theorem idx12 : ∀ t : Fin cfg1.N, win1_12.index t (0 : Fin 2) = 0 ∧ win1_12.index t (1 : Fin 2) = 0 :=
  (by decide +kernel : ∀ t : Fin grid1.N, _)
theorem idx13 : ∀ t : Fin cfg1.N, win1_13.index t (0 : Fin 2) = t.val ∧ win1_13.index t (1 : Fin 2) = 0 :=
  (by decide +kernel : ∀ t : Fin grid1.N, _)

theorem row_lt (t : Fin cfg1.N) (p : Fin 10000) : t.val * 10000 + p.val < 200000 := by
  have hN : cfg1.N = 20 := N_1
  have ht := t.isLt
  have hp := p.isLt
  omega

theorem blk0_read (c : Dev nD) (t : Fin cfg1.N) (p : Fin 10000) (k : Fin 128) :
    (iblk1 V c 0 t : S10000x128.Idx → EReal) (ix2 p k)
      = (V c main_v7 : S200000x128.Idx → EReal) (ix2 (⟨t.val * 10000 + p.val, row_lt t p⟩ : Fin 200000) k) := by
  obtain ⟨e0, e1⟩ := idx0 t
  show (V c main_v7 : S200000x128.Idx → EReal) (((cfg1.win 0).blk t).view.emb (ix2 p k)) = _
  refine congrArg (V c main_v7 : S200000x128.Idx → EReal) ?_
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

theorem blk1_read (c : Dev nD) (t : Fin cfg1.N) (p : Fin 10000) (k : Fin 128) :
    (iblk1 V c 1 t : S10000x128.Idx → EReal) (ix2 p k)
      = (V c main_v8 : S200000x128.Idx → EReal) (ix2 (⟨t.val * 10000 + p.val, row_lt t p⟩ : Fin 200000) k) := by
  obtain ⟨e0, e1⟩ := idx1 t
  show (V c main_v8 : S200000x128.Idx → EReal) (((cfg1.win 1).blk t).view.emb (ix2 p k)) = _
  refine congrArg (V c main_v8 : S200000x128.Idx → EReal) ?_
  funext a; apply Fin.ext
  match a with
  | ⟨0, _⟩ => show win1_1.index t (0 : Fin 2) * 10000 + 1 * p.val = t.val * 10000 + p.val; omega
  | ⟨1, _⟩ => show win1_1.index t (1 : Fin 2) * 128 + 1 * k.val = k.val; omega

theorem blk2_read (c : Dev nD) (t : Fin cfg1.N) (p : Fin 10000) (k : Fin 1) :
    (iblk1 V c 2 t : S10000x1.Idx → EReal) (ix2 p k)
      = (V c main_arg1 : S200000x1.Idx → EReal) (ix2 (⟨t.val * 10000 + p.val, row_lt t p⟩ : Fin 200000) k) := by
  obtain ⟨e0, e1⟩ := idx2 t
  show (V c main_arg1 : S200000x1.Idx → EReal) (((cfg1.win 2).blk t).view.emb (ix2 p k)) = _
  refine congrArg (V c main_arg1 : S200000x1.Idx → EReal) ?_
  funext a; apply Fin.ext
  match a with
  | ⟨0, _⟩ => show win1_2.index t (0 : Fin 2) * 10000 + 1 * p.val = t.val * 10000 + p.val; omega
  | ⟨1, _⟩ => show win1_2.index t (1 : Fin 2) * 1 + 1 * k.val = k.val; omega

theorem blk3_eq (c : Dev nD) (t : Fin cfg1.N) :
    (iblk1 V c 3 t : S1x128.Idx → EReal) = (V c main_v16 : S1x128.Idx → EReal) := by
  obtain ⟨e0, e1⟩ := idx3 t
  funext y
  show (V c main_v16 : S1x128.Idx → EReal) (((cfg1.win 3).blk t).view.emb y) = _
  refine congrArg (V c main_v16 : S1x128.Idx → EReal) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk4_eq (c : Dev nD) (t : Fin cfg1.N) :
    (iblk1 V c 4 t : S1x128.Idx → EReal) = (V c main_v29 : S1x128.Idx → EReal) := by
  obtain ⟨e0, e1⟩ := idx4 t
  funext y
  show (V c main_v29 : S1x128.Idx → EReal) (((cfg1.win 4).blk t).view.emb y) = _
  refine congrArg (V c main_v29 : S1x128.Idx → EReal) ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem blk5_eq (c : Dev nD) (t : Fin cfg1.N) :
    (iblk1 V c 5 t : S128x128.Idx → EReal) = (V c main_v20 : S128x128.Idx → EReal) := by
  obtain ⟨e0, e1⟩ := idx5 t
  funext y
  show (V c main_v20 : S128x128.Idx → EReal) (((cfg1.win 5).blk t).view.emb y) = _
  refine congrArg (V c main_v20 : S128x128.Idx → EReal) ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem blk6_eq (c : Dev nD) (t : Fin cfg1.N) :
    (iblk1 V c 6 t : S1x128.Idx → EReal) = (V c main_v30 : S1x128.Idx → EReal) := by
  obtain ⟨e0, e1⟩ := idx6 t
  funext y
  show (V c main_v30 : S1x128.Idx → EReal) (((cfg1.win 6).blk t).view.emb y) = _
  refine congrArg (V c main_v30 : S1x128.Idx → EReal) ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem blk7_eq (c : Dev nD) (t : Fin cfg1.N) :
    (iblk1 V c 7 t : S128x128.Idx → EReal) = (V c main_v10 : S128x128.Idx → EReal) := by
  obtain ⟨e0, e1⟩ := idx7 t
  funext y
  show (V c main_v10 : S128x128.Idx → EReal) (((cfg1.win 7).blk t).view.emb y) = _
  refine congrArg (V c main_v10 : S128x128.Idx → EReal) ?_
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega

theorem blk8_eq (c : Dev nD) (t : Fin cfg1.N) :
    (iblk1 V c 8 t : S128x128.Idx → EReal) = (V c main_v12 : S128x128.Idx → EReal) := by
  obtain ⟨e0, e1⟩ := idx8 t
  funext y
  show (V c main_v12 : S128x128.Idx → EReal) (((cfg1.win 8).blk t).view.emb y) = _
  refine congrArg (V c main_v12 : S128x128.Idx → EReal) ?_
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

theorem blk9_eq (c : Dev nD) (t : Fin cfg1.N) :
    (iblk1 V c 9 t : S128x128.Idx → EReal) = (V c main_v14 : S128x128.Idx → EReal) := by
  obtain ⟨e0, e1⟩ := idx9 t
  funext y
  show (V c main_v14 : S128x128.Idx → EReal) (((cfg1.win 9).blk t).view.emb y) = _
  refine congrArg (V c main_v14 : S128x128.Idx → EReal) ?_
  funext a; apply Fin.ext
  match a with
  | ⟨0, _⟩ => show win1_9.index t (0 : Fin 2) * 128 + 1 * (y 0).val = (y 0).val; omega
  | ⟨1, _⟩ => show win1_9.index t (1 : Fin 2) * 128 + 1 * (y 1).val = (y 1).val; omega

theorem blk10_eq (c : Dev nD) (t : Fin cfg1.N) :
    (iblk1 V c 10 t : S1x128.Idx → EReal) = (V c main_v31 : S1x128.Idx → EReal) := by
  obtain ⟨e0, e1⟩ := idx10 t
  funext y
  show (V c main_v31 : S1x128.Idx → EReal) (((cfg1.win 10).blk t).view.emb y) = _
  refine congrArg (V c main_v31 : S1x128.Idx → EReal) ?_
  funext a; apply Fin.ext
  match a with
  | ⟨0, _⟩ => show win1_10.index t (0 : Fin 2) * 1 + 1 * (y 0).val = (y 0).val; omega
  | ⟨1, _⟩ => show win1_10.index t (1 : Fin 2) * 128 + 1 * (y 1).val = (y 1).val; omega

theorem blk11_eq (c : Dev nD) (t : Fin cfg1.N) :
    (iblk1 V c 11 t : S128x128.Idx → EReal) = (V c main_v26 : S128x128.Idx → EReal) := by
  obtain ⟨e0, e1⟩ := idx11 t
  funext y
  show (V c main_v26 : S128x128.Idx → EReal) (((cfg1.win 11).blk t).view.emb y) = _
  refine congrArg (V c main_v26 : S128x128.Idx → EReal) ?_
  funext a; apply Fin.ext
  match a with
  | ⟨0, _⟩ => show win1_11.index t (0 : Fin 2) * 128 + 1 * (y 0).val = (y 0).val; omega
  | ⟨1, _⟩ => show win1_11.index t (1 : Fin 2) * 128 + 1 * (y 1).val = (y 1).val; omega

theorem blk12_eq (c : Dev nD) (t : Fin cfg1.N) :
    (iblk1 V c 12 t : S1x128.Idx → EReal) = (V c main_v32 : S1x128.Idx → EReal) := by
  obtain ⟨e0, e1⟩ := idx12 t
  funext y
  show (V c main_v32 : S1x128.Idx → EReal) (((cfg1.win 12).blk t).view.emb y) = _
  refine congrArg (V c main_v32 : S1x128.Idx → EReal) ?_
  funext a; apply Fin.ext
  match a with
  | ⟨0, _⟩ => show win1_12.index t (0 : Fin 2) * 1 + 1 * (y 0).val = (y 0).val; omega
  | ⟨1, _⟩ => show win1_12.index t (1 : Fin 2) * 128 + 1 * (y 1).val = (y 1).val; omega

abbrev G1 (c : Dev nD) : S200000x128.Idx → EReal :=
  unc (msgSplit (cur (V c main_v7 : S200000x128.Idx → EReal)) (cur (V c main_v8 : S200000x128.Idx → EReal))
      (mlp2 (cur (V c main_arg1 : S200000x1.Idx → EReal)) (cur (V c main_v16 : S1x128.Idx → EReal)) (row (V c main_v29 : S1x128.Idx → EReal))
        (cur (V c main_v20 : S128x128.Idx → EReal)) (row (V c main_v30 : S1x128.Idx → EReal)))
      (cur (V c main_v10 : S128x128.Idx → EReal)) (cur (V c main_v12 : S128x128.Idx → EReal)) (cur (V c main_v14 : S128x128.Idx → EReal))
      (row (V c main_v31 : S1x128.Idx → EReal)) (cur (V c main_v26 : S128x128.Idx → EReal)) (row (V c main_v32 : S1x128.Idx → EReal)))

theorem flushed_eq (c : Dev nD) (t : Fin cfg1.N) :
    (dat1 (F := Ideal) V c).flushed 13 t = ((cfg1.win 13).blk t).view.read (Elt Ideal) (G1 V c) := by
  show (cfg1.win 13).cut (grid1.coords t) ((dat1 (F := Ideal) V c).after 13 t) = _
  rw [after1_13]
  unfold out1_13
  rw [View.canon_unit_zero hz]
  simp only [View.ld_unit_zero (S := S10000x128) hz, View.ld_unit_zero (S := S10000x1) hz,
    View.ld_unit_zero (S := S1x128) hz, View.ld_unit_zero (S := S128x128) hz]
  funext j
  obtain ⟨p, q, rfl⟩ : ∃ (p : Fin 10000) (q : Fin 128), j = ix2 p q := ⟨j 0, j 1, eq_ix2 j⟩
  obtain ⟨e0, e1⟩ := idx13 t
  have hemb : ((cfg1.win 13).blk t).view.emb (ix2 p q)
      = (ix2 (⟨t.val * 10000 + p.val, row_lt t p⟩ : Fin 200000) q : S200000x128.Idx) := by
    funext a; apply Fin.ext
    match a with
    | ⟨0, _⟩ => show win1_13.index t (0 : Fin 2) * 10000 + 1 * p.val = t.val * 10000 + p.val; omega
    | ⟨1, _⟩ => show win1_13.index t (1 : Fin 2) * 128 + 1 * q.val = q.val; omega
  show k1_pay1 (F := Ideal) (k1_pay2 (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t) (iblk1 V c 9 t)) (iblk1 V c 10 t) (iblk1 V c 11 t)
      (iblk1 V c 12 t) (ix2 p q) = unc (msgSplit (cur (V c main_v7 : S200000x128.Idx → EReal)) (cur (V c main_v8 : S200000x128.Idx → EReal))
      (mlp2 (cur (V c main_arg1 : S200000x1.Idx → EReal)) (cur (V c main_v16 : S1x128.Idx → EReal)) (row (V c main_v29 : S1x128.Idx → EReal))
        (cur (V c main_v20 : S128x128.Idx → EReal)) (row (V c main_v30 : S1x128.Idx → EReal)))
      (cur (V c main_v10 : S128x128.Idx → EReal)) (cur (V c main_v12 : S128x128.Idx → EReal)) (cur (V c main_v14 : S128x128.Idx → EReal))
      (row (V c main_v31 : S1x128.Idx → EReal)) (cur (V c main_v26 : S128x128.Idx → EReal)) (row (V c main_v32 : S1x128.Idx → EReal))) (((cfg1.win 13).blk t).view.emb (ix2 p q))
  rw [hemb, unc_apply]
  refine (point_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) p q).trans ?_
  exact msg_congr p (⟨t.val * 10000 + p.val, row_lt t p⟩ : Fin 200000) q
    (fun k => blk0_read V c t p k) (fun k => blk1_read V c t p k) (fun k => blk2_read V c t p k)
    (congrArg cur (blk3_eq V c t)) (congrArg row (blk4_eq V c t)) (congrArg cur (blk5_eq V c t))
    (congrArg row (blk6_eq V c t)) (congrArg cur (blk7_eq V c t)) (congrArg cur (blk8_eq V c t))
    (congrArg cur (blk9_eq V c t)) (congrArg row (blk10_eq V c t)) (congrArg cur (blk11_eq V c t))
    (congrArg row (blk12_eq V c t))

theorem mem_blk (t : Fin cfg1.N) (i : S200000x128.Idx) :
    i ∈ ((cfg1.win 13).blk t).view.set ↔ ∀ a : Fin 2, win1_13.index t a * S10000x128.size a ≤ (i a).val ∧ (i a).val < win1_13.index t a * S10000x128.size a + S10000x128.size a := by
  show i ∈ ((View.whole main_v33).slice (win1_13.rect t)).set ↔ _
  rw [View.set_slice_whole, Rect.mem_set_unit]
  exact Iff.rfl

theorem cover (i : S200000x128.Idx) :
    ∃ t : Fin cfg1.N, (cfg1.win 13).flush t = true ∧ i ∈ ((cfg1.win 13).blk t).view.set := by
  have hi0 : (i 0).val < 200000 := (i 0).isLt
  have hi1 : (i 1).val < 128 := (i 1).isLt
  have hN : cfg1.N = 20 := N_1
  obtain ⟨t, ht⟩ : ∃ t : Fin cfg1.N, t.val = (i 0).val / 10000 := ⟨⟨(i 0).val / 10000, by omega⟩, rfl⟩
  obtain ⟨e0, e1⟩ := idx13 t
  refine ⟨t, flush1_13 t, ?_⟩
  rw [mem_blk]
  intro a
  match a with
  | ⟨0, _⟩ => show win1_13.index t (0 : Fin 2) * 10000 ≤ (i 0).val ∧ (i 0).val < win1_13.index t (0 : Fin 2) * 10000 + 10000; omega
  | ⟨1, _⟩ => show win1_13.index t (1 : Fin 2) * 128 ≤ (i 1).val ∧ (i 1).val < win1_13.index t (1 : Fin 2) * 128 + 128; omega

end R1

theorem region1_value (c : Dev nD) :
    (dat1 (F := Ideal) V c).arrAt 13 cfg1.N
      = unc (msgSplit (cur (V c main_v7 : S200000x128.Idx → EReal)) (cur (V c main_v8 : S200000x128.Idx → EReal))
      (mlp2 (cur (V c main_arg1 : S200000x1.Idx → EReal)) (cur (V c main_v16 : S1x128.Idx → EReal)) (row (V c main_v29 : S1x128.Idx → EReal))
        (cur (V c main_v20 : S128x128.Idx → EReal)) (row (V c main_v30 : S1x128.Idx → EReal)))
      (cur (V c main_v10 : S128x128.Idx → EReal)) (cur (V c main_v12 : S128x128.Idx → EReal)) (cur (V c main_v14 : S128x128.Idx → EReal))
      (row (V c main_v31 : S1x128.Idx → EReal)) (cur (V c main_v26 : S128x128.Idx → EReal)) (row (V c main_v32 : S1x128.Idx → EReal))) :=
  (dat1 (F := Ideal) V c).arrAt_eq_of_cover 13 (R1.G1 V c) (fun t _ => R1.flushed_eq V c t) R1.cover

end Cert.KernelIdeal.RegVal

end
-- ==== Proof.KReg2.lean ====
/-
  The update region as one function of the arrays it finds: node rows and summed messages through the update
  perceptron, its first layer given as two blocks.
-/
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx
open Idealize.ShloMosaic.TcCoe

variable (V : (c : Dev nD) → (b : Ref sig .tc) → Buf (Elt Ideal) ((c : Thread nD τ).loc b))

namespace R2

theorem lhs_mm_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem lhs_mm_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_mm_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_mm_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem mm_apply (a : FVec Ideal S10000x128 .f32) (b : FVec Ideal S128x128 .f32) (p : Fin 10000) (q : Fin 128) :
    matmul dot_S10000x128_S128x128_S10000x128_1_0_0_1_n_n (some .fp32) a b (constant S10000x128 .f32 0x00000000#32) (ix2 p q)
      = ∑ k : Fin 128, a (ix2 p k) * b (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

theorem pay_apply (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) :
    k2_pay1 x0 x1 x2 x3 x4 x5 x6 (ix2 p q)
      = updSplit (cur x0) (cur x1) (cur x2) (cur x3) (row x4) (cur x5) (row x6) p q := by
  unfold k2_pay1
  simp only [shapeCast_self]
  have hz : Scalar.ofBits (F := Ideal) .f32 0x00000000#32 = 0 := Ideal.ofBits_zero_f32
  simp only [addf_apply, maximumf_apply, broadcast_apply, mm_apply, broadcastTo_1b_ab_apply, hz]
  rfl

theorem updSplit_row {M M' : Nat} (x agg : Mat M 128) (x' agg' : Mat M' 128) (Wx Wagg : Mat 128 128)
    (bu0 : Fin 128 → EReal) (Wu1 : Mat 128 128) (bu1 : Fin 128 → EReal) (r : Fin M) (r' : Fin M') (n : Fin 128)
    (hx : ∀ k : Fin 128, x r k = x' r' k) (ha : ∀ k : Fin 128, agg r k = agg' r' k) :
    updSplit x agg Wx Wagg bu0 Wu1 bu1 r n = updSplit x' agg' Wx Wagg bu0 Wu1 bu1 r' n := by
  simp only [updSplit, dense, relu, hx, ha]

theorem pay_point (A0 A1 : S50000x128.Idx → EReal) (A2 A3 : S128x128.Idx → EReal) (A4 : S1x128.Idx → EReal)
    (A5 : S128x128.Idx → EReal) (A6 : S1x128.Idx → EReal)
    (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) (r : Fin 50000)
    (h0 : ∀ k : Fin 128, x0 (ix2 p k) = A0 (ix2 r k)) (h1 : ∀ k : Fin 128, x1 (ix2 p k) = A1 (ix2 r k))
    (h2 : x2 = A2) (h3 : x3 = A3) (h4 : x4 = A4) (h5 : x5 = A5) (h6 : x6 = A6) :
    k2_pay1 x0 x1 x2 x3 x4 x5 x6 (ix2 p q)
      = updSplit (cur A0) (cur A1) (cur A2) (cur A3) (row A4) (cur A5) (row A6) r q := by
  subst h2 h3 h4 h5 h6
  rw [pay_apply]
  exact updSplit_row (cur x0) (cur x1) (cur A0) (cur A1) (cur x2) (cur x3) (row x4) (cur x5) (row x6) p r q
    (fun k => h0 k) (fun k => h1 k)

theorem hz : (![0, 0] : Fin 2 → Nat) = fun _ => 0 := funext fun a => by fin_cases a <;> rfl

abbrev G (c : Dev nD) : S50000x128.Idx → EReal :=
  unc (updSplit (cur (V c main_v2 : S50000x128.Idx → EReal)) (cur (V c main_v36 : S50000x128.Idx → EReal))
    (cur (V c main_v38 : S128x128.Idx → EReal)) (cur (V c main_v40 : S128x128.Idx → EReal))
    (row (V c main_v47 : S1x128.Idx → EReal)) (cur (V c main_v44 : S128x128.Idx → EReal))
    (row (V c main_v48 : S1x128.Idx → EReal)))

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem flushed_point (c : Dev nD) (t : Fin cfg2.N) (p : Fin 10000) (q : Fin 128) :
    k2_pay1 (iblk2 V c 0 t) (iblk2 V c 1 t) (iblk2 V c 2 t) (iblk2 V c 3 t) (iblk2 V c 4 t) (iblk2 V c 5 t)
        (iblk2 V c 6 t) (ix2 p q)
      = G V c (((cfg2.win 7).blk t).view.emb (ix2 p q)) := by
  obtain ⟨e00, e01, e10, e11, e20, e21, e30, e31, e40, e41, e50, e51, e60, e61, e70, e71⟩ := idx_facts t
  have ht : t.val < 5 := lt_of_lt_of_eq t.isLt N_2
  have hp : p.val < 10000 := p.isLt
  obtain ⟨r, hr⟩ : ∃ r : Fin 50000, r.val = t.val * 10000 + p.val := ⟨⟨t.val * 10000 + p.val, by omega⟩, rfl⟩
  have hR : ((cfg2.win 7).blk t).view.emb (ix2 p q) = ix2 r q := by
    funext a; apply Fin.ext
    match a with
    | ⟨0, _⟩ => show win2_7.index t (0 : Fin 2) * 10000 + 1 * p.val = r.val; omega
    | ⟨1, _⟩ => show win2_7.index t (1 : Fin 2) * 128 + 1 * q.val = q.val; omega
  rw [hR]
  refine pay_point (V c main_v2) (V c main_v36) (V c main_v38) (V c main_v40) (V c main_v47) (V c main_v44)
    (V c main_v48) (iblk2 V c 0 t) (iblk2 V c 1 t) (iblk2 V c 2 t) (iblk2 V c 3 t) (iblk2 V c 4 t) (iblk2 V c 5 t)
    (iblk2 V c 6 t) p q r ?_ ?_ ?_ ?_ ?_ ?_ ?_
  · intro k
    show V c main_v2 (((cfg2.win 0).blk t).view.emb (ix2 p k)) = V c main_v2 (ix2 r k)
    refine congrArg _ (funext fun a => Fin.ext ?_)
    match a with
    | ⟨0, _⟩ => show win2_0.index t (0 : Fin 2) * 10000 + 1 * p.val = r.val; omega
    | ⟨1, _⟩ => show win2_0.index t (1 : Fin 2) * 128 + 1 * k.val = k.val; omega
  · intro k
    show V c main_v36 (((cfg2.win 1).blk t).view.emb (ix2 p k)) = V c main_v36 (ix2 r k)
    refine congrArg _ (funext fun a => Fin.ext ?_)
    match a with
    | ⟨0, _⟩ => show win2_1.index t (0 : Fin 2) * 10000 + 1 * p.val = r.val; omega
    | ⟨1, _⟩ => show win2_1.index t (1 : Fin 2) * 128 + 1 * k.val = k.val; omega
  · funext y
    show V c main_v38 (((cfg2.win 2).blk t).view.emb y) = V c main_v38 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v40 (((cfg2.win 3).blk t).view.emb y) = V c main_v40 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y
    show V c main_v47 (((cfg2.win 4).blk t).view.emb y) = V c main_v47 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · funext y
    show V c main_v44 (((cfg2.win 5).blk t).view.emb y) = V c main_v44 y
    refine congrArg _ (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  · funext y
    show V c main_v48 (((cfg2.win 6).blk t).view.emb y) = V c main_v48 y
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega

theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero hz]
  simp only [View.ld_unit_zero (S := S10000x128) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  exact flushed_point V c t p q

theorem mem_blk (t : Fin cfg2.N) (i : S50000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v49).slice (win2_7.rect t)).set ↔ _
  rw [View.set_slice_whole, Rect.mem_set_unit]
  exact Iff.rfl

theorem cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 10000 :=
    ⟨⟨(i 0).val / 10000, lt_of_lt_of_eq (by omega : (i 0).val / 10000 < 5) N_2.symm⟩, rfl⟩
  obtain ⟨-, -, -, -, -, -, -, -, -, -, -, -, -, -, e70, e71⟩ := idx_facts t
  refine ⟨t, flush2_7 t, ?_⟩
  rw [mem_blk]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 128 ≤ (i 1).val ∧ (i 1).val < win2_7.index t (1 : Fin 2) * 128 + 128; omega

end R2

theorem region2_value (c : Dev nD) :
    (dat2 (F := Ideal) V c).arrAt 7 cfg2.N
      = unc (updSplit (cur (V c main_v2 : S50000x128.Idx → EReal)) (cur (V c main_v36 : S50000x128.Idx → EReal))
          (cur (V c main_v38 : S128x128.Idx → EReal)) (cur (V c main_v40 : S128x128.Idx → EReal))
          (row (V c main_v47 : S1x128.Idx → EReal)) (cur (V c main_v44 : S128x128.Idx → EReal))
          (row (V c main_v48 : S1x128.Idx → EReal))) :=
  (dat2 (F := Ideal) V c).arrAt_eq_of_cover 7 (R2.G V c) (fun t _ => R2.flushed_eq V c t) R2.cover

end Cert.KernelIdeal.RegVal

end
-- ==== Proof.KSkip.lean ====
import proofs.«426174_j75376676045031_2_alg».proof.Proof.Gen.KernelIdeal.Frame

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- What the step from boundary `k` of the program to the next may change: a host stretch's results, or a region's output. -/
def wr : Nat → List (Ref sig .tc)
  | 0 => [main_v0, main_v1]
  | 1 => [main_v2]
  | 2 => [main_v3, main_v4, main_v5, main_v6]
  | 3 => [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]
  | 4 => [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
  | 5 => [main_v9, main_v10, main_v11, main_v12, main_v13, main_v14, main_v15, main_v16, main_v17, main_v18, main_v19, main_v20, main_v21, main_v22, main_v23, main_v24, main_v25, main_v26, main_v27, main_v28, main_v29, main_v30, main_v31, main_v32]
  | 6 => [main_v33]
  | 7 => [main_cst, main_v34, main_v35, main_v36, main_v37, main_v38, main_v39, main_v40, main_v41, main_v42, main_v43, main_v44, main_v45, main_v46, main_v47, main_v48]
  | 8 => [main_v49]
  | 9 => [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v50]
  | 10 => [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v51]
  | 11 => [main_v52, main_v53, main_v54, main_v55, main_v56, main_v57, main_v58, main_v59, main_v60, main_v61, main_v62, main_v63, main_v64, main_v65, main_v66, main_v67, main_v68, main_v69, main_v70, main_v71, main_v72, main_v73, main_v74, main_v75]
  | 12 => [main_v76]
  | 13 => [main_cst_0, main_v77, main_v78, main_v79, main_v80, main_v81, main_v82, main_v83, main_v84, main_v85, main_v86, main_v87, main_v88, main_v89, main_v90, main_v91]
  | 14 => [main_v92]
  | 15 => [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v93]
  | 16 => [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v94]
  | 17 => [main_v95, main_v96, main_v97, main_v98, main_v99, main_v100, main_v101, main_v102, main_v103, main_v104, main_v105, main_v106, main_v107, main_v108, main_v109, main_v110, main_v111, main_v112, main_v113, main_v114, main_v115, main_v116, main_v117, main_v118]
  | 18 => [main_v119]
  | 19 => [main_cst_1, main_v120, main_v121, main_v122, main_v123, main_v124, main_v125, main_v126, main_v127, main_v128, main_v129, main_v130, main_v131, main_v132, main_v133, main_v134]
  | 20 => [main_v135]
  | 21 => [main_cst_2, main_v136, main_v137, main_v138, main_cst_3, main_v139, main_cst_4, main_v140, main_v141, main_v142, main_cst_5, main_v143, main_v144, main_v145, main_v146, main_v147, main_v148]
  | _ => []

/-- The same over the `d` steps from boundary `a`. -/
def wrs (a : Nat) : Nat → List (Ref sig .tc)
  | 0 => []
  | d + 1 => wr (a + d) ++ wrs a d

/-- Every operation of the list writes inside `L`. -/
abbrev WritesIn (ops : List (HloOp τ sig (Elt F))) (L : List (Ref sig .tc)) : Prop :=
  ops.Forall fun op => op.writes ⊆ (L.map (Proc.devRef (τ := τ) .tc)).toFinset

local macro "writes_in" : tactic => `(tactic| (
  simp only [wr, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

theorem hostOps0_writes : WritesIn (F := F) hostOps0 (wr 0) := by writes_in
theorem hostOps1_writes : WritesIn (F := F) hostOps1 (wr 2) := by writes_in
theorem hostOps1_1_writes : WritesIn (F := F) hostOps1_1 (wr 3) := by writes_in
theorem hostOps1_2_writes : WritesIn (F := F) hostOps1_2 (wr 4) := by writes_in
theorem hostOps1_3_writes : WritesIn (F := F) hostOps1_3 (wr 5) := by writes_in
theorem hostOps2_writes : WritesIn (F := F) hostOps2 (wr 7) := by writes_in
theorem hostOps3_writes : WritesIn (F := F) hostOps3 (wr 9) := by writes_in
theorem hostOps3_1_writes : WritesIn (F := F) hostOps3_1 (wr 10) := by writes_in
theorem hostOps3_2_writes : WritesIn (F := F) hostOps3_2 (wr 11) := by writes_in
theorem hostOps4_writes : WritesIn (F := F) hostOps4 (wr 13) := by writes_in
theorem hostOps5_writes : WritesIn (F := F) hostOps5 (wr 15) := by writes_in
theorem hostOps5_1_writes : WritesIn (F := F) hostOps5_1 (wr 16) := by writes_in
theorem hostOps5_2_writes : WritesIn (F := F) hostOps5_2 (wr 17) := by writes_in
theorem hostOps6_writes : WritesIn (F := F) hostOps6 (wr 19) := by writes_in
theorem hostOps7_writes : WritesIn (F := F) hostOps7 (wr 21) := by writes_in

/-- Outside `L`, `X` holds what `E` held. -/
def Keeps (X E : Valuation τ sig (Elt F)) (L : List (Ref sig .tc)) : Prop :=
  ∀ r, r ∉ L → X (Proc.devRef .tc r) = E (Proc.devRef .tc r)

theorem Keeps.trans {X Y Z : Valuation τ sig (Elt F)} {L₁ L₂ : List (Ref sig .tc)} (h₁ : Keeps X Y L₁) (h₂ : Keeps Y Z L₂) :
    Keeps X Z (L₁ ++ L₂) :=
  fun r hr => (h₁ r fun h => hr (List.mem_append_left _ h)).trans (h₂ r fun h => hr (List.mem_append_right _ h))

/-- Across a region only its output arrays change. -/
theorem region_keep {n : Nat} (arr : Fin n → Ref sig .tc) (isOut : Fin n → Bool) (outs : List (Ref sig .tc))
    (houts : ∀ w, isOut w = true → arr w ∈ outs) (X E : Valuation τ sig (Elt F))
    (hin : ∀ w, isOut w = false → X (Proc.devRef .tc (arr w)) = E (Proc.devRef .tc (arr w)))
    (hne : ∀ b : Ref sig .tc, (∀ w, arr w ≠ b) → X (Proc.devRef .tc b) = E (Proc.devRef .tc b)) : Keeps X E outs := by
  intro r h
  by_cases hw : ∃ w, arr w = r
  · obtain ⟨w, rfl⟩ := hw
    refine hin w ?_
    cases hb : isOut w
    · rfl
    · exact absurd (houts w hb) h
  · exact hne r fun w e => hw ⟨w, e⟩

theorem k0 (c : Dev nD) : Keeps (W1 m ρ c) (W0 m ρ c) (wr 0) :=
  fun _ h => StableHlo.after_of_writes_sub hostOps0 _ hostOps0_writes h
theorem k1 (c : Dev nD) : Keeps (W2 m ρ c) (W1 m ρ c) (wr 1) :=
  region_keep (Pipeline.arrRef spec0) (fun w => (cfg0.win w).isOut) (wr 1) (by decide) (W2 m ρ c) (W1 m ρ c)
    (fun w hin => (W2_arr m ρ c w).trans (((dat0 (V1 m ρ) c).arrAt_in w hin _).trans (A_eq0 (V1 m ρ) c w)))
    (W2_of_ne m ρ c)
theorem k2 (c : Dev nD) : Keeps (W3 m ρ c) (W2 m ρ c) (wr 2) :=
  fun _ h => StableHlo.after_of_writes_sub hostOps1 _ hostOps1_writes h
theorem k3 (c : Dev nD) : Keeps (W4 m ρ c) (W3 m ρ c) (wr 3) :=
  fun _ h => StableHlo.after_of_writes_sub hostOps1_1 _ hostOps1_1_writes h
theorem k4 (c : Dev nD) : Keeps (W5 m ρ c) (W4 m ρ c) (wr 4) :=
  fun _ h => StableHlo.after_of_writes_sub hostOps1_2 _ hostOps1_2_writes h
theorem k5 (c : Dev nD) : Keeps (W6 m ρ c) (W5 m ρ c) (wr 5) :=
  fun _ h => StableHlo.after_of_writes_sub hostOps1_3 _ hostOps1_3_writes h
theorem k6 (c : Dev nD) : Keeps (W7 m ρ c) (W6 m ρ c) (wr 6) :=
  region_keep (Pipeline.arrRef spec1) (fun w => (cfg1.win w).isOut) (wr 6) (by decide) (W7 m ρ c) (W6 m ρ c)
    (fun w hin => (W7_arr m ρ c w).trans (((dat1 (V6 m ρ) c).arrAt_in w hin _).trans (A_eq1 (V6 m ρ) c w)))
    (W7_of_ne m ρ c)
theorem k7 (c : Dev nD) : Keeps (W8 m ρ c) (W7 m ρ c) (wr 7) :=
  fun _ h => StableHlo.after_of_writes_sub hostOps2 _ hostOps2_writes h
theorem k8 (c : Dev nD) : Keeps (W9 m ρ c) (W8 m ρ c) (wr 8) :=
  region_keep (Pipeline.arrRef spec2) (fun w => (cfg2.win w).isOut) (wr 8) (by decide) (W9 m ρ c) (W8 m ρ c)
    (fun w hin => (W9_arr m ρ c w).trans (((dat2 (V8 m ρ) c).arrAt_in w hin _).trans (A_eq2 (V8 m ρ) c w)))
    (W9_of_ne m ρ c)
theorem k9 (c : Dev nD) : Keeps (W10 m ρ c) (W9 m ρ c) (wr 9) :=
  fun _ h => StableHlo.after_of_writes_sub hostOps3 _ hostOps3_writes h
theorem k10 (c : Dev nD) : Keeps (W11 m ρ c) (W10 m ρ c) (wr 10) :=
  fun _ h => StableHlo.after_of_writes_sub hostOps3_1 _ hostOps3_1_writes h
theorem k11 (c : Dev nD) : Keeps (W12 m ρ c) (W11 m ρ c) (wr 11) :=
  fun _ h => StableHlo.after_of_writes_sub hostOps3_2 _ hostOps3_2_writes h
theorem k12 (c : Dev nD) : Keeps (W13 m ρ c) (W12 m ρ c) (wr 12) :=
  region_keep (Pipeline.arrRef spec3) (fun w => (cfg3.win w).isOut) (wr 12) (by decide) (W13 m ρ c) (W12 m ρ c)
    (fun w hin => (W13_arr m ρ c w).trans (((dat3 (V12 m ρ) c).arrAt_in w hin _).trans (A_eq3 (V12 m ρ) c w)))
    (W13_of_ne m ρ c)
theorem k13 (c : Dev nD) : Keeps (W14 m ρ c) (W13 m ρ c) (wr 13) :=
  fun _ h => StableHlo.after_of_writes_sub hostOps4 _ hostOps4_writes h
theorem k14 (c : Dev nD) : Keeps (W15 m ρ c) (W14 m ρ c) (wr 14) :=
  region_keep (Pipeline.arrRef spec4) (fun w => (cfg4.win w).isOut) (wr 14) (by decide) (W15 m ρ c) (W14 m ρ c)
    (fun w hin => (W15_arr m ρ c w).trans (((dat4 (V14 m ρ) c).arrAt_in w hin _).trans (A_eq4 (V14 m ρ) c w)))
    (W15_of_ne m ρ c)
theorem k15 (c : Dev nD) : Keeps (W16 m ρ c) (W15 m ρ c) (wr 15) :=
  fun _ h => StableHlo.after_of_writes_sub hostOps5 _ hostOps5_writes h
theorem k16 (c : Dev nD) : Keeps (W17 m ρ c) (W16 m ρ c) (wr 16) :=
  fun _ h => StableHlo.after_of_writes_sub hostOps5_1 _ hostOps5_1_writes h
theorem k17 (c : Dev nD) : Keeps (W18 m ρ c) (W17 m ρ c) (wr 17) :=
  fun _ h => StableHlo.after_of_writes_sub hostOps5_2 _ hostOps5_2_writes h
theorem k18 (c : Dev nD) : Keeps (W19 m ρ c) (W18 m ρ c) (wr 18) :=
  region_keep (Pipeline.arrRef spec5) (fun w => (cfg5.win w).isOut) (wr 18) (by decide) (W19 m ρ c) (W18 m ρ c)
    (fun w hin => (W19_arr m ρ c w).trans (((dat5 (V18 m ρ) c).arrAt_in w hin _).trans (A_eq5 (V18 m ρ) c w)))
    (W19_of_ne m ρ c)
theorem k19 (c : Dev nD) : Keeps (W20 m ρ c) (W19 m ρ c) (wr 19) :=
  fun _ h => StableHlo.after_of_writes_sub hostOps6 _ hostOps6_writes h
theorem k20 (c : Dev nD) : Keeps (W21 m ρ c) (W20 m ρ c) (wr 20) :=
  region_keep (Pipeline.arrRef spec6) (fun w => (cfg6.win w).isOut) (wr 20) (by decide) (W21 m ρ c) (W20 m ρ c)
    (fun w hin => (W21_arr m ρ c w).trans (((dat6 (V20 m ρ) c).arrAt_in w hin _).trans (A_eq6 (V20 m ρ) c w)))
    (W21_of_ne m ρ c)
theorem k21 (c : Dev nD) : Keeps (W22 m ρ c) (W21 m ρ c) (wr 21) :=
  fun _ h => StableHlo.after_of_writes_sub hostOps7 _ hostOps7_writes h

theorem K0_1 (c : Dev nD) : Keeps (W1 m ρ c) (W0 m ρ c) (wrs 0 1) := k0 m ρ c
theorem K0_2 (c : Dev nD) : Keeps (W2 m ρ c) (W0 m ρ c) (wrs 0 2) := (k1 m ρ c).trans (K0_1 m ρ c)
theorem K0_3 (c : Dev nD) : Keeps (W3 m ρ c) (W0 m ρ c) (wrs 0 3) := (k2 m ρ c).trans (K0_2 m ρ c)
theorem K0_4 (c : Dev nD) : Keeps (W4 m ρ c) (W0 m ρ c) (wrs 0 4) := (k3 m ρ c).trans (K0_3 m ρ c)
theorem K0_5 (c : Dev nD) : Keeps (W5 m ρ c) (W0 m ρ c) (wrs 0 5) := (k4 m ρ c).trans (K0_4 m ρ c)
theorem K0_6 (c : Dev nD) : Keeps (W6 m ρ c) (W0 m ρ c) (wrs 0 6) := (k5 m ρ c).trans (K0_5 m ρ c)
theorem K0_7 (c : Dev nD) : Keeps (W7 m ρ c) (W0 m ρ c) (wrs 0 7) := (k6 m ρ c).trans (K0_6 m ρ c)
theorem K0_8 (c : Dev nD) : Keeps (W8 m ρ c) (W0 m ρ c) (wrs 0 8) := (k7 m ρ c).trans (K0_7 m ρ c)
theorem K0_9 (c : Dev nD) : Keeps (W9 m ρ c) (W0 m ρ c) (wrs 0 9) := (k8 m ρ c).trans (K0_8 m ρ c)
theorem K0_10 (c : Dev nD) : Keeps (W10 m ρ c) (W0 m ρ c) (wrs 0 10) := (k9 m ρ c).trans (K0_9 m ρ c)
theorem K0_11 (c : Dev nD) : Keeps (W11 m ρ c) (W0 m ρ c) (wrs 0 11) := (k10 m ρ c).trans (K0_10 m ρ c)
theorem K0_12 (c : Dev nD) : Keeps (W12 m ρ c) (W0 m ρ c) (wrs 0 12) := (k11 m ρ c).trans (K0_11 m ρ c)
theorem K0_13 (c : Dev nD) : Keeps (W13 m ρ c) (W0 m ρ c) (wrs 0 13) := (k12 m ρ c).trans (K0_12 m ρ c)
theorem K0_14 (c : Dev nD) : Keeps (W14 m ρ c) (W0 m ρ c) (wrs 0 14) := (k13 m ρ c).trans (K0_13 m ρ c)
theorem K0_15 (c : Dev nD) : Keeps (W15 m ρ c) (W0 m ρ c) (wrs 0 15) := (k14 m ρ c).trans (K0_14 m ρ c)
theorem K0_16 (c : Dev nD) : Keeps (W16 m ρ c) (W0 m ρ c) (wrs 0 16) := (k15 m ρ c).trans (K0_15 m ρ c)
theorem K0_17 (c : Dev nD) : Keeps (W17 m ρ c) (W0 m ρ c) (wrs 0 17) := (k16 m ρ c).trans (K0_16 m ρ c)
theorem K0_18 (c : Dev nD) : Keeps (W18 m ρ c) (W0 m ρ c) (wrs 0 18) := (k17 m ρ c).trans (K0_17 m ρ c)
theorem K0_19 (c : Dev nD) : Keeps (W19 m ρ c) (W0 m ρ c) (wrs 0 19) := (k18 m ρ c).trans (K0_18 m ρ c)
theorem K0_20 (c : Dev nD) : Keeps (W20 m ρ c) (W0 m ρ c) (wrs 0 20) := (k19 m ρ c).trans (K0_19 m ρ c)
theorem K0_21 (c : Dev nD) : Keeps (W21 m ρ c) (W0 m ρ c) (wrs 0 21) := (k20 m ρ c).trans (K0_20 m ρ c)
theorem K0_22 (c : Dev nD) : Keeps (W22 m ρ c) (W0 m ρ c) (wrs 0 22) := (k21 m ρ c).trans (K0_21 m ρ c)
theorem K2_3 (c : Dev nD) : Keeps (W3 m ρ c) (W2 m ρ c) (wrs 2 1) := k2 m ρ c
theorem K2_4 (c : Dev nD) : Keeps (W4 m ρ c) (W2 m ρ c) (wrs 2 2) := (k3 m ρ c).trans (K2_3 m ρ c)
theorem K2_5 (c : Dev nD) : Keeps (W5 m ρ c) (W2 m ρ c) (wrs 2 3) := (k4 m ρ c).trans (K2_4 m ρ c)
theorem K2_6 (c : Dev nD) : Keeps (W6 m ρ c) (W2 m ρ c) (wrs 2 4) := (k5 m ρ c).trans (K2_5 m ρ c)
theorem K2_7 (c : Dev nD) : Keeps (W7 m ρ c) (W2 m ρ c) (wrs 2 5) := (k6 m ρ c).trans (K2_6 m ρ c)
theorem K2_8 (c : Dev nD) : Keeps (W8 m ρ c) (W2 m ρ c) (wrs 2 6) := (k7 m ρ c).trans (K2_7 m ρ c)
theorem K3_4 (c : Dev nD) : Keeps (W4 m ρ c) (W3 m ρ c) (wrs 3 1) := k3 m ρ c
theorem K3_5 (c : Dev nD) : Keeps (W5 m ρ c) (W3 m ρ c) (wrs 3 2) := (k4 m ρ c).trans (K3_4 m ρ c)
theorem K3_6 (c : Dev nD) : Keeps (W6 m ρ c) (W3 m ρ c) (wrs 3 3) := (k5 m ρ c).trans (K3_5 m ρ c)
theorem K3_7 (c : Dev nD) : Keeps (W7 m ρ c) (W3 m ρ c) (wrs 3 4) := (k6 m ρ c).trans (K3_6 m ρ c)
theorem K3_8 (c : Dev nD) : Keeps (W8 m ρ c) (W3 m ρ c) (wrs 3 5) := (k7 m ρ c).trans (K3_7 m ρ c)
theorem K3_9 (c : Dev nD) : Keeps (W9 m ρ c) (W3 m ρ c) (wrs 3 6) := (k8 m ρ c).trans (K3_8 m ρ c)
theorem K3_10 (c : Dev nD) : Keeps (W10 m ρ c) (W3 m ρ c) (wrs 3 7) := (k9 m ρ c).trans (K3_9 m ρ c)
theorem K3_11 (c : Dev nD) : Keeps (W11 m ρ c) (W3 m ρ c) (wrs 3 8) := (k10 m ρ c).trans (K3_10 m ρ c)
theorem K3_12 (c : Dev nD) : Keeps (W12 m ρ c) (W3 m ρ c) (wrs 3 9) := (k11 m ρ c).trans (K3_11 m ρ c)
theorem K3_13 (c : Dev nD) : Keeps (W13 m ρ c) (W3 m ρ c) (wrs 3 10) := (k12 m ρ c).trans (K3_12 m ρ c)
theorem K3_14 (c : Dev nD) : Keeps (W14 m ρ c) (W3 m ρ c) (wrs 3 11) := (k13 m ρ c).trans (K3_13 m ρ c)
theorem K3_15 (c : Dev nD) : Keeps (W15 m ρ c) (W3 m ρ c) (wrs 3 12) := (k14 m ρ c).trans (K3_14 m ρ c)
theorem K3_16 (c : Dev nD) : Keeps (W16 m ρ c) (W3 m ρ c) (wrs 3 13) := (k15 m ρ c).trans (K3_15 m ρ c)
theorem K3_17 (c : Dev nD) : Keeps (W17 m ρ c) (W3 m ρ c) (wrs 3 14) := (k16 m ρ c).trans (K3_16 m ρ c)
theorem K3_18 (c : Dev nD) : Keeps (W18 m ρ c) (W3 m ρ c) (wrs 3 15) := (k17 m ρ c).trans (K3_17 m ρ c)
theorem K3_19 (c : Dev nD) : Keeps (W19 m ρ c) (W3 m ρ c) (wrs 3 16) := (k18 m ρ c).trans (K3_18 m ρ c)
theorem K4_5 (c : Dev nD) : Keeps (W5 m ρ c) (W4 m ρ c) (wrs 4 1) := k4 m ρ c
theorem K4_6 (c : Dev nD) : Keeps (W6 m ρ c) (W4 m ρ c) (wrs 4 2) := (k5 m ρ c).trans (K4_5 m ρ c)
theorem K5_6 (c : Dev nD) : Keeps (W6 m ρ c) (W5 m ρ c) (wrs 5 1) := k5 m ρ c
theorem K9_10 (c : Dev nD) : Keeps (W10 m ρ c) (W9 m ρ c) (wrs 9 1) := k9 m ρ c
theorem K9_11 (c : Dev nD) : Keeps (W11 m ρ c) (W9 m ρ c) (wrs 9 2) := (k10 m ρ c).trans (K9_10 m ρ c)
theorem K9_12 (c : Dev nD) : Keeps (W12 m ρ c) (W9 m ρ c) (wrs 9 3) := (k11 m ρ c).trans (K9_11 m ρ c)
theorem K9_13 (c : Dev nD) : Keeps (W13 m ρ c) (W9 m ρ c) (wrs 9 4) := (k12 m ρ c).trans (K9_12 m ρ c)
theorem K9_14 (c : Dev nD) : Keeps (W14 m ρ c) (W9 m ρ c) (wrs 9 5) := (k13 m ρ c).trans (K9_13 m ρ c)
theorem K10_11 (c : Dev nD) : Keeps (W11 m ρ c) (W10 m ρ c) (wrs 10 1) := k10 m ρ c
theorem K10_12 (c : Dev nD) : Keeps (W12 m ρ c) (W10 m ρ c) (wrs 10 2) := (k11 m ρ c).trans (K10_11 m ρ c)
theorem K11_12 (c : Dev nD) : Keeps (W12 m ρ c) (W11 m ρ c) (wrs 11 1) := k11 m ρ c
theorem K15_16 (c : Dev nD) : Keeps (W16 m ρ c) (W15 m ρ c) (wrs 15 1) := k15 m ρ c
theorem K15_17 (c : Dev nD) : Keeps (W17 m ρ c) (W15 m ρ c) (wrs 15 2) := (k16 m ρ c).trans (K15_16 m ρ c)
theorem K15_18 (c : Dev nD) : Keeps (W18 m ρ c) (W15 m ρ c) (wrs 15 3) := (k17 m ρ c).trans (K15_17 m ρ c)
theorem K15_19 (c : Dev nD) : Keeps (W19 m ρ c) (W15 m ρ c) (wrs 15 4) := (k18 m ρ c).trans (K15_18 m ρ c)
theorem K15_20 (c : Dev nD) : Keeps (W20 m ρ c) (W15 m ρ c) (wrs 15 5) := (k19 m ρ c).trans (K15_19 m ρ c)
theorem K16_17 (c : Dev nD) : Keeps (W17 m ρ c) (W16 m ρ c) (wrs 16 1) := k16 m ρ c
theorem K16_18 (c : Dev nD) : Keeps (W18 m ρ c) (W16 m ρ c) (wrs 16 2) := (k17 m ρ c).trans (K16_17 m ρ c)
theorem K17_18 (c : Dev nD) : Keeps (W18 m ρ c) (W17 m ρ c) (wrs 17 1) := k17 m ρ c

end Cert.KernelIdeal.Gen

end
-- ==== Proof.Params.lean ====
/-
  Round l's matrix and bias row out of the parameter arrays stacked over the three rounds.
-/
import Mathlib.Data.EReal.Basic
import Idealize.ShloMosaic.Lib.ValueIdx

noncomputable section

namespace Cert.Gnn

open Idealize.ShloMosaic Idealize.ShloMosaic.ValueIdx

def slab {L K N : Nat} (l : Fin L) (w : (⟨3, ![L, K, N]⟩ : Shape).Idx → EReal) : Fin K → Fin N → EReal :=
  fun k n => w (ix3 l k n)

def brow {L N : Nat} (l : Fin L) (b : (⟨2, ![L, N]⟩ : Shape).Idx → EReal) : Fin N → EReal :=
  fun n => b (ix2 l n)

end Cert.Gnn

end
-- ==== Proof.KHostW.lean ====
/-
  What each kernel region finds in its parameter buffers: rows and matrices of the launch arguments, sliced out of the
  stacked arrays by the host operations before the region.
-/
import proofs.«426174_j75376676045031_2_alg».proof.Proof.KSkip
import proofs.«426174_j75376676045031_2_alg».proof.Proof.Spec
import proofs.«426174_j75376676045031_2_alg».proof.Proof.Params
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.HostVal

open Cert.KernelIdeal Cert.KernelIdeal.Gen Cert.Gnn Idealize.ShloMosaic Idealize.ShloMosaic.ValueIdx
open Idealize.ShloMosaic.TcCoe

section Generic
variable {α : Type}

theorem reshape_slice3_apply {L K M N : Nat} (off : Fin 3 → Nat) (w : (⟨3, ![L, K, N]⟩ : Shape).Idx → α)
    (hs : (⟨3, ![L, K, N]⟩ : Shape).Slices off ⟨3, ![1, M, N]⟩)
    (hc : (⟨3, ![1, M, N]⟩ : Shape).ShapeCasts ⟨2, ![M, N]⟩)
    (l : Fin L) (o : Nat) (h0 : off 0 = l.val) (h1 : off 1 = o) (h2 : off 2 = 0)
    (r : Fin M) (n : Fin N) (hr : o + r.val < K) :
    shapeCast ⟨2, ![M, N]⟩ (extractStridedSlice ⟨3, ![1, M, N]⟩ off w hs) hc (ix2 r n)
      = w (ix3 l ⟨o + r.val, hr⟩ n) := by
  rw [shapeCast_1ab_ab_apply]
  exact extractStridedSlice_apply off w hs _ _ (fun a => match a with
    | ⟨0, _⟩ => by show l.val = off 0 + (0 : Fin 1).val; rw [h0]; rfl
    | ⟨1, _⟩ => by show o + r.val = off 1 + r.val; rw [h1]
    | ⟨2, _⟩ => by show n.val = off 2 + n.val; rw [h2, Nat.zero_add])

theorem reshape2_slice2_apply {L N : Nat} (off : Fin 2 → Nat) (b : (⟨2, ![L, N]⟩ : Shape).Idx → α)
    (hs : (⟨2, ![L, N]⟩ : Shape).Slices off ⟨2, ![1, N]⟩)
    (hc : (⟨2, ![1, N]⟩ : Shape).ShapeCasts ⟨1, ![N]⟩) (hc' : (⟨1, ![N]⟩ : Shape).ShapeCasts ⟨2, ![1, N]⟩)
    (l : Fin L) (h0 : off 0 = l.val) (h1 : off 1 = 0) (u : Fin 1) (n : Fin N) :
    shapeCast ⟨2, ![1, N]⟩ (shapeCast ⟨1, ![N]⟩ (extractStridedSlice ⟨2, ![1, N]⟩ off b hs) hc) hc' (ix2 u n)
      = b (ix2 l n) := by
  rw [shapeCast_a_1a_apply, shapeCast_1a_a_apply]
  exact extractStridedSlice_apply off b hs _ _ (fun a => match a with
    | ⟨0, _⟩ => by show l.val = off 0 + (0 : Fin 1).val; rw [h0]; rfl
    | ⟨1, _⟩ => by show n.val = off 1 + n.val; rw [h1, Nat.zero_add])

end Generic

theorem cur_reshape_slice {L K N : Nat} (l : Fin L) (off : Fin 3 → Nat) (w : (⟨3, ![L, K, N]⟩ : Shape).Idx → EReal)
    (hs : (⟨3, ![L, K, N]⟩ : Shape).Slices off ⟨3, ![1, K, N]⟩)
    (hc : (⟨3, ![1, K, N]⟩ : Shape).ShapeCasts ⟨2, ![K, N]⟩)
    (h0 : off 0 = l.val) (h1 : off 1 = 0) (h2 : off 2 = 0) :
    cur (shapeCast ⟨2, ![K, N]⟩ (extractStridedSlice ⟨3, ![1, K, N]⟩ off w hs) hc) = slab l w := by
  funext r n
  exact (reshape_slice3_apply off w hs hc l 0 h0 h1 h2 r n (by have := r.isLt; omega)).trans
    (congrArg (fun k => w (ix3 l k n)) (Fin.ext (Nat.zero_add r.val)))

theorem cur_reshape_slice_rows {L K N : Nat} (l : Fin L) (o : Nat) (off : Fin 3 → Nat)
    (w : (⟨3, ![L, K, N]⟩ : Shape).Idx → EReal)
    (hs : (⟨3, ![L, K, N]⟩ : Shape).Slices off ⟨3, ![1, 128, N]⟩)
    (hc : (⟨3, ![1, 128, N]⟩ : Shape).ShapeCasts ⟨2, ![128, N]⟩)
    (h0 : off 0 = l.val) (h1 : off 1 = o) (h2 : off 2 = 0) (h : o + 128 ≤ K) :
    cur (shapeCast ⟨2, ![128, N]⟩ (extractStridedSlice ⟨3, ![1, 128, N]⟩ off w hs) hc) = rows o (slab l w) h := by
  funext r n
  exact reshape_slice3_apply off w hs hc l o h0 h1 h2 r n (by have := r.isLt; omega)

theorem row_reshape_slice {L N : Nat} (l : Fin L) (off : Fin 2 → Nat) (b : (⟨2, ![L, N]⟩ : Shape).Idx → EReal)
    (hs : (⟨2, ![L, N]⟩ : Shape).Slices off ⟨2, ![1, N]⟩)
    (hc : (⟨2, ![1, N]⟩ : Shape).ShapeCasts ⟨1, ![N]⟩) (hc' : (⟨1, ![N]⟩ : Shape).ShapeCasts ⟨2, ![1, N]⟩)
    (h0 : off 0 = l.val) (h1 : off 1 = 0) :
    row (shapeCast ⟨2, ![1, N]⟩ (shapeCast ⟨1, ![N]⟩ (extractStridedSlice ⟨2, ![1, N]⟩ off b hs) hc) hc') = brow l b := by
  funext n
  exact reshape2_slice2_apply off b hs hc hc' l h0 h1 0 n

theorem row_reshape {N : Nat} (x : (⟨1, ![N]⟩ : Shape).Idx → EReal) (h : (⟨1, ![N]⟩ : Shape).ShapeCasts ⟨2, ![1, N]⟩) :
    row (shapeCast ⟨2, ![1, N]⟩ x h) = cur1 x := by
  funext n
  exact shapeCast_a_1a_apply x h 0 n

section Stretches
variable (W : Valuation τ sig (Elt Ideal))

theorem s0_v0 (a : S128.Idx → EReal) (ha : W (Proc.devRef .tc main_arg3) = a) :
    row (StableHlo.after (hostOps0 (F := Ideal)) W (Proc.devRef .tc main_v0) : S1x128.Idx → EReal) = cur1 a := by
  subst ha; after_results
  exact row_reshape _ _

theorem s0_v1 (a : S128.Idx → EReal) (ha : W (Proc.devRef .tc main_arg5) = a) :
    row (StableHlo.after (hostOps0 (F := Ideal)) W (Proc.devRef .tc main_v1) : S1x128.Idx → EReal) = cur1 a := by
  subst ha; after_results
  exact row_reshape _ _

theorem s1_3_v10 (a : S3x384x128.Idx → EReal) (ha : W (Proc.devRef .tc main_arg10) = a) :
    cur (StableHlo.after (hostOps1_3 (F := Ideal)) W (Proc.devRef .tc main_v10) : S128x128.Idx → EReal)
      = rows 0 (slab (0 : Fin 3) a) (by omega) := by
  subst ha; after_results
  exact cur_reshape_slice_rows (0 : Fin 3) 0 ![0, 0, 0] _ _ _ rfl rfl rfl _

theorem s1_3_v12 (a : S3x384x128.Idx → EReal) (ha : W (Proc.devRef .tc main_arg10) = a) :
    cur (StableHlo.after (hostOps1_3 (F := Ideal)) W (Proc.devRef .tc main_v12) : S128x128.Idx → EReal)
      = rows 128 (slab (0 : Fin 3) a) (by omega) := by
  subst ha; after_results
  exact cur_reshape_slice_rows (0 : Fin 3) 128 ![0, 128, 0] _ _ _ rfl rfl rfl _

theorem s1_3_v14 (a : S3x384x128.Idx → EReal) (ha : W (Proc.devRef .tc main_arg10) = a) :
    cur (StableHlo.after (hostOps1_3 (F := Ideal)) W (Proc.devRef .tc main_v14) : S128x128.Idx → EReal)
      = rows 256 (slab (0 : Fin 3) a) (by omega) := by
  subst ha; after_results
  exact cur_reshape_slice_rows (0 : Fin 3) 256 ![0, 256, 0] _ _ _ rfl rfl rfl _

theorem s1_3_v16 (a : S3x1x128.Idx → EReal) (ha : W (Proc.devRef .tc main_arg6) = a) :
    cur (StableHlo.after (hostOps1_3 (F := Ideal)) W (Proc.devRef .tc main_v16) : S1x128.Idx → EReal)
      = slab (0 : Fin 3) a := by
  subst ha; after_results
  exact cur_reshape_slice (0 : Fin 3) ![0, 0, 0] _ _ _ rfl rfl rfl

theorem s1_3_v29 (a : S3x128.Idx → EReal) (ha : W (Proc.devRef .tc main_arg7) = a) :
    row (StableHlo.after (hostOps1_3 (F := Ideal)) W (Proc.devRef .tc main_v29) : S1x128.Idx → EReal)
      = brow (0 : Fin 3) a := by
  subst ha; after_results
  exact row_reshape_slice (0 : Fin 3) ![0, 0] _ _ _ _ rfl rfl

theorem s1_3_v20 (a : S3x128x128.Idx → EReal) (ha : W (Proc.devRef .tc main_arg8) = a) :
    cur (StableHlo.after (hostOps1_3 (F := Ideal)) W (Proc.devRef .tc main_v20) : S128x128.Idx → EReal)
      = slab (0 : Fin 3) a := by
  subst ha; after_results
  exact cur_reshape_slice (0 : Fin 3) ![0, 0, 0] _ _ _ rfl rfl rfl

theorem s1_3_v30 (a : S3x128.Idx → EReal) (ha : W (Proc.devRef .tc main_arg9) = a) :
    row (StableHlo.after (hostOps1_3 (F := Ideal)) W (Proc.devRef .tc main_v30) : S1x128.Idx → EReal)
      = brow (0 : Fin 3) a := by
  subst ha; after_results
  exact row_reshape_slice (0 : Fin 3) ![0, 0] _ _ _ _ rfl rfl

theorem s1_3_v31 (a : S3x128.Idx → EReal) (ha : W (Proc.devRef .tc main_arg11) = a) :
    row (StableHlo.after (hostOps1_3 (F := Ideal)) W (Proc.devRef .tc main_v31) : S1x128.Idx → EReal)
      = brow (0 : Fin 3) a := by
  subst ha; after_results
  exact row_reshape_slice (0 : Fin 3) ![0, 0] _ _ _ _ rfl rfl

theorem s1_3_v26 (a : S3x128x128.Idx → EReal) (ha : W (Proc.devRef .tc main_arg12) = a) :
    cur (StableHlo.after (hostOps1_3 (F := Ideal)) W (Proc.devRef .tc main_v26) : S128x128.Idx → EReal)
      = slab (0 : Fin 3) a := by
  subst ha; after_results
  exact cur_reshape_slice (0 : Fin 3) ![0, 0, 0] _ _ _ rfl rfl rfl

theorem s1_3_v32 (a : S3x128.Idx → EReal) (ha : W (Proc.devRef .tc main_arg13) = a) :
    row (StableHlo.after (hostOps1_3 (F := Ideal)) W (Proc.devRef .tc main_v32) : S1x128.Idx → EReal)
      = brow (0 : Fin 3) a := by
  subst ha; after_results
  exact row_reshape_slice (0 : Fin 3) ![0, 0] _ _ _ _ rfl rfl

theorem s3_2_v53 (a : S3x384x128.Idx → EReal) (ha : W (Proc.devRef .tc main_arg10) = a) :
    cur (StableHlo.after (hostOps3_2 (F := Ideal)) W (Proc.devRef .tc main_v53) : S128x128.Idx → EReal)
      = rows 0 (slab (1 : Fin 3) a) (by omega) := by
  subst ha; after_results
  exact cur_reshape_slice_rows (1 : Fin 3) 0 ![1, 0, 0] _ _ _ rfl rfl rfl _

theorem s3_2_v55 (a : S3x384x128.Idx → EReal) (ha : W (Proc.devRef .tc main_arg10) = a) :
    cur (StableHlo.after (hostOps3_2 (F := Ideal)) W (Proc.devRef .tc main_v55) : S128x128.Idx → EReal)
      = rows 128 (slab (1 : Fin 3) a) (by omega) := by
  subst ha; after_results
  exact cur_reshape_slice_rows (1 : Fin 3) 128 ![1, 128, 0] _ _ _ rfl rfl rfl _

theorem s3_2_v57 (a : S3x384x128.Idx → EReal) (ha : W (Proc.devRef .tc main_arg10) = a) :
    cur (StableHlo.after (hostOps3_2 (F := Ideal)) W (Proc.devRef .tc main_v57) : S128x128.Idx → EReal)
      = rows 256 (slab (1 : Fin 3) a) (by omega) := by
  subst ha; after_results
  exact cur_reshape_slice_rows (1 : Fin 3) 256 ![1, 256, 0] _ _ _ rfl rfl rfl _

theorem s3_2_v59 (a : S3x1x128.Idx → EReal) (ha : W (Proc.devRef .tc main_arg6) = a) :
    cur (StableHlo.after (hostOps3_2 (F := Ideal)) W (Proc.devRef .tc main_v59) : S1x128.Idx → EReal)
      = slab (1 : Fin 3) a := by
  subst ha; after_results
  exact cur_reshape_slice (1 : Fin 3) ![1, 0, 0] _ _ _ rfl rfl rfl

theorem s3_2_v72 (a : S3x128.Idx → EReal) (ha : W (Proc.devRef .tc main_arg7) = a) :
    row (StableHlo.after (hostOps3_2 (F := Ideal)) W (Proc.devRef .tc main_v72) : S1x128.Idx → EReal)
      = brow (1 : Fin 3) a := by
  subst ha; after_results
  exact row_reshape_slice (1 : Fin 3) ![1, 0] _ _ _ _ rfl rfl

theorem s3_2_v63 (a : S3x128x128.Idx → EReal) (ha : W (Proc.devRef .tc main_arg8) = a) :
    cur (StableHlo.after (hostOps3_2 (F := Ideal)) W (Proc.devRef .tc main_v63) : S128x128.Idx → EReal)
      = slab (1 : Fin 3) a := by
  subst ha; after_results
  exact cur_reshape_slice (1 : Fin 3) ![1, 0, 0] _ _ _ rfl rfl rfl

theorem s3_2_v73 (a : S3x128.Idx → EReal) (ha : W (Proc.devRef .tc main_arg9) = a) :
    row (StableHlo.after (hostOps3_2 (F := Ideal)) W (Proc.devRef .tc main_v73) : S1x128.Idx → EReal)
      = brow (1 : Fin 3) a := by
  subst ha; after_results
  exact row_reshape_slice (1 : Fin 3) ![1, 0] _ _ _ _ rfl rfl

theorem s3_2_v74 (a : S3x128.Idx → EReal) (ha : W (Proc.devRef .tc main_arg11) = a) :
    row (StableHlo.after (hostOps3_2 (F := Ideal)) W (Proc.devRef .tc main_v74) : S1x128.Idx → EReal)
      = brow (1 : Fin 3) a := by
  subst ha; after_results
  exact row_reshape_slice (1 : Fin 3) ![1, 0] _ _ _ _ rfl rfl

theorem s3_2_v69 (a : S3x128x128.Idx → EReal) (ha : W (Proc.devRef .tc main_arg12) = a) :
    cur (StableHlo.after (hostOps3_2 (F := Ideal)) W (Proc.devRef .tc main_v69) : S128x128.Idx → EReal)
      = slab (1 : Fin 3) a := by
  subst ha; after_results
  exact cur_reshape_slice (1 : Fin 3) ![1, 0, 0] _ _ _ rfl rfl rfl

theorem s3_2_v75 (a : S3x128.Idx → EReal) (ha : W (Proc.devRef .tc main_arg13) = a) :
    row (StableHlo.after (hostOps3_2 (F := Ideal)) W (Proc.devRef .tc main_v75) : S1x128.Idx → EReal)
      = brow (1 : Fin 3) a := by
  subst ha; after_results
  exact row_reshape_slice (1 : Fin 3) ![1, 0] _ _ _ _ rfl rfl

theorem s5_2_v96 (a : S3x384x128.Idx → EReal) (ha : W (Proc.devRef .tc main_arg10) = a) :
    cur (StableHlo.after (hostOps5_2 (F := Ideal)) W (Proc.devRef .tc main_v96) : S128x128.Idx → EReal)
      = rows 0 (slab (2 : Fin 3) a) (by omega) := by
  subst ha; after_results
  exact cur_reshape_slice_rows (2 : Fin 3) 0 ![2, 0, 0] _ _ _ rfl rfl rfl _

theorem s5_2_v98 (a : S3x384x128.Idx → EReal) (ha : W (Proc.devRef .tc main_arg10) = a) :
    cur (StableHlo.after (hostOps5_2 (F := Ideal)) W (Proc.devRef .tc main_v98) : S128x128.Idx → EReal)
      = rows 128 (slab (2 : Fin 3) a) (by omega) := by
  subst ha; after_results
  exact cur_reshape_slice_rows (2 : Fin 3) 128 ![2, 128, 0] _ _ _ rfl rfl rfl _

theorem s5_2_v100 (a : S3x384x128.Idx → EReal) (ha : W (Proc.devRef .tc main_arg10) = a) :
    cur (StableHlo.after (hostOps5_2 (F := Ideal)) W (Proc.devRef .tc main_v100) : S128x128.Idx → EReal)
      = rows 256 (slab (2 : Fin 3) a) (by omega) := by
  subst ha; after_results
  exact cur_reshape_slice_rows (2 : Fin 3) 256 ![2, 256, 0] _ _ _ rfl rfl rfl _

theorem s5_2_v102 (a : S3x1x128.Idx → EReal) (ha : W (Proc.devRef .tc main_arg6) = a) :
    cur (StableHlo.after (hostOps5_2 (F := Ideal)) W (Proc.devRef .tc main_v102) : S1x128.Idx → EReal)
      = slab (2 : Fin 3) a := by
  subst ha; after_results
  exact cur_reshape_slice (2 : Fin 3) ![2, 0, 0] _ _ _ rfl rfl rfl

theorem s5_2_v115 (a : S3x128.Idx → EReal) (ha : W (Proc.devRef .tc main_arg7) = a) :
    row (StableHlo.after (hostOps5_2 (F := Ideal)) W (Proc.devRef .tc main_v115) : S1x128.Idx → EReal)
      = brow (2 : Fin 3) a := by
  subst ha; after_results
  exact row_reshape_slice (2 : Fin 3) ![2, 0] _ _ _ _ rfl rfl

theorem s5_2_v106 (a : S3x128x128.Idx → EReal) (ha : W (Proc.devRef .tc main_arg8) = a) :
    cur (StableHlo.after (hostOps5_2 (F := Ideal)) W (Proc.devRef .tc main_v106) : S128x128.Idx → EReal)
      = slab (2 : Fin 3) a := by
  subst ha; after_results
  exact cur_reshape_slice (2 : Fin 3) ![2, 0, 0] _ _ _ rfl rfl rfl

theorem s5_2_v116 (a : S3x128.Idx → EReal) (ha : W (Proc.devRef .tc main_arg9) = a) :
    row (StableHlo.after (hostOps5_2 (F := Ideal)) W (Proc.devRef .tc main_v116) : S1x128.Idx → EReal)
      = brow (2 : Fin 3) a := by
  subst ha; after_results
  exact row_reshape_slice (2 : Fin 3) ![2, 0] _ _ _ _ rfl rfl

theorem s5_2_v117 (a : S3x128.Idx → EReal) (ha : W (Proc.devRef .tc main_arg11) = a) :
    row (StableHlo.after (hostOps5_2 (F := Ideal)) W (Proc.devRef .tc main_v117) : S1x128.Idx → EReal)
      = brow (2 : Fin 3) a := by
  subst ha; after_results
  exact row_reshape_slice (2 : Fin 3) ![2, 0] _ _ _ _ rfl rfl

theorem s5_2_v112 (a : S3x128x128.Idx → EReal) (ha : W (Proc.devRef .tc main_arg12) = a) :
    cur (StableHlo.after (hostOps5_2 (F := Ideal)) W (Proc.devRef .tc main_v112) : S128x128.Idx → EReal)
      = slab (2 : Fin 3) a := by
  subst ha; after_results
  exact cur_reshape_slice (2 : Fin 3) ![2, 0, 0] _ _ _ rfl rfl rfl

theorem s5_2_v118 (a : S3x128.Idx → EReal) (ha : W (Proc.devRef .tc main_arg13) = a) :
    row (StableHlo.after (hostOps5_2 (F := Ideal)) W (Proc.devRef .tc main_v118) : S1x128.Idx → EReal)
      = brow (2 : Fin 3) a := by
  subst ha; after_results
  exact row_reshape_slice (2 : Fin 3) ![2, 0] _ _ _ _ rfl rfl

theorem s2_v38 (a : S3x256x128.Idx → EReal) (ha : W (Proc.devRef .tc main_arg14) = a) :
    cur (StableHlo.after (hostOps2 (F := Ideal)) W (Proc.devRef .tc main_v38) : S128x128.Idx → EReal)
      = rows 0 (slab (0 : Fin 3) a) (by omega) := by
  subst ha; after_results
  exact cur_reshape_slice_rows (0 : Fin 3) 0 ![0, 0, 0] _ _ _ rfl rfl rfl _

theorem s2_v40 (a : S3x256x128.Idx → EReal) (ha : W (Proc.devRef .tc main_arg14) = a) :
    cur (StableHlo.after (hostOps2 (F := Ideal)) W (Proc.devRef .tc main_v40) : S128x128.Idx → EReal)
      = rows 128 (slab (0 : Fin 3) a) (by omega) := by
  subst ha; after_results
  exact cur_reshape_slice_rows (0 : Fin 3) 128 ![0, 128, 0] _ _ _ rfl rfl rfl _

theorem s2_v47 (a : S3x128.Idx → EReal) (ha : W (Proc.devRef .tc main_arg15) = a) :
    row (StableHlo.after (hostOps2 (F := Ideal)) W (Proc.devRef .tc main_v47) : S1x128.Idx → EReal)
      = brow (0 : Fin 3) a := by
  subst ha; after_results
  exact row_reshape_slice (0 : Fin 3) ![0, 0] _ _ _ _ rfl rfl

theorem s2_v44 (a : S3x128x128.Idx → EReal) (ha : W (Proc.devRef .tc main_arg16) = a) :
    cur (StableHlo.after (hostOps2 (F := Ideal)) W (Proc.devRef .tc main_v44) : S128x128.Idx → EReal)
      = slab (0 : Fin 3) a := by
  subst ha; after_results
  exact cur_reshape_slice (0 : Fin 3) ![0, 0, 0] _ _ _ rfl rfl rfl

theorem s2_v48 (a : S3x128.Idx → EReal) (ha : W (Proc.devRef .tc main_arg17) = a) :
    row (StableHlo.after (hostOps2 (F := Ideal)) W (Proc.devRef .tc main_v48) : S1x128.Idx → EReal)
      = brow (0 : Fin 3) a := by
  subst ha; after_results
  exact row_reshape_slice (0 : Fin 3) ![0, 0] _ _ _ _ rfl rfl

theorem s4_v81 (a : S3x256x128.Idx → EReal) (ha : W (Proc.devRef .tc main_arg14) = a) :
    cur (StableHlo.after (hostOps4 (F := Ideal)) W (Proc.devRef .tc main_v81) : S128x128.Idx → EReal)
      = rows 0 (slab (1 : Fin 3) a) (by omega) := by
  subst ha; after_results
  exact cur_reshape_slice_rows (1 : Fin 3) 0 ![1, 0, 0] _ _ _ rfl rfl rfl _

theorem s4_v83 (a : S3x256x128.Idx → EReal) (ha : W (Proc.devRef .tc main_arg14) = a) :
    cur (StableHlo.after (hostOps4 (F := Ideal)) W (Proc.devRef .tc main_v83) : S128x128.Idx → EReal)
      = rows 128 (slab (1 : Fin 3) a) (by omega) := by
  subst ha; after_results
  exact cur_reshape_slice_rows (1 : Fin 3) 128 ![1, 128, 0] _ _ _ rfl rfl rfl _

theorem s4_v90 (a : S3x128.Idx → EReal) (ha : W (Proc.devRef .tc main_arg15) = a) :
    row (StableHlo.after (hostOps4 (F := Ideal)) W (Proc.devRef .tc main_v90) : S1x128.Idx → EReal)
      = brow (1 : Fin 3) a := by
  subst ha; after_results
  exact row_reshape_slice (1 : Fin 3) ![1, 0] _ _ _ _ rfl rfl

theorem s4_v87 (a : S3x128x128.Idx → EReal) (ha : W (Proc.devRef .tc main_arg16) = a) :
    cur (StableHlo.after (hostOps4 (F := Ideal)) W (Proc.devRef .tc main_v87) : S128x128.Idx → EReal)
      = slab (1 : Fin 3) a := by
  subst ha; after_results
  exact cur_reshape_slice (1 : Fin 3) ![1, 0, 0] _ _ _ rfl rfl rfl

theorem s4_v91 (a : S3x128.Idx → EReal) (ha : W (Proc.devRef .tc main_arg17) = a) :
    row (StableHlo.after (hostOps4 (F := Ideal)) W (Proc.devRef .tc main_v91) : S1x128.Idx → EReal)
      = brow (1 : Fin 3) a := by
  subst ha; after_results
  exact row_reshape_slice (1 : Fin 3) ![1, 0] _ _ _ _ rfl rfl

theorem s6_v124 (a : S3x256x128.Idx → EReal) (ha : W (Proc.devRef .tc main_arg14) = a) :
    cur (StableHlo.after (hostOps6 (F := Ideal)) W (Proc.devRef .tc main_v124) : S128x128.Idx → EReal)
      = rows 0 (slab (2 : Fin 3) a) (by omega) := by
  subst ha; after_results
  exact cur_reshape_slice_rows (2 : Fin 3) 0 ![2, 0, 0] _ _ _ rfl rfl rfl _

theorem s6_v126 (a : S3x256x128.Idx → EReal) (ha : W (Proc.devRef .tc main_arg14) = a) :
    cur (StableHlo.after (hostOps6 (F := Ideal)) W (Proc.devRef .tc main_v126) : S128x128.Idx → EReal)
      = rows 128 (slab (2 : Fin 3) a) (by omega) := by
  subst ha; after_results
  exact cur_reshape_slice_rows (2 : Fin 3) 128 ![2, 128, 0] _ _ _ rfl rfl rfl _

theorem s6_v133 (a : S3x128.Idx → EReal) (ha : W (Proc.devRef .tc main_arg15) = a) :
    row (StableHlo.after (hostOps6 (F := Ideal)) W (Proc.devRef .tc main_v133) : S1x128.Idx → EReal)
      = brow (2 : Fin 3) a := by
  subst ha; after_results
  exact row_reshape_slice (2 : Fin 3) ![2, 0] _ _ _ _ rfl rfl

theorem s6_v130 (a : S3x128x128.Idx → EReal) (ha : W (Proc.devRef .tc main_arg16) = a) :
    cur (StableHlo.after (hostOps6 (F := Ideal)) W (Proc.devRef .tc main_v130) : S128x128.Idx → EReal)
      = slab (2 : Fin 3) a := by
  subst ha; after_results
  exact cur_reshape_slice (2 : Fin 3) ![2, 0, 0] _ _ _ rfl rfl rfl

theorem s6_v134 (a : S3x128.Idx → EReal) (ha : W (Proc.devRef .tc main_arg17) = a) :
    row (StableHlo.after (hostOps6 (F := Ideal)) W (Proc.devRef .tc main_v134) : S1x128.Idx → EReal)
      = brow (2 : Fin 3) a := by
  subst ha; after_results
  exact row_reshape_slice (2 : Fin 3) ![2, 0] _ _ _ _ rfl rfl

theorem s7_v147 (a : S128.Idx → EReal) (ha : W (Proc.devRef .tc main_arg19) = a) :
    row (StableHlo.after (hostOps7 (F := Ideal)) W (Proc.devRef .tc main_v147) : S1x128.Idx → EReal) = cur1 a := by
  subst ha; after_results
  exact row_reshape _ _

theorem s7_v148 (a : S128.Idx → EReal) (ha : W (Proc.devRef .tc main_arg21) = a) :
    row (StableHlo.after (hostOps7 (F := Ideal)) W (Proc.devRef .tc main_v148) : S1x128.Idx → EReal) = cur1 a := by
  subst ha; after_results
  exact row_reshape _ _

end Stretches

variable (m : (ℓ : Loc nD τ sig) → Buf (Elt Ideal) ℓ) (ρ : Dev nD → PrngReg) (c : Dev nD)

theorem b1_arg0 : V1 m ρ c main_arg0 = m ((c : Thread nD τ).loc main_arg0) := K0_1 m ρ c main_arg0 (by decide)
theorem b1_arg2 : V1 m ρ c main_arg2 = m ((c : Thread nD τ).loc main_arg2) := K0_1 m ρ c main_arg2 (by decide)
theorem b1_arg4 : V1 m ρ c main_arg4 = m ((c : Thread nD τ).loc main_arg4) := K0_1 m ρ c main_arg4 (by decide)

theorem b1_v0 : row (V1 m ρ c main_v0 : S1x128.Idx → EReal)
    = cur1 (m ((c : Thread nD τ).loc main_arg3) : S128.Idx → EReal) :=
  s0_v0 (W0 m ρ c) _ rfl
theorem b1_v1 : row (V1 m ρ c main_v1 : S1x128.Idx → EReal)
    = cur1 (m ((c : Thread nD τ).loc main_arg5) : S128.Idx → EReal) :=
  s0_v1 (W0 m ρ c) _ rfl

theorem b6_arg1 : V6 m ρ c main_arg1 = m ((c : Thread nD τ).loc main_arg1) := K0_6 m ρ c main_arg1 (by decide)

theorem b6_v16 : cur (V6 m ρ c main_v16 : S1x128.Idx → EReal)
    = slab (0 : Fin 3) (m ((c : Thread nD τ).loc main_arg6) : S3x1x128.Idx → EReal) :=
  s1_3_v16 (W5 m ρ c) _ (K0_5 m ρ c main_arg6 (by decide))
theorem b6_v29 : row (V6 m ρ c main_v29 : S1x128.Idx → EReal)
    = brow (0 : Fin 3) (m ((c : Thread nD τ).loc main_arg7) : S3x128.Idx → EReal) :=
  s1_3_v29 (W5 m ρ c) _ (K0_5 m ρ c main_arg7 (by decide))
theorem b6_v20 : cur (V6 m ρ c main_v20 : S128x128.Idx → EReal)
    = slab (0 : Fin 3) (m ((c : Thread nD τ).loc main_arg8) : S3x128x128.Idx → EReal) :=
  s1_3_v20 (W5 m ρ c) _ (K0_5 m ρ c main_arg8 (by decide))
theorem b6_v30 : row (V6 m ρ c main_v30 : S1x128.Idx → EReal)
    = brow (0 : Fin 3) (m ((c : Thread nD τ).loc main_arg9) : S3x128.Idx → EReal) :=
  s1_3_v30 (W5 m ρ c) _ (K0_5 m ρ c main_arg9 (by decide))
theorem b6_v10 : cur (V6 m ρ c main_v10 : S128x128.Idx → EReal)
    = rows 0 (slab (0 : Fin 3) (m ((c : Thread nD τ).loc main_arg10) : S3x384x128.Idx → EReal)) (by omega) :=
  s1_3_v10 (W5 m ρ c) _ (K0_5 m ρ c main_arg10 (by decide))
theorem b6_v12 : cur (V6 m ρ c main_v12 : S128x128.Idx → EReal)
    = rows 128 (slab (0 : Fin 3) (m ((c : Thread nD τ).loc main_arg10) : S3x384x128.Idx → EReal)) (by omega) :=
  s1_3_v12 (W5 m ρ c) _ (K0_5 m ρ c main_arg10 (by decide))
theorem b6_v14 : cur (V6 m ρ c main_v14 : S128x128.Idx → EReal)
    = rows 256 (slab (0 : Fin 3) (m ((c : Thread nD τ).loc main_arg10) : S3x384x128.Idx → EReal)) (by omega) :=
  s1_3_v14 (W5 m ρ c) _ (K0_5 m ρ c main_arg10 (by decide))
theorem b6_v31 : row (V6 m ρ c main_v31 : S1x128.Idx → EReal)
    = brow (0 : Fin 3) (m ((c : Thread nD τ).loc main_arg11) : S3x128.Idx → EReal) :=
  s1_3_v31 (W5 m ρ c) _ (K0_5 m ρ c main_arg11 (by decide))
theorem b6_v26 : cur (V6 m ρ c main_v26 : S128x128.Idx → EReal)
    = slab (0 : Fin 3) (m ((c : Thread nD τ).loc main_arg12) : S3x128x128.Idx → EReal) :=
  s1_3_v26 (W5 m ρ c) _ (K0_5 m ρ c main_arg12 (by decide))
theorem b6_v32 : row (V6 m ρ c main_v32 : S1x128.Idx → EReal)
    = brow (0 : Fin 3) (m ((c : Thread nD τ).loc main_arg13) : S3x128.Idx → EReal) :=
  s1_3_v32 (W5 m ρ c) _ (K0_5 m ρ c main_arg13 (by decide))

theorem b8_v38 : cur (V8 m ρ c main_v38 : S128x128.Idx → EReal)
    = rows 0 (slab (0 : Fin 3) (m ((c : Thread nD τ).loc main_arg14) : S3x256x128.Idx → EReal)) (by omega) :=
  s2_v38 (W7 m ρ c) _ (K0_7 m ρ c main_arg14 (by decide))
theorem b8_v40 : cur (V8 m ρ c main_v40 : S128x128.Idx → EReal)
    = rows 128 (slab (0 : Fin 3) (m ((c : Thread nD τ).loc main_arg14) : S3x256x128.Idx → EReal)) (by omega) :=
  s2_v40 (W7 m ρ c) _ (K0_7 m ρ c main_arg14 (by decide))
theorem b8_v47 : row (V8 m ρ c main_v47 : S1x128.Idx → EReal)
    = brow (0 : Fin 3) (m ((c : Thread nD τ).loc main_arg15) : S3x128.Idx → EReal) :=
  s2_v47 (W7 m ρ c) _ (K0_7 m ρ c main_arg15 (by decide))
theorem b8_v44 : cur (V8 m ρ c main_v44 : S128x128.Idx → EReal)
    = slab (0 : Fin 3) (m ((c : Thread nD τ).loc main_arg16) : S3x128x128.Idx → EReal) :=
  s2_v44 (W7 m ρ c) _ (K0_7 m ρ c main_arg16 (by decide))
theorem b8_v48 : row (V8 m ρ c main_v48 : S1x128.Idx → EReal)
    = brow (0 : Fin 3) (m ((c : Thread nD τ).loc main_arg17) : S3x128.Idx → EReal) :=
  s2_v48 (W7 m ρ c) _ (K0_7 m ρ c main_arg17 (by decide))

theorem b12_arg1 : V12 m ρ c main_arg1 = m ((c : Thread nD τ).loc main_arg1) := K0_12 m ρ c main_arg1 (by decide)

theorem b12_v59 : cur (V12 m ρ c main_v59 : S1x128.Idx → EReal)
    = slab (1 : Fin 3) (m ((c : Thread nD τ).loc main_arg6) : S3x1x128.Idx → EReal) :=
  s3_2_v59 (W11 m ρ c) _ (K0_11 m ρ c main_arg6 (by decide))
theorem b12_v72 : row (V12 m ρ c main_v72 : S1x128.Idx → EReal)
    = brow (1 : Fin 3) (m ((c : Thread nD τ).loc main_arg7) : S3x128.Idx → EReal) :=
  s3_2_v72 (W11 m ρ c) _ (K0_11 m ρ c main_arg7 (by decide))
theorem b12_v63 : cur (V12 m ρ c main_v63 : S128x128.Idx → EReal)
    = slab (1 : Fin 3) (m ((c : Thread nD τ).loc main_arg8) : S3x128x128.Idx → EReal) :=
  s3_2_v63 (W11 m ρ c) _ (K0_11 m ρ c main_arg8 (by decide))
theorem b12_v73 : row (V12 m ρ c main_v73 : S1x128.Idx → EReal)
    = brow (1 : Fin 3) (m ((c : Thread nD τ).loc main_arg9) : S3x128.Idx → EReal) :=
  s3_2_v73 (W11 m ρ c) _ (K0_11 m ρ c main_arg9 (by decide))
theorem b12_v53 : cur (V12 m ρ c main_v53 : S128x128.Idx → EReal)
    = rows 0 (slab (1 : Fin 3) (m ((c : Thread nD τ).loc main_arg10) : S3x384x128.Idx → EReal)) (by omega) :=
  s3_2_v53 (W11 m ρ c) _ (K0_11 m ρ c main_arg10 (by decide))
theorem b12_v55 : cur (V12 m ρ c main_v55 : S128x128.Idx → EReal)
    = rows 128 (slab (1 : Fin 3) (m ((c : Thread nD τ).loc main_arg10) : S3x384x128.Idx → EReal)) (by omega) :=
  s3_2_v55 (W11 m ρ c) _ (K0_11 m ρ c main_arg10 (by decide))
theorem b12_v57 : cur (V12 m ρ c main_v57 : S128x128.Idx → EReal)
    = rows 256 (slab (1 : Fin 3) (m ((c : Thread nD τ).loc main_arg10) : S3x384x128.Idx → EReal)) (by omega) :=
  s3_2_v57 (W11 m ρ c) _ (K0_11 m ρ c main_arg10 (by decide))
theorem b12_v74 : row (V12 m ρ c main_v74 : S1x128.Idx → EReal)
    = brow (1 : Fin 3) (m ((c : Thread nD τ).loc main_arg11) : S3x128.Idx → EReal) :=
  s3_2_v74 (W11 m ρ c) _ (K0_11 m ρ c main_arg11 (by decide))
theorem b12_v69 : cur (V12 m ρ c main_v69 : S128x128.Idx → EReal)
    = slab (1 : Fin 3) (m ((c : Thread nD τ).loc main_arg12) : S3x128x128.Idx → EReal) :=
  s3_2_v69 (W11 m ρ c) _ (K0_11 m ρ c main_arg12 (by decide))
theorem b12_v75 : row (V12 m ρ c main_v75 : S1x128.Idx → EReal)
    = brow (1 : Fin 3) (m ((c : Thread nD τ).loc main_arg13) : S3x128.Idx → EReal) :=
  s3_2_v75 (W11 m ρ c) _ (K0_11 m ρ c main_arg13 (by decide))

theorem b14_v81 : cur (V14 m ρ c main_v81 : S128x128.Idx → EReal)
    = rows 0 (slab (1 : Fin 3) (m ((c : Thread nD τ).loc main_arg14) : S3x256x128.Idx → EReal)) (by omega) :=
  s4_v81 (W13 m ρ c) _ (K0_13 m ρ c main_arg14 (by decide))
theorem b14_v83 : cur (V14 m ρ c main_v83 : S128x128.Idx → EReal)
    = rows 128 (slab (1 : Fin 3) (m ((c : Thread nD τ).loc main_arg14) : S3x256x128.Idx → EReal)) (by omega) :=
  s4_v83 (W13 m ρ c) _ (K0_13 m ρ c main_arg14 (by decide))
theorem b14_v90 : row (V14 m ρ c main_v90 : S1x128.Idx → EReal)
    = brow (1 : Fin 3) (m ((c : Thread nD τ).loc main_arg15) : S3x128.Idx → EReal) :=
  s4_v90 (W13 m ρ c) _ (K0_13 m ρ c main_arg15 (by decide))
theorem b14_v87 : cur (V14 m ρ c main_v87 : S128x128.Idx → EReal)
    = slab (1 : Fin 3) (m ((c : Thread nD τ).loc main_arg16) : S3x128x128.Idx → EReal) :=
  s4_v87 (W13 m ρ c) _ (K0_13 m ρ c main_arg16 (by decide))
theorem b14_v91 : row (V14 m ρ c main_v91 : S1x128.Idx → EReal)
    = brow (1 : Fin 3) (m ((c : Thread nD τ).loc main_arg17) : S3x128.Idx → EReal) :=
  s4_v91 (W13 m ρ c) _ (K0_13 m ρ c main_arg17 (by decide))

theorem b18_arg1 : V18 m ρ c main_arg1 = m ((c : Thread nD τ).loc main_arg1) := K0_18 m ρ c main_arg1 (by decide)

theorem b18_v102 : cur (V18 m ρ c main_v102 : S1x128.Idx → EReal)
    = slab (2 : Fin 3) (m ((c : Thread nD τ).loc main_arg6) : S3x1x128.Idx → EReal) :=
  s5_2_v102 (W17 m ρ c) _ (K0_17 m ρ c main_arg6 (by decide))
theorem b18_v115 : row (V18 m ρ c main_v115 : S1x128.Idx → EReal)
    = brow (2 : Fin 3) (m ((c : Thread nD τ).loc main_arg7) : S3x128.Idx → EReal) :=
  s5_2_v115 (W17 m ρ c) _ (K0_17 m ρ c main_arg7 (by decide))
theorem b18_v106 : cur (V18 m ρ c main_v106 : S128x128.Idx → EReal)
    = slab (2 : Fin 3) (m ((c : Thread nD τ).loc main_arg8) : S3x128x128.Idx → EReal) :=
  s5_2_v106 (W17 m ρ c) _ (K0_17 m ρ c main_arg8 (by decide))
theorem b18_v116 : row (V18 m ρ c main_v116 : S1x128.Idx → EReal)
    = brow (2 : Fin 3) (m ((c : Thread nD τ).loc main_arg9) : S3x128.Idx → EReal) :=
  s5_2_v116 (W17 m ρ c) _ (K0_17 m ρ c main_arg9 (by decide))
theorem b18_v96 : cur (V18 m ρ c main_v96 : S128x128.Idx → EReal)
    = rows 0 (slab (2 : Fin 3) (m ((c : Thread nD τ).loc main_arg10) : S3x384x128.Idx → EReal)) (by omega) :=
  s5_2_v96 (W17 m ρ c) _ (K0_17 m ρ c main_arg10 (by decide))
theorem b18_v98 : cur (V18 m ρ c main_v98 : S128x128.Idx → EReal)
    = rows 128 (slab (2 : Fin 3) (m ((c : Thread nD τ).loc main_arg10) : S3x384x128.Idx → EReal)) (by omega) :=
  s5_2_v98 (W17 m ρ c) _ (K0_17 m ρ c main_arg10 (by decide))
theorem b18_v100 : cur (V18 m ρ c main_v100 : S128x128.Idx → EReal)
    = rows 256 (slab (2 : Fin 3) (m ((c : Thread nD τ).loc main_arg10) : S3x384x128.Idx → EReal)) (by omega) :=
  s5_2_v100 (W17 m ρ c) _ (K0_17 m ρ c main_arg10 (by decide))
theorem b18_v117 : row (V18 m ρ c main_v117 : S1x128.Idx → EReal)
    = brow (2 : Fin 3) (m ((c : Thread nD τ).loc main_arg11) : S3x128.Idx → EReal) :=
  s5_2_v117 (W17 m ρ c) _ (K0_17 m ρ c main_arg11 (by decide))
theorem b18_v112 : cur (V18 m ρ c main_v112 : S128x128.Idx → EReal)
    = slab (2 : Fin 3) (m ((c : Thread nD τ).loc main_arg12) : S3x128x128.Idx → EReal) :=
  s5_2_v112 (W17 m ρ c) _ (K0_17 m ρ c main_arg12 (by decide))
theorem b18_v118 : row (V18 m ρ c main_v118 : S1x128.Idx → EReal)
    = brow (2 : Fin 3) (m ((c : Thread nD τ).loc main_arg13) : S3x128.Idx → EReal) :=
  s5_2_v118 (W17 m ρ c) _ (K0_17 m ρ c main_arg13 (by decide))

theorem b20_v124 : cur (V20 m ρ c main_v124 : S128x128.Idx → EReal)
    = rows 0 (slab (2 : Fin 3) (m ((c : Thread nD τ).loc main_arg14) : S3x256x128.Idx → EReal)) (by omega) :=
  s6_v124 (W19 m ρ c) _ (K0_19 m ρ c main_arg14 (by decide))
theorem b20_v126 : cur (V20 m ρ c main_v126 : S128x128.Idx → EReal)
    = rows 128 (slab (2 : Fin 3) (m ((c : Thread nD τ).loc main_arg14) : S3x256x128.Idx → EReal)) (by omega) :=
  s6_v126 (W19 m ρ c) _ (K0_19 m ρ c main_arg14 (by decide))
theorem b20_v133 : row (V20 m ρ c main_v133 : S1x128.Idx → EReal)
    = brow (2 : Fin 3) (m ((c : Thread nD τ).loc main_arg15) : S3x128.Idx → EReal) :=
  s6_v133 (W19 m ρ c) _ (K0_19 m ρ c main_arg15 (by decide))
theorem b20_v130 : cur (V20 m ρ c main_v130 : S128x128.Idx → EReal)
    = slab (2 : Fin 3) (m ((c : Thread nD τ).loc main_arg16) : S3x128x128.Idx → EReal) :=
  s6_v130 (W19 m ρ c) _ (K0_19 m ρ c main_arg16 (by decide))
theorem b20_v134 : row (V20 m ρ c main_v134 : S1x128.Idx → EReal)
    = brow (2 : Fin 3) (m ((c : Thread nD τ).loc main_arg17) : S3x128.Idx → EReal) :=
  s6_v134 (W19 m ρ c) _ (K0_19 m ρ c main_arg17 (by decide))

theorem b22_arg18 : V22 m ρ c main_arg18 = m ((c : Thread nD τ).loc main_arg18) := K0_22 m ρ c main_arg18 (by decide)
theorem b22_arg20 : V22 m ρ c main_arg20 = m ((c : Thread nD τ).loc main_arg20) := K0_22 m ρ c main_arg20 (by decide)

theorem b22_v147 : row (V22 m ρ c main_v147 : S1x128.Idx → EReal)
    = cur1 (m ((c : Thread nD τ).loc main_arg19) : S128.Idx → EReal) :=
  s7_v147 (W21 m ρ c) _ (K0_21 m ρ c main_arg19 (by decide))
theorem b22_v148 : row (V22 m ρ c main_v148 : S1x128.Idx → EReal)
    = cur1 (m ((c : Thread nD τ).loc main_arg21) : S128.Idx → EReal) :=
  s7_v148 (W21 m ρ c) _ (K0_21 m ρ c main_arg21 (by decide))

end Cert.KernelIdeal.HostVal

end
-- ==== Proof.KTake.lean ====
/-
  The rows gathered at the edges' end points: with every index a node index, no row is filled and the gather is a
  plain selection of rows, the same on both sides.
-/
import proofs.«426174_j75376676045031_2_alg».proof.Proof.KSkip
import proofs.«426174_j75376676045031_2_alg».proof.Proof.Spec
import proofs.«426174_j75376676045031_2_alg».proof.Proof.Params
import proofs.«426174_j75376676045031_2_alg».proof.Defs
import Idealize.ShloMosaic.Lib.ReduceAll
import Idealize.ShloMosaic.Lib.ValueIdx
import Idealize.ShloMosaic.Lib.StableHlo.Run

set_option maxRecDepth 16384

noncomputable section

namespace Cert.KernelIdeal.HostVal

open Cert.KernelIdeal Cert.KernelIdeal.Gen Cert.Gnn Idealize.ShloMosaic Idealize.ShloMosaic.ValueIdx
open Idealize.ShloMosaic.TcCoe Idealize.SL.Sem

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l fun n hn => h n (List.mem_cons.2 (Or.inr hn))

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

theorem wrap_word (x : BitVec 32) (h0 : 0 ≤ x.toInt) (h1 : x.toInt < 50000) :
    Scalar.select (IntOp.cmpi .slt x 0#32) (IntOp.addi x 50000#32) x = x := by
  have hn : ¬ IntOp.cmpi .slt x 0#32 = 1#1 := fun h => by
    have h' := IntOp.cmpi_slt.1 h
    rw [show (0#32 : BitVec 32).toInt = 0 from by decide] at h'
    omega
  rw [eq_zero_of_ne_one hn, select_zero]

theorem word_ok (x : BitVec 32) (h0 : 0 ≤ x.toInt) (h1 : x.toInt < 50000) :
    IntOp.andi (IntOp.cmpi .sge x 0#32) (IntOp.cmpi .sle x 49999#32) = 1#1 := by
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; omega

def wrapIdx (d : IVec S200000 32) : IVec S200000x1 32 := broadcastInDim S200000x1 ![0] bcast_S200000_S200000x1_0 (select (cmpi .slt d (broadcastInDim S200000 ![] bcast_S_S200000 (constantI S_ 32 0#32))) (addi d (broadcastInDim S200000 ![] bcast_S_S200000 (constantI S_ 32 50000#32))) d)

def InRange (d : IVec S200000 32) : Prop := ∀ e : S200000.Idx, 0 ≤ (d e).toInt ∧ (d e).toInt < 50000

theorem wrapSel_apply (d : IVec S200000 32) (h : InRange d) (k : S200000.Idx) :
    select (cmpi .slt d (broadcastInDim S200000 ![] bcast_S_S200000 (constantI S_ 32 0#32))) (addi d (broadcastInDim S200000 ![] bcast_S_S200000 (constantI S_ 32 50000#32))) d k = d k := by
  rw [select_apply]
  exact wrap_word _ (h k).1 (h k).2

theorem wrapIdx_inRange (d : IVec S200000 32) (h : InRange d) (i : S200000x1.Idx) :
    0 ≤ (wrapIdx d i).toInt ∧ (wrapIdx d i).toInt < 50000 := by
  have e : wrapIdx d i = d _ := wrapSel_apply d h _
  rw [e]; exact h _

def takeMask (I : IVec S200000x1 32) : IVec S200000x128 1 := broadcastInDim S200000x128 ![0] bcast_S200000_S200000x128_0 (Host.reduce IntOp.andi (andi (cmpi .sge I (broadcastInDim S200000x1 ![] bcast_S_S200000x1 (constantI S_ 32 0#32))) (cmpi .sle I (broadcastInDim S200000x1 ![0, 1] bcast_S1x1_S200000x1_0_1 (broadcastInDim S1x1 ![1] bcast_S1_S1x1_1 (constantI S1 32 49999#32))))) (constantI S_ 1 1#1) reducesTo_S200000x1_S200000_d1 h_S_)

theorem takeMask_one (d : IVec S200000 32) (h : InRange d) (j : S200000x128.Idx) : takeMask (wrapIdx d) j = 1#1 := by
  unfold takeMask
  show Host.reduce IntOp.andi _ _ _ _ _ = 1#1
  refine reduce_andi_one _ _ _ _ rfl (fun i => ?_) _
  exact word_ok _ (wrapIdx_inRange d h i).1 (wrapIdx_inRange d h i).2

theorem take_core {α : Type} (d : IVec S200000 32) (h : InRange d) (g fill : S200000x128.Idx → α) :
    select (takeMask (wrapIdx d)) g fill = g := by
  funext j
  rw [select_apply, takeMask_one d h j, select_one]

def takeVal (x : FVec Ideal S50000x128 .f32) (d : IVec S200000 32) : FVec Ideal S200000x128 .f32 :=
  select (takeMask (wrapIdx d)) (Host.gather gather_S50000x128_S200000x1_S200000x128_1_0_n_n_0_1_1128 x (wrapIdx d))
    (broadcastInDim S200000x128 ![] bcast_S_S200000x128 (constant (F := Ideal) S_ .f32 0x7FC00000#32))

variable (m : (ℓ : Loc nD τ sig) → Buf (Elt Ideal) ℓ) (ρ : Dev nD → PrngReg) (c : Dev nD)

theorem idx_dst : W3 m ρ c (Proc.devRef .tc main_v6)
    = shapeCast S200000 (extractStridedSlice S1x200000 ![1, 0] (m ((c : Thread nD τ).loc main_arg22)) slices_S2x200000_S1x200000_1_0) shapeCasts_S1x200000_S200000 := by
  show StableHlo.after hostOps1 (W2 m ρ c) (Proc.devRef .tc main_v6) = _
  after_results
  rw [K0_2 m ρ c main_arg22 (by decide)]
  rfl

theorem idx_src : W3 m ρ c (Proc.devRef .tc main_v4)
    = shapeCast S200000 (extractStridedSlice S1x200000 ![0, 0] (m ((c : Thread nD τ).loc main_arg22)) slices_S2x200000_S1x200000_0_0) shapeCasts_S1x200000_S200000 := by
  show StableHlo.after hostOps1 (W2 m ρ c) (Proc.devRef .tc main_v4) = _
  after_results
  rw [K0_2 m ρ c main_arg22 (by decide)]
  rfl

theorem takeVal_v7 (V : Valuation τ sig (Elt Ideal)) :
    StableHlo.after hostOps1_1 V (Proc.devRef .tc main_v7)
      = takeVal (V (Proc.devRef .tc main_v2)) (V (Proc.devRef .tc main_v6)) := by
  after_results_simp
  simp only [StableHlo.TRef.ofBuf, StableHlo.TRef.toBuf, cast_cast, cast_eq]
  rfl

theorem takeVal_v8 (V : Valuation τ sig (Elt Ideal)) :
    StableHlo.after hostOps1_2 V (Proc.devRef .tc main_v8)
      = takeVal (V (Proc.devRef .tc main_v2)) (V (Proc.devRef .tc main_v4)) := by
  after_results_simp
  simp only [StableHlo.TRef.ofBuf, StableHlo.TRef.toBuf, cast_cast, cast_eq]
  rfl

theorem takeVal_v50 (V : Valuation τ sig (Elt Ideal)) :
    StableHlo.after hostOps3 V (Proc.devRef .tc main_v50)
      = takeVal (V (Proc.devRef .tc main_v49)) (V (Proc.devRef .tc main_v6)) := by
  after_results_simp
  simp only [StableHlo.TRef.ofBuf, StableHlo.TRef.toBuf, cast_cast, cast_eq]
  rfl

theorem takeVal_v51 (V : Valuation τ sig (Elt Ideal)) :
    StableHlo.after hostOps3_1 V (Proc.devRef .tc main_v51)
      = takeVal (V (Proc.devRef .tc main_v49)) (V (Proc.devRef .tc main_v4)) := by
  after_results_simp
  simp only [StableHlo.TRef.ofBuf, StableHlo.TRef.toBuf, cast_cast, cast_eq]
  rfl

theorem takeVal_v93 (V : Valuation τ sig (Elt Ideal)) :
    StableHlo.after hostOps5 V (Proc.devRef .tc main_v93)
      = takeVal (V (Proc.devRef .tc main_v92)) (V (Proc.devRef .tc main_v6)) := by
  after_results_simp
  simp only [StableHlo.TRef.ofBuf, StableHlo.TRef.toBuf, cast_cast, cast_eq]
  rfl

theorem takeVal_v94 (V : Valuation τ sig (Elt Ideal)) :
    StableHlo.after hostOps5_1 V (Proc.devRef .tc main_v94)
      = takeVal (V (Proc.devRef .tc main_v92)) (V (Proc.devRef .tc main_v4)) := by
  after_results_simp
  simp only [StableHlo.TRef.ofBuf, StableHlo.TRef.toBuf, cast_cast, cast_eq]
  rfl

theorem take0_dst (h : InRange (W3 m ρ c (Proc.devRef .tc main_v6))) :
    V6 m ρ c main_v7 = Host.gather gather_S50000x128_S200000x1_S200000x128_1_0_n_n_0_1_1128 (V2 m ρ c main_v2) (wrapIdx (W3 m ρ c (Proc.devRef .tc main_v6))) := by
  refine (K4_6 m ρ c main_v7 (by decide)).trans ((takeVal_v7 (W3 m ρ c)).trans ?_)
  rw [K2_3 m ρ c main_v2 (by decide)]
  exact take_core _ h _ _

theorem take0_src (h : InRange (W3 m ρ c (Proc.devRef .tc main_v4))) :
    V6 m ρ c main_v8 = Host.gather gather_S50000x128_S200000x1_S200000x128_1_0_n_n_0_1_1128 (V2 m ρ c main_v2) (wrapIdx (W3 m ρ c (Proc.devRef .tc main_v4))) := by
  refine (K5_6 m ρ c main_v8 (by decide)).trans ((takeVal_v8 (W4 m ρ c)).trans ?_)
  rw [K2_4 m ρ c main_v2 (by decide), K3_4 m ρ c main_v4 (by decide)]
  exact take_core _ h _ _

theorem take1_dst (h : InRange (W3 m ρ c (Proc.devRef .tc main_v6))) :
    V12 m ρ c main_v50 = Host.gather gather_S50000x128_S200000x1_S200000x128_1_0_n_n_0_1_1128 (V9 m ρ c main_v49) (wrapIdx (W3 m ρ c (Proc.devRef .tc main_v6))) := by
  refine (K10_12 m ρ c main_v50 (by decide)).trans ((takeVal_v50 (W9 m ρ c)).trans ?_)
  rw [K3_9 m ρ c main_v6 (by decide)]
  exact take_core _ h _ _

theorem take1_src (h : InRange (W3 m ρ c (Proc.devRef .tc main_v4))) :
    V12 m ρ c main_v51 = Host.gather gather_S50000x128_S200000x1_S200000x128_1_0_n_n_0_1_1128 (V9 m ρ c main_v49) (wrapIdx (W3 m ρ c (Proc.devRef .tc main_v4))) := by
  refine (K11_12 m ρ c main_v51 (by decide)).trans ((takeVal_v51 (W10 m ρ c)).trans ?_)
  rw [K9_10 m ρ c main_v49 (by decide), K3_10 m ρ c main_v4 (by decide)]
  exact take_core _ h _ _

theorem take2_dst (h : InRange (W3 m ρ c (Proc.devRef .tc main_v6))) :
    V18 m ρ c main_v93 = Host.gather gather_S50000x128_S200000x1_S200000x128_1_0_n_n_0_1_1128 (V15 m ρ c main_v92) (wrapIdx (W3 m ρ c (Proc.devRef .tc main_v6))) := by
  refine (K16_18 m ρ c main_v93 (by decide)).trans ((takeVal_v93 (W15 m ρ c)).trans ?_)
  rw [K3_15 m ρ c main_v6 (by decide)]
  exact take_core _ h _ _

theorem take2_src (h : InRange (W3 m ρ c (Proc.devRef .tc main_v4))) :
    V18 m ρ c main_v94 = Host.gather gather_S50000x128_S200000x1_S200000x128_1_0_n_n_0_1_1128 (V15 m ρ c main_v92) (wrapIdx (W3 m ρ c (Proc.devRef .tc main_v4))) := by
  refine (K17_18 m ρ c main_v94 (by decide)).trans ((takeVal_v94 (W16 m ρ c)).trans ?_)
  rw [K15_16 m ρ c main_v92 (by decide), K3_16 m ρ c main_v4 (by decide)]
  exact take_core _ h _ _

section Pre

variable [Cert.Pre_finite_inputs.Facts]

theorem arg22_inRange (hpre : Cert.Pre_KernelIdeal m) (k : S2x200000.Idx) :
    0 ≤ (m ((c : Thread nD τ).loc main_arg22) k).toInt ∧ (m ((c : Thread nD τ).loc main_arg22) k).toInt < 50000 := by

  haveI : Subsingleton Cert.Pre_finite_inputs.S_.Idx := ⟨fun a b => funext fun d => d.elim0⟩
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  have e2 := (IntOp.andi_eq_one.1 e).2
  have e3 := IntOp.andi_eq_one.1 (Host.reduce_andi_all _ _ _ _ _ e2 k)
  have h0 : (0#32 : BitVec 32).toInt ≤ (m ((c : Thread nD τ).loc main_arg22) k).toInt := IntOp.cmpi_sge.1 e3.1
  have h1 : (m ((c : Thread nD τ).loc main_arg22) k).toInt < (50000#32 : BitVec 32).toInt := IntOp.cmpi_slt.1 e3.2
  rw [show (0#32 : BitVec 32).toInt = 0 from by decide] at h0
  rw [show (50000#32 : BitVec 32).toInt = 50000 from by decide] at h1
  exact ⟨h0, h1⟩

theorem range_of_pre (hpre : Cert.Pre_KernelIdeal m) :
    InRange (W3 m ρ c (Proc.devRef .tc main_v6)) ∧ InRange (W3 m ρ c (Proc.devRef .tc main_v4)) := by
  refine ⟨?_, ?_⟩
  · rw [idx_dst]; intro e; exact arg22_inRange m c hpre _
  · rw [idx_src]; intro e; exact arg22_inRange m c hpre _

end Pre

end Cert.KernelIdeal.HostVal

end
-- ==== Proof.KScat.lean ====
/-
  The host operations between the regions: the messages summed into their destination rows, and after the last round
  the mean over each graph's nodes.
-/
import proofs.«426174_j75376676045031_2_alg».proof.Proof.KSkip
import proofs.«426174_j75376676045031_2_alg».proof.Proof.Spec
import proofs.«426174_j75376676045031_2_alg».proof.Proof.Params

set_option maxRecDepth 16384

noncomputable section

namespace Cert.KernelIdeal.HostVal

open Cert.KernelIdeal Cert.KernelIdeal.Gen Cert.Gnn Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

theorem scat0 :
    V8 m ρ c main_v36
      = Host.scatterAdd (F := Ideal) scatter_S50000x128_S200000x1_S200000x128_1_0_0_1
          (broadcastInDim S50000x128 ![] bcast_S_S50000x128 (constant (F := Ideal) S_ .f32 0x00000000#32))
          (broadcastInDim S200000x1 ![0] bcast_S200000_S200000x1_0 (W3 m ρ c (Proc.devRef .tc main_v6)))
          (V7 m ρ c main_v33) := by
  show StableHlo.after hostOps2 (W7 m ρ c) (Proc.devRef .tc main_v36) = _
  after_results
  rw [K3_7 m ρ c main_v6 (by decide)]
  rfl

theorem x_at8 : V8 m ρ c main_v2 = V2 m ρ c main_v2 := K2_8 m ρ c main_v2 (by decide)

theorem scat1 :
    V14 m ρ c main_v79
      = Host.scatterAdd (F := Ideal) scatter_S50000x128_S200000x1_S200000x128_1_0_0_1
          (broadcastInDim S50000x128 ![] bcast_S_S50000x128 (constant (F := Ideal) S_ .f32 0x00000000#32))
          (broadcastInDim S200000x1 ![0] bcast_S200000_S200000x1_0 (W3 m ρ c (Proc.devRef .tc main_v6)))
          (V13 m ρ c main_v76) := by
  show StableHlo.after hostOps4 (W13 m ρ c) (Proc.devRef .tc main_v79) = _
  after_results
  rw [K3_13 m ρ c main_v6 (by decide)]
  rfl

theorem x_at14 : V14 m ρ c main_v49 = V9 m ρ c main_v49 := K9_14 m ρ c main_v49 (by decide)

theorem scat2 :
    V20 m ρ c main_v122
      = Host.scatterAdd (F := Ideal) scatter_S50000x128_S200000x1_S200000x128_1_0_0_1
          (broadcastInDim S50000x128 ![] bcast_S_S50000x128 (constant (F := Ideal) S_ .f32 0x00000000#32))
          (broadcastInDim S200000x1 ![0] bcast_S200000_S200000x1_0 (W3 m ρ c (Proc.devRef .tc main_v6)))
          (V19 m ρ c main_v119) := by
  show StableHlo.after hostOps6 (W19 m ρ c) (Proc.devRef .tc main_v122) = _
  after_results
  rw [K3_19 m ρ c main_v6 (by decide)]
  rfl

theorem x_at20 : V20 m ρ c main_v92 = V15 m ρ c main_v92 := K15_20 m ρ c main_v92 (by decide)

def poolOf (x : Vec Ideal S50000x128 .f32) (batch : IVec S50000 32) : Vec Ideal S16x128 .f32 :=
  Host.divf (F := Ideal)
    (Host.scatterAdd (F := Ideal) scatter_S16x128_S50000x1_S50000x128_1_0_0_1
      (broadcastInDim S16x128 ![] bcast_S_S16x128 (constant (F := Ideal) S_ .f32 0x00000000#32))
      (broadcastInDim S50000x1 ![0] bcast_S50000_S50000x1_0 batch)
      x)
    (broadcastInDim S16x128 ![0, 1] bcast_S16x1_S16x128_0_1
      (maximumf (F := Ideal)
        (Host.scatterAdd (F := Ideal) scatter_S16x1_S50000x1_S50000x1_1_0_0_1
          (broadcastInDim S16x1 ![] bcast_S_S16x1 (constant (F := Ideal) S_ .f32 0x00000000#32))
          (broadcastInDim S50000x1 ![0] bcast_S50000_S50000x1_0 batch)
          (broadcastInDim S50000x1 ![] bcast_S_S50000x1 (constant (F := Ideal) S_ .f32 0x3F800000#32)))
        (broadcastInDim S16x1 ![] bcast_S_S16x1 (constant (F := Ideal) S_ .f32 0x3F800000#32))))

theorem pooled :
    V22 m ρ c main_v146 = poolOf (V21 m ρ c main_v135) (m ((c : Thread nD τ).loc main_arg23)) := by
  show StableHlo.after hostOps7 (W21 m ρ c) (Proc.devRef .tc main_v146) = _
  after_results
  rw [K0_21 m ρ c main_arg23 (by decide)]
  rfl

theorem out0 : V2 m ρ c main_v2 = (dat0 (V1 m ρ) c).arrAt 5 cfg0.N := W2_arr m ρ c 5

theorem out1 : V7 m ρ c main_v33 = (dat1 (V6 m ρ) c).arrAt 13 cfg1.N := W7_arr m ρ c 13

theorem out2 : V9 m ρ c main_v49 = (dat2 (V8 m ρ) c).arrAt 7 cfg2.N := W9_arr m ρ c 7

theorem out3 : V13 m ρ c main_v76 = (dat3 (V12 m ρ) c).arrAt 13 cfg3.N := W13_arr m ρ c 13

theorem out4 : V15 m ρ c main_v92 = (dat4 (V14 m ρ) c).arrAt 7 cfg4.N := W15_arr m ρ c 7

theorem out5 : V19 m ρ c main_v119 = (dat5 (V18 m ρ) c).arrAt 13 cfg5.N := W19_arr m ρ c 13

theorem out6 : V21 m ρ c main_v135 = (dat6 (V20 m ρ) c).arrAt 7 cfg6.N := W21_arr m ρ c 7

theorem out7 : V23 m ρ c main_v149 = (dat7 (V22 m ρ) c).arrAt 5 cfg7.N := W23_arr m ρ c 5

end Cert.KernelIdeal.HostVal

end
-- ==== Proof.RStage0.lean ====
/-
  The reference's node encoder, its pooling and its readout as whole arrays.
-/
import proofs.«426174_j75376676045031_2_alg».proof.Proof.RefBase
import proofs.«426174_j75376676045031_2_alg».proof.Proof.Spec
import proofs.«426174_j75376676045031_2_alg».proof.Proof.Params

set_option maxRecDepth 16384

noncomputable section

namespace Cert.ReferenceIdeal.StageVal

open Cert.ReferenceIdeal Cert.ReferenceIdeal.Gen Cert.ReferenceIdeal.Read Cert.Gnn
open Idealize.ShloMosaic Idealize.ShloMosaic.TcCoe Idealize.SL.Sem Idealize.ShloMosaic.StableHlo Idealize.ShloMosaic.ValueIdx

theorem x0_eq (a0 : (⟨S50000x4, .f32⟩ : BufTy).Contents (Elt Ideal)) (a2 : (⟨S4x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) :
    val_main_v8 (F := Ideal) a0 a2 a3 a4 a5
      = unc (mlp2 (cur a0) (cur a2) (cur1 a3) (cur a4) (cur1 a5)) := by
  funext i
  obtain ⟨r, n, rfl⟩ : ∃ (r : Fin 50000) (n : Fin 128), i = ix2 r n := ⟨i 0, i 1, eq_ix2 i⟩

  have el1 : ∀ k : Fin 128, lidx_main_v5 (ix2 r n) k = ix2 r k := fun k =>
    funext fun a => Fin.ext (by match a with | ⟨0, _⟩ => rfl | ⟨1, _⟩ => rfl)
  have er1 : ∀ k : Fin 128, ridx_main_v5 (ix2 r n) k = ix2 k n := fun k =>
    funext fun a => Fin.ext (by match a with | ⟨0, _⟩ => rfl | ⟨1, _⟩ => rfl)
  have el0 : ∀ (k : Fin 128) (q : Fin 4), lidx_main_v0 (ix2 r k) q = ix2 r q := fun k q =>
    funext fun a => Fin.ext (by match a with | ⟨0, _⟩ => rfl | ⟨1, _⟩ => rfl)
  have er0 : ∀ (k : Fin 128) (q : Fin 4), ridx_main_v0 (ix2 r k) q = ix2 q k := fun k q =>
    funext fun a => Fin.ext (by match a with | ⟨0, _⟩ => rfl | ⟨1, _⟩ => rfl)
  have eb0 : ∀ k : Fin 128, idx_main_v1 (idx_main_v2 (ix2 r k)) = ix1 k := fun k =>
    funext fun a => Fin.ext (by match a with | ⟨0, _⟩ => rfl)
  have eb1 : idx_main_v6 (idx_main_v7 (ix2 r n)) = ix1 n :=
    funext fun a => Fin.ext (by match a with | ⟨0, _⟩ => rfl)
  simp only [val_main_v8_apply, val_main_v5_apply, val_main_v7_apply, val_main_v6_apply, val_main_v4_apply,
    val_main_v3_apply, val_main_v0_apply, val_main_v2_apply, val_main_v1_apply, val_main_call0_v0_apply,
    val_main_call0_cst_apply, el1, er1, el0, er0, eb0, eb1,
    Ideal.addf_def, Ideal.maximumf_def, Ideal.ofBits_def, Ideal.ofBits_zero_f32,
    unc_apply, mlp2, dense, Cert.Gnn.relu, cur, cur1]

theorem out_eq (a0 : (⟨S50000x4, .f32⟩ : BufTy).Contents (Elt Ideal)) (a1 : (⟨S200000x1, .f32⟩ : BufTy).Contents (Elt Ideal)) (a2 : (⟨S4x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x1x128, .f32⟩ : BufTy).Contents (Elt Ideal)) (a7 : (⟨S3x128, .f32⟩ : BufTy).Contents (Elt Ideal)) (a8 : (⟨S3x128x128, .f32⟩ : BufTy).Contents (Elt Ideal)) (a9 : (⟨S3x128, .f32⟩ : BufTy).Contents (Elt Ideal)) (a10 : (⟨S3x384x128, .f32⟩ : BufTy).Contents (Elt Ideal)) (a11 : (⟨S3x128, .f32⟩ : BufTy).Contents (Elt Ideal)) (a12 : (⟨S3x128x128, .f32⟩ : BufTy).Contents (Elt Ideal)) (a13 : (⟨S3x128, .f32⟩ : BufTy).Contents (Elt Ideal)) (a14 : (⟨S3x256x128, .f32⟩ : BufTy).Contents (Elt Ideal)) (a15 : (⟨S3x128, .f32⟩ : BufTy).Contents (Elt Ideal)) (a16 : (⟨S3x128x128, .f32⟩ : BufTy).Contents (Elt Ideal)) (a17 : (⟨S3x128, .f32⟩ : BufTy).Contents (Elt Ideal)) (a18 : (⟨S128x128, .f32⟩ : BufTy).Contents (Elt Ideal)) (a19 : (⟨S128, .f32⟩ : BufTy).Contents (Elt Ideal)) (a20 : (⟨S128x128, .f32⟩ : BufTy).Contents (Elt Ideal)) (a21 : (⟨S128, .f32⟩ : BufTy).Contents (Elt Ideal)) (a22 : (⟨S2x200000, .i32⟩ : BufTy).Contents (Elt Ideal)) (a23 : (⟨S50000, .i32⟩ : BufTy).Contents (Elt Ideal)) :
    val_main_v242 (F := Ideal) a0 a1 a2 a3 a4 a5 a6 a7 a8 a9 a10 a11 a12 a13 a14 a15 a16 a17 a18 a19 a20 a21 a22 a23
      = unc (mlp2 (cur (val_main_v233 (F := Ideal) a0 a1 a2 a3 a4 a5 a6 a7 a8 a9 a10 a11 a12 a13 a14 a15 a16 a17 a22 a23))
          (cur a18) (cur1 a19) (cur a20) (cur1 a21)) := by
  funext i
  obtain ⟨r, n, rfl⟩ : ∃ (r : Fin 16) (n : Fin 128), i = ix2 r n := ⟨i 0, i 1, eq_ix2 i⟩
  have el1 : ∀ k : Fin 128, lidx_main_v239 (ix2 r n) k = ix2 r k := fun k =>
    funext fun a => Fin.ext (by match a with | ⟨0, _⟩ => rfl | ⟨1, _⟩ => rfl)
  have er1 : ∀ k : Fin 128, ridx_main_v239 (ix2 r n) k = ix2 k n := fun k =>
    funext fun a => Fin.ext (by match a with | ⟨0, _⟩ => rfl | ⟨1, _⟩ => rfl)
  have el0 : ∀ (k q : Fin 128), lidx_main_v234 (ix2 r k) q = ix2 r q := fun k q =>
    funext fun a => Fin.ext (by match a with | ⟨0, _⟩ => rfl | ⟨1, _⟩ => rfl)
  have er0 : ∀ (k q : Fin 128), ridx_main_v234 (ix2 r k) q = ix2 q k := fun k q =>
    funext fun a => Fin.ext (by match a with | ⟨0, _⟩ => rfl | ⟨1, _⟩ => rfl)
  have eb0 : ∀ k : Fin 128, idx_main_v235 (idx_main_v236 (ix2 r k)) = ix1 k := fun k =>
    funext fun a => Fin.ext (by match a with | ⟨0, _⟩ => rfl)
  have eb1 : idx_main_v240 (idx_main_v241 (ix2 r n)) = ix1 n :=
    funext fun a => Fin.ext (by match a with | ⟨0, _⟩ => rfl)
  simp only [val_main_v242_apply, val_main_v239_apply, val_main_v241_apply, val_main_v240_apply, val_main_v238_apply,
    val_main_v237_apply, val_main_v234_apply, val_main_v236_apply, val_main_v235_apply, val_main_call10_v0_apply,
    val_main_call10_cst_apply, el1, er1, el0, er0, eb0, eb1,
    Ideal.addf_def, Ideal.maximumf_def, Ideal.ofBits_def, Ideal.ofBits_zero_f32,
    unc_apply, mlp2, dense, Cert.Gnn.relu, cur, cur1]

def poolOfR (x : (⟨S50000x128, .f32⟩ : BufTy).Contents (Elt Ideal)) (batch : (⟨S50000, .i32⟩ : BufTy).Contents (Elt Ideal)) :
    (⟨S16x128, .f32⟩ : BufTy).Contents (Elt Ideal) :=
  Host.divf (F := Ideal) (φ := .f32)
    (Host.scatterAdd (F := Ideal) (φ := .f32) scatter_S16x128_S50000x1_S50000x128_1_0_0_1
      (broadcastInDim S16x128 ![] bcast_S_S16x128 (constant (F := Ideal) S_ .f32 0x00000000#32))
      (broadcastInDim S50000x1 ![0] bcast_S50000_S50000x1_0 batch)
      x)
    (broadcastInDim S16x128 ![0, 1] bcast_S16x1_S16x128_0_1
      (maximumf (F := Ideal) (φ := .f32)
        (Host.scatterAdd (F := Ideal) (φ := .f32) scatter_S16x1_S50000x1_S50000x1_1_0_0_1
          (broadcastInDim S16x1 ![] bcast_S_S16x1 (constant (F := Ideal) S_ .f32 0x00000000#32))
          (broadcastInDim S50000x1 ![0] bcast_S50000_S50000x1_0 batch)
          (broadcastInDim S50000x1 ![] bcast_S_S50000x1 (constant (F := Ideal) S_ .f32 0x3F800000#32)))
        (broadcastInDim S16x1 ![] bcast_S_S16x1 (constant (F := Ideal) S_ .f32 0x3F800000#32))))

theorem pooled_eq (a0 : (⟨S50000x4, .f32⟩ : BufTy).Contents (Elt Ideal)) (a1 : (⟨S200000x1, .f32⟩ : BufTy).Contents (Elt Ideal)) (a2 : (⟨S4x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x1x128, .f32⟩ : BufTy).Contents (Elt Ideal)) (a7 : (⟨S3x128, .f32⟩ : BufTy).Contents (Elt Ideal)) (a8 : (⟨S3x128x128, .f32⟩ : BufTy).Contents (Elt Ideal)) (a9 : (⟨S3x128, .f32⟩ : BufTy).Contents (Elt Ideal)) (a10 : (⟨S3x384x128, .f32⟩ : BufTy).Contents (Elt Ideal)) (a11 : (⟨S3x128, .f32⟩ : BufTy).Contents (Elt Ideal)) (a12 : (⟨S3x128x128, .f32⟩ : BufTy).Contents (Elt Ideal)) (a13 : (⟨S3x128, .f32⟩ : BufTy).Contents (Elt Ideal)) (a14 : (⟨S3x256x128, .f32⟩ : BufTy).Contents (Elt Ideal)) (a15 : (⟨S3x128, .f32⟩ : BufTy).Contents (Elt Ideal)) (a16 : (⟨S3x128x128, .f32⟩ : BufTy).Contents (Elt Ideal)) (a17 : (⟨S3x128, .f32⟩ : BufTy).Contents (Elt Ideal)) (a22 : (⟨S2x200000, .i32⟩ : BufTy).Contents (Elt Ideal)) (a23 : (⟨S50000, .i32⟩ : BufTy).Contents (Elt Ideal)) :
    val_main_v233 (F := Ideal) a0 a1 a2 a3 a4 a5 a6 a7 a8 a9 a10 a11 a12 a13 a14 a15 a16 a17 a22 a23
      = poolOfR (val_main_v222 (F := Ideal) a0 a1 a2 a3 a4 a5 a6 a7 a8 a9 a10 a11 a12 a13 a14 a15 a16 a17 a22) a23 := rfl

end Cert.ReferenceIdeal.StageVal

end
-- ==== Proof.RMsg0.lean ====
/-
  Round 0's message layer of the reference as one array: the encoded edge attribute and the two gathered node arrays
  side by side through a two-layer perceptron.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Cert.ReferenceIdeal Cert.ReferenceIdeal.Gen Cert.ReferenceIdeal.Read Cert.Gnn
open Idealize.ShloMosaic Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace M0

theorem concat3_lo {α : Type} (x y z : S200000x128.Idx → α) (r : Fin 200000) (j : Fin 384) (h : j.val < 128) :
    concatenate S200000x384 1 [⟨S200000x128, x⟩, ⟨S200000x128, y⟩, ⟨S200000x128, z⟩]
        concatenates_S200000x128_S200000x128_S200000x128_S200000x384_d1 (ix2 r j)
      = x (ix2 r ⟨j.val, h⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 0 (show 0 < 3 by omega) S200000x128 x rfl rfl 0 rfl
    (ix2 r ⟨j.val, h⟩) ?_ ?_
  · intro b hb
    match b with
    | ⟨0, _⟩ => rfl
    | ⟨1, _⟩ => exact absurd rfl hb
  · show 0 + j.val = j.val
    omega

theorem concat3_mid {α : Type} (x y z : S200000x128.Idx → α) (r : Fin 200000) (j : Fin 384) (h1 : ¬ j.val < 128)
    (h2 : j.val < 256) :
    concatenate S200000x384 1 [⟨S200000x128, x⟩, ⟨S200000x128, y⟩, ⟨S200000x128, z⟩]
        concatenates_S200000x128_S200000x128_S200000x128_S200000x384_d1 (ix2 r j)
      = y (ix2 r ⟨j.val - 128, by omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 1 (show 1 < 3 by omega) S200000x128 y rfl rfl 128 rfl
    (ix2 r ⟨j.val - 128, by omega⟩) ?_ ?_
  · intro b hb
    match b with
    | ⟨0, _⟩ => rfl
    | ⟨1, _⟩ => exact absurd rfl hb
  · show 128 + (j.val - 128) = j.val
    omega

theorem concat3_hi {α : Type} (x y z : S200000x128.Idx → α) (r : Fin 200000) (j : Fin 384) (h2 : ¬ j.val < 256) :
    concatenate S200000x384 1 [⟨S200000x128, x⟩, ⟨S200000x128, y⟩, ⟨S200000x128, z⟩]
        concatenates_S200000x128_S200000x128_S200000x128_S200000x384_d1 (ix2 r j)
      = z (ix2 r ⟨j.val - 256, by have := j.isLt; omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 2 (show 2 < 3 by omega) S200000x128 z rfl rfl 256 rfl
    (ix2 r ⟨j.val - 256, by have := j.isLt; omega⟩) ?_ ?_
  · intro b hb
    match b with
    | ⟨0, _⟩ => rfl
    | ⟨1, _⟩ => exact absurd rfl hb
  · show 256 + (j.val - 256) = j.val
    omega

theorem concat3_apply (x y z : S200000x128.Idx → EReal) (r : Fin 200000) (j : Fin 384) :
    concatenate S200000x384 1 [⟨S200000x128, x⟩, ⟨S200000x128, y⟩, ⟨S200000x128, z⟩]
        concatenates_S200000x128_S200000x128_S200000x128_S200000x384_d1 (ix2 r j)
      = cat3 (cur x) (cur y) (cur z) r j := by
  unfold cat3 cur
  split
  · next h => exact concat3_lo x y z r j h
  · split
    · next h h2 => exact concat3_mid x y z r j h h2
    · next h h2 => exact concat3_hi x y z r j h2

theorem wEncA_at (k : Fin 1) (n : Fin 128) : val_main_v14 (F := Ideal) a6 (ix2 k n) = slab 0 a6 k n := by
  rw [val_main_v14_apply, val_main_v13_apply]
  unfold slab
  exact congrArg a6 (funext fun a => Fin.ext (by
    match a with
    | ⟨0, _⟩ => rfl
    | ⟨1, _⟩ => have := k.isLt; show 0 = k.val; omega
    | ⟨2, _⟩ => have := k.isLt; have := n.isLt; show (k.val * 128 + n.val) % 128 = n.val; omega))

theorem bEncA_at (r : Fin 200000) (n : Fin 128) : val_main_v23 (F := Ideal) a7 (ix2 r n) = brow 0 a7 n := by
  rw [val_main_v23_apply, val_main_v22_apply, val_main_v16_apply, val_main_v15_apply]
  unfold brow
  exact congrArg a7 (funext fun a => Fin.ext (by
    match a with
    | ⟨0, _⟩ => rfl
    | ⟨1, _⟩ => have := n.isLt; show n.val % 128 = n.val; omega))

theorem wEncB_at (k n : Fin 128) : val_main_v18 (F := Ideal) a8 (ix2 k n) = slab 0 a8 k n := by
  rw [val_main_v18_apply, val_main_v17_apply]
  unfold slab
  exact congrArg a8 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

theorem bEncB_at (r : Fin 200000) (n : Fin 128) : val_main_v28 (F := Ideal) a9 (ix2 r n) = brow 0 a9 n := by
  rw [val_main_v28_apply, val_main_v27_apply, val_main_v20_apply, val_main_v19_apply]
  unfold brow
  exact congrArg a9 (funext fun a => Fin.ext (by
    match a with
    | ⟨0, _⟩ => rfl
    | ⟨1, _⟩ => have := n.isLt; show n.val % 128 = n.val; omega))

theorem wMsgA_at (k : Fin 384) (n : Fin 128) : val_main_v46 (F := Ideal) a10 (ix2 k n) = slab 0 a10 k n := by
  rw [val_main_v46_apply, val_main_v45_apply]
  unfold slab
  exact congrArg a10 (funext fun a => Fin.ext (by
    match a with
    | ⟨0, _⟩ => rfl
    | ⟨1, _⟩ => have := k.isLt; have := n.isLt; show (k.val * 128 + n.val) / 128 % 384 = k.val; omega
    | ⟨2, _⟩ => have := k.isLt; have := n.isLt; show (k.val * 128 + n.val) % 128 = n.val; omega))

theorem bMsgA_at (r : Fin 200000) (n : Fin 128) : val_main_v55 (F := Ideal) a11 (ix2 r n) = brow 0 a11 n := by
  rw [val_main_v55_apply, val_main_v54_apply, val_main_v48_apply, val_main_v47_apply]
  unfold brow
  exact congrArg a11 (funext fun a => Fin.ext (by
    match a with
    | ⟨0, _⟩ => rfl
    | ⟨1, _⟩ => have := n.isLt; show n.val % 128 = n.val; omega))

theorem wMsgB_at (k n : Fin 128) : val_main_v50 (F := Ideal) a12 (ix2 k n) = slab 0 a12 k n := by
  rw [val_main_v50_apply, val_main_v49_apply]
  unfold slab
  exact congrArg a12 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

theorem bMsgB_at (r : Fin 200000) (n : Fin 128) : val_main_v60 (F := Ideal) a13 (ix2 r n) = brow 0 a13 n := by
  rw [val_main_v60_apply, val_main_v59_apply, val_main_v52_apply, val_main_v51_apply]
  unfold brow
  exact congrArg a13 (funext fun a => Fin.ext (by
    match a with
    | ⟨0, _⟩ => rfl
    | ⟨1, _⟩ => have := n.isLt; show n.val % 128 = n.val; omega))

theorem zeroEnc_at (i : S200000x128.Idx) : val_main_call1_v0 (F := Ideal) i = (0 : EReal) := by
  rw [val_main_call1_v0_apply, val_main_call1_cst_apply, Ideal.ofBits_def, Ideal.ofBits_zero_f32]

theorem zeroMsg_at (i : S200000x128.Idx) : val_main_call2_v0 (F := Ideal) i = (0 : EReal) := by
  rw [val_main_call2_v0_apply, val_main_call2_cst_apply, Ideal.ofBits_def, Ideal.ofBits_zero_f32]

theorem encLin_at (r : Fin 200000) (n : Fin 128) :
    val_main_v21 (F := Ideal) a1 a6 (ix2 r n) = ∑ k : Fin 1, cur a1 r k * slab 0 a6 k n := by
  rw [val_main_v21_apply]
  refine Finset.sum_congr rfl fun k _ => ?_
  have el : lidx_main_v21 (ix2 r n) k = ix2 r k :=
    funext fun a => Fin.ext (by match a with | ⟨0, _⟩ => rfl | ⟨1, _⟩ => rfl)
  have er : ridx_main_v21 (ix2 r n) k = ix2 k n :=
    funext fun a => Fin.ext (by match a with | ⟨0, _⟩ => rfl | ⟨1, _⟩ => rfl)
  rw [el, er, wEncA_at]
  rfl

theorem enc_eq :
    val_main_v29 (F := Ideal) a1 a6 a7 a8 a9 = unc (mlp2 (cur a1) (slab 0 a6) (brow 0 a7) (slab 0 a8) (brow 0 a9)) := by
  funext i
  obtain ⟨r, n, rfl⟩ : ∃ (r : Fin 200000) (n : Fin 128), i = ix2 r n := ⟨i 0, i 1, eq_ix2 i⟩
  rw [val_main_v29_apply, val_main_v26_apply, bEncB_at, Ideal.addf_def]
  show _ = (∑ k : Fin 128, max ((∑ k' : Fin 1, cur a1 r k' * slab 0 a6 k' k) + brow 0 a7 k) 0 * slab 0 a8 k n)
    + brow 0 a9 n
  congr 1
  refine Finset.sum_congr rfl fun k _ => ?_
  have el : lidx_main_v26 (ix2 r n) k = ix2 r k :=
    funext fun a => Fin.ext (by match a with | ⟨0, _⟩ => rfl | ⟨1, _⟩ => rfl)
  have er : ridx_main_v26 (ix2 r n) k = ix2 k n :=
    funext fun a => Fin.ext (by match a with | ⟨0, _⟩ => rfl | ⟨1, _⟩ => rfl)
  rw [el, er, wEncB_at, val_main_v25_apply, val_main_v24_apply, encLin_at, bEncA_at, zeroEnc_at, Ideal.maximumf_def,
    Ideal.addf_def]

theorem cat_at (r : Fin 200000) (j : Fin 384) :
    val_main_v44 (F := Ideal) a0 a1 a2 a3 a4 a5 a6 a7 a8 a9 a22 (ix2 r j)
      = (cat3 (cur (val_main_v36 (F := Ideal) a0 a2 a3 a4 a5 a22)) (cur (val_main_v43 (F := Ideal) a0 a2 a3 a4 a5 a22)) (mlp2 (cur a1) (slab 0 a6) (brow 0 a7) (slab 0 a8) (brow 0 a9))) r j := by
  unfold val_main_v44
  rw [concat3_apply, enc_eq, cur_unc]

theorem msgLin_at (r : Fin 200000) (n : Fin 128) :
    val_main_v53 (F := Ideal) a0 a1 a2 a3 a4 a5 a6 a7 a8 a9 a10 a22 (ix2 r n)
      = ∑ j : Fin 384, (cat3 (cur (val_main_v36 (F := Ideal) a0 a2 a3 a4 a5 a22)) (cur (val_main_v43 (F := Ideal) a0 a2 a3 a4 a5 a22)) (mlp2 (cur a1) (slab 0 a6) (brow 0 a7) (slab 0 a8) (brow 0 a9))) r j * slab 0 a10 j n := by
  rw [val_main_v53_apply]
  refine Finset.sum_congr rfl fun j _ => ?_
  have el : lidx_main_v53 (ix2 r n) j = ix2 r j :=
    funext fun a => Fin.ext (by match a with | ⟨0, _⟩ => rfl | ⟨1, _⟩ => rfl)
  have er : ridx_main_v53 (ix2 r n) j = ix2 j n :=
    funext fun a => Fin.ext (by match a with | ⟨0, _⟩ => rfl | ⟨1, _⟩ => rfl)
  rw [el, er, wMsgA_at, cat_at]

end M0

theorem m0_eq :
    val_main_v61 (F := Ideal) a0 a1 a2 a3 a4 a5 a6 a7 a8 a9 a10 a11 a12 a13 a22
      = unc (mlp2 (cat3 (cur (val_main_v36 (F := Ideal) a0 a2 a3 a4 a5 a22)) (cur (val_main_v43 (F := Ideal) a0 a2 a3 a4 a5 a22)) (mlp2 (cur a1) (slab 0 a6) (brow 0 a7) (slab 0 a8) (brow 0 a9)))
          (slab 0 a10) (brow 0 a11) (slab 0 a12) (brow 0 a13)) := by
  funext i
  obtain ⟨r, n, rfl⟩ : ∃ (r : Fin 200000) (n : Fin 128), i = ix2 r n := ⟨i 0, i 1, eq_ix2 i⟩
  rw [val_main_v61_apply, val_main_v58_apply, M0.bMsgB_at, Ideal.addf_def]
  show _ = (∑ k : Fin 128, max ((∑ j : Fin 384, (cat3 (cur (val_main_v36 (F := Ideal) a0 a2 a3 a4 a5 a22)) (cur (val_main_v43 (F := Ideal) a0 a2 a3 a4 a5 a22)) (mlp2 (cur a1) (slab 0 a6) (brow 0 a7) (slab 0 a8) (brow 0 a9))) r j * slab 0 a10 j k) + brow 0 a11 k) 0 * slab 0 a12 k n)
    + brow 0 a13 n
  congr 1
  refine Finset.sum_congr rfl fun k _ => ?_
  have el : lidx_main_v58 (ix2 r n) k = ix2 r k :=
    funext fun a => Fin.ext (by match a with | ⟨0, _⟩ => rfl | ⟨1, _⟩ => rfl)
  have er : ridx_main_v58 (ix2 r n) k = ix2 k n :=
    funext fun a => Fin.ext (by match a with | ⟨0, _⟩ => rfl | ⟨1, _⟩ => rfl)
  rw [el, er, M0.wMsgB_at, val_main_v57_apply, val_main_v56_apply, M0.msgLin_at, M0.bMsgA_at, M0.zeroMsg_at,
    Ideal.maximumf_def, Ideal.addf_def]

end Cert.ReferenceIdeal.StageVal

end
-- ==== Proof.RUpd0.lean ====
/-
  Round 0's update layer of the reference as one array: the node array and the summed messages side by side through a
  two-layer perceptron.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Finset Cert.ReferenceIdeal Cert.ReferenceIdeal.Gen Cert.ReferenceIdeal.Read Cert.Gnn Idealize.ShloMosaic
  Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace U0

theorem cat_apply (x y : (⟨S50000x128, .f32⟩ : BufTy).Contents (Elt Ideal))
    (h : Shape.Concatenates [S50000x128, S50000x128] S50000x256 1) (r : Fin 50000) (j : Fin 256) :
    concatenate S50000x256 1 [⟨S50000x128, x⟩, ⟨S50000x128, y⟩] h (ix2 r j) = cat2 (cur x) (cur y) r j := by
  unfold cat2
  by_cases hj : j.val < 128
  · rw [dif_pos hj]
    exact concatenate_pair_apply_left (1 : Fin S50000x256.rank) x y h (ix2 r j) rfl (ix2 r ⟨j.val, hj⟩)
      (fun b => match b with | ⟨0, _⟩ => rfl | ⟨1, _⟩ => rfl)
  · rw [dif_neg hj]
    exact concatenate_pair_apply_right (1 : Fin S50000x256.rank) x y h (ix2 r j) rfl rfl
      (ix2 r ⟨j.val - 128, by have := j.isLt; omega⟩)
      (fun b hb => match b, hb with | ⟨0, _⟩, _ => rfl | ⟨1, _⟩, hb => absurd rfl hb)
      (by show j.val - 128 + 128 = j.val; omega)

theorem out_apply {M K H N : Nat} (x : Mat M K) (W0 : Mat K H) (b0 : Fin H → EReal) (W1 : Mat H N) (b1 : Fin N → EReal)
    (r : Fin M) (n : Fin N) :
    unc (mlp2 x W0 b0 W1 b1) (ix2 r n) = (∑ k : Fin H, relu (dense x W0 b0) r k * W1 k n) + b1 n := rfl

theorem hid_apply {M K H : Nat} (x : Mat M K) (W0 : Mat K H) (b0 : Fin H → EReal) (r : Fin M) (k : Fin H) :
    relu (dense x W0 b0) r k = max ((∑ j : Fin K, x r j * W0 j k) + b0 k) 0 := rfl

theorem joined (r : Fin 50000) (j : Fin 256) :
    val_main_v65 (F := Ideal) a0 a1 a2 a3 a4 a5 a6 a7 a8 a9 a10 a11 a12 a13 a22 (ix2 r j) = cat2 (cur (val_main_v8 (F := Ideal) a0 a2 a3 a4 a5)) (cur (val_main_v64 (F := Ideal) a0 a1 a2 a3 a4 a5 a6 a7 a8 a9 a10 a11 a12 a13 a22)) r j := by
  unfold val_main_v65
  exact cat_apply _ _ _ r j

theorem w_first (k : Fin 256) (n : Fin 128) : val_main_v67 (F := Ideal) a14 (ix2 k n) = slab 0 a14 k n := by
  rw [val_main_v67_apply, val_main_v66_apply]
  unfold slab
  exact congrArg a14 (funext fun a => Fin.ext (by
    have hk := k.isLt
    have hn := n.isLt
    match a with
    | ⟨0, _⟩ => rfl
    | ⟨1, _⟩ => show (k.val * 128 + n.val) / 128 % 256 = k.val; omega
    | ⟨2, _⟩ => show (k.val * 128 + n.val) % 128 = n.val; omega))

theorem w_second (k : Fin 128) (n : Fin 128) : val_main_v71 (F := Ideal) a16 (ix2 k n) = slab 0 a16 k n := by
  rw [val_main_v71_apply, val_main_v70_apply]
  unfold slab
  exact congrArg a16 (funext fun a => Fin.ext (by
    have hk := k.isLt
    have hn := n.isLt
    match a with
    | ⟨0, _⟩ => rfl
    | ⟨1, _⟩ => show (k.val * 128 + n.val) / 128 % 128 = k.val; omega
    | ⟨2, _⟩ => show (k.val * 128 + n.val) % 128 = n.val; omega))

theorem b_first (r : Fin 50000) (n : Fin 128) : val_main_v76 (F := Ideal) a15 (ix2 r n) = brow 0 a15 n := by
  rw [val_main_v76_apply, val_main_v75_apply, val_main_v69_apply, val_main_v68_apply]
  unfold brow
  exact congrArg a15 (funext fun a => Fin.ext (by
    match a with
    | ⟨0, _⟩ => rfl
    | ⟨1, _⟩ => exact Nat.mod_eq_of_lt n.isLt))

theorem b_second (r : Fin 50000) (n : Fin 128) : val_main_v81 (F := Ideal) a17 (ix2 r n) = brow 0 a17 n := by
  rw [val_main_v81_apply, val_main_v80_apply, val_main_v73_apply, val_main_v72_apply]
  unfold brow
  exact congrArg a17 (funext fun a => Fin.ext (by
    match a with
    | ⟨0, _⟩ => rfl
    | ⟨1, _⟩ => exact Nat.mod_eq_of_lt n.isLt))

theorem lidx_first (r : Fin 50000) (k : Fin 128) (j : Fin 256) : lidx_main_v74 (ix2 r k) j = ix2 r j :=
  funext fun a => Fin.ext (by match a with | ⟨0, _⟩ => rfl | ⟨1, _⟩ => rfl)

theorem ridx_first (r : Fin 50000) (k : Fin 128) (j : Fin 256) : ridx_main_v74 (ix2 r k) j = ix2 j k :=
  funext fun a => Fin.ext (by match a with | ⟨0, _⟩ => rfl | ⟨1, _⟩ => rfl)

theorem lidx_second (r : Fin 50000) (n : Fin 128) (k : Fin 128) : lidx_main_v79 (ix2 r n) k = ix2 r k :=
  funext fun a => Fin.ext (by match a with | ⟨0, _⟩ => rfl | ⟨1, _⟩ => rfl)

theorem ridx_second (r : Fin 50000) (n : Fin 128) (k : Fin 128) : ridx_main_v79 (ix2 r n) k = ix2 k n :=
  funext fun a => Fin.ext (by match a with | ⟨0, _⟩ => rfl | ⟨1, _⟩ => rfl)

theorem hidden (r : Fin 50000) (k : Fin 128) :
    val_main_v78 (F := Ideal) a0 a1 a2 a3 a4 a5 a6 a7 a8 a9 a10 a11 a12 a13 a14 a15 a22 (ix2 r k)
      = relu (dense (cat2 (cur (val_main_v8 (F := Ideal) a0 a2 a3 a4 a5)) (cur (val_main_v64 (F := Ideal) a0 a1 a2 a3 a4 a5 a6 a7 a8 a9 a10 a11 a12 a13 a22))) (slab 0 a14) (brow 0 a15)) r k := by
  rw [hid_apply, val_main_v78_apply, val_main_v77_apply, val_main_v74_apply, val_main_call3_v0_apply,
    val_main_call3_cst_apply, Ideal.maximumf_def, Ideal.addf_def, Ideal.ofBits_def, Ideal.ofBits_zero_f32, b_first]
  refine congrArg (fun s => max (s + brow 0 a15 k) 0) (Finset.sum_congr rfl fun j _ => ?_)
  rw [lidx_first, ridx_first, joined, w_first]

end U0

theorem x1_eq :
    val_main_v82 (F := Ideal) a0 a1 a2 a3 a4 a5 a6 a7 a8 a9 a10 a11 a12 a13 a14 a15 a16 a17 a22
      = unc (mlp2 (cat2 (cur (val_main_v8 (F := Ideal) a0 a2 a3 a4 a5)) (cur (val_main_v64 (F := Ideal) a0 a1 a2 a3 a4 a5 a6 a7 a8 a9 a10 a11 a12 a13 a22))) (slab 0 a14) (brow 0 a15) (slab 0 a16) (brow 0 a17)) := by
  funext i
  obtain ⟨r, n, rfl⟩ : ∃ (r : Fin 50000) (n : Fin 128), i = ix2 r n := ⟨i 0, i 1, eq_ix2 i⟩
  rw [U0.out_apply, val_main_v82_apply, val_main_v79_apply, Ideal.addf_def, U0.b_second]
  refine congrArg (fun s => s + brow 0 a17 n) (Finset.sum_congr rfl fun k _ => ?_)
  rw [U0.lidx_second, U0.ridx_second, U0.hidden, U0.w_second]

end Cert.ReferenceIdeal.StageVal

end
-- ==== Proof.Join0.lean ====
/-
  The initial node array and round 0: equal node arrays entering the round give equal node arrays leaving it.
-/
import proofs.«426174_j75376676045031_2_alg».proof.Proof.KReg0
import proofs.«426174_j75376676045031_2_alg».proof.Proof.KReg1
import proofs.«426174_j75376676045031_2_alg».proof.Proof.KReg2
import proofs.«426174_j75376676045031_2_alg».proof.Proof.KHostW
import proofs.«426174_j75376676045031_2_alg».proof.Proof.KTake
import proofs.«426174_j75376676045031_2_alg».proof.Proof.KScat
import proofs.«426174_j75376676045031_2_alg».proof.Proof.RefBase
import proofs.«426174_j75376676045031_2_alg».proof.Proof.RStage0
import proofs.«426174_j75376676045031_2_alg».proof.Proof.RMsg0
import proofs.«426174_j75376676045031_2_alg».proof.Proof.RUpd0

set_option maxRecDepth 16384

set_option quotPrecheck false

noncomputable section

namespace Cert.Proof.Join

open Idealize.ShloMosaic Idealize.ShloMosaic.TcCoe Idealize.SL.Sem Idealize.ShloMosaic.ValueIdx
open Cert.KernelIdeal Cert.KernelIdeal.Gen Cert.KernelIdeal.RegVal Cert.KernelIdeal.HostVal Cert.Gnn
open Cert.ReferenceIdeal.StageVal

variable (m : (ℓ : Loc nD τ sig) → Buf (Elt Ideal) ℓ) (ρ : Dev nD → PrngReg) (c : Dev nD)

local notation "𝔞" b => m ((c : Thread nD τ).loc b)

theorem x0_join : V2 m ρ c main_v2 = (Cert.ReferenceIdeal.Read.val_main_v8 (F := Ideal) (𝔞 main_arg0) (𝔞 main_arg2) (𝔞 main_arg3) (𝔞 main_arg4) (𝔞 main_arg5)) := by
  rw [out0, region0_value, b1_arg0, b1_arg2, b1_arg4, b1_v0, b1_v1]
  exact (x0_eq _ _ _ _ _).symm

local notation "kX" => V2 m ρ c main_v2
local notation "rX" => (Cert.ReferenceIdeal.Read.val_main_v8 (F := Ideal) (𝔞 main_arg0) (𝔞 main_arg2) (𝔞 main_arg3) (𝔞 main_arg4) (𝔞 main_arg5))
local notation "rGd" => (Cert.ReferenceIdeal.Read.val_main_v36 (F := Ideal) (𝔞 main_arg0) (𝔞 main_arg2) (𝔞 main_arg3) (𝔞 main_arg4) (𝔞 main_arg5) (𝔞 main_arg22))
local notation "rGs" => (Cert.ReferenceIdeal.Read.val_main_v43 (F := Ideal) (𝔞 main_arg0) (𝔞 main_arg2) (𝔞 main_arg3) (𝔞 main_arg4) (𝔞 main_arg5) (𝔞 main_arg22))
local notation "kM" => V7 m ρ c main_v33
local notation "rM" => (Cert.ReferenceIdeal.Read.val_main_v61 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg22))
local notation "kAgg" => V8 m ρ c main_v36
local notation "rAgg" => (Cert.ReferenceIdeal.Read.val_main_v64 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg22))
local notation "kXn" => V9 m ρ c main_v49
local notation "rXn" => (Cert.ReferenceIdeal.Read.val_main_v82 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))

theorem gd0_join (hx : kX = rX) :
    Host.gather gather_S50000x128_S200000x1_S200000x128_1_0_n_n_0_1_1128 kX (wrapIdx (W3 m ρ c (Proc.devRef .tc main_v6))) = rGd := by
  rw [hx, idx_dst]; rfl

theorem gs0_join (hx : kX = rX) :
    Host.gather gather_S50000x128_S200000x1_S200000x128_1_0_n_n_0_1_1128 kX (wrapIdx (W3 m ρ c (Proc.devRef .tc main_v4))) = rGs := by
  rw [hx, idx_src]; rfl

set_option maxHeartbeats 1000000 in

theorem m0_join (hr : InRange (W3 m ρ c (Proc.devRef .tc main_v6)) ∧ InRange (W3 m ρ c (Proc.devRef .tc main_v4)))
    (hx : kX = rX) : kM = rM := by
  rw [out1, region1_value (V6 m ρ) c, take0_dst m ρ c hr.1, take0_src m ρ c hr.2, gd0_join m ρ c hx, gs0_join m ρ c hx,
    b6_arg1, b6_v16, b6_v29, b6_v20, b6_v30, b6_v10, b6_v12, b6_v14, b6_v31, b6_v26, b6_v32, msgSplit_eq]
  exact (m0_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg22)).symm

theorem agg0_join (hm : kM = rM) : kAgg = rAgg := by
  rw [scat0, hm, idx_dst]; rfl

set_option maxHeartbeats 1000000 in

theorem x1_join (hx : kX = rX) (hagg : kAgg = rAgg) : kXn = rXn := by
  rw [out2, region2_value (V8 m ρ) c, x_at8, hx, hagg, b8_v38, b8_v40, b8_v47, b8_v44, b8_v48, updSplit_eq]
  exact (x1_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)).symm

end Cert.Proof.Join

end
-- ==== Proof.KReg3.lean ====
/-
  Region 3: round 1's message region, the same function of its own arrays as round 0's;
  the facts about matrix products are round 0's.
-/
import proofs.«426174_j75376676045031_2_alg».proof.Proof.KReg1
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx Idealize.ShloMosaic.TcCoe

variable (V : (c : Dev nD) → (b : Ref sig .tc) → Buf (Elt Ideal) ((c : Thread nD τ).loc b))

namespace R3

open R1 (matmul128_apply matmul1_apply ofBits0 msg_congr)

theorem pay2_apply (v0 v2 : Vec Ideal S10000x128 .f32) (v4 : Vec Ideal S10000x1 .f32) (v5 v8 : Vec Ideal S1x128 .f32)
    (v14 : Vec Ideal S128x128 .f32) (v17 : Vec Ideal S1x128 .f32) (v21 v23 v25 : Vec Ideal S128x128 .f32)
    (p : Fin 10000) (q : Fin 128) :
    k3_pay2 (F := Ideal) v0 v2 v4 v5 v8 v14 v17 v21 v23 v25 (ix2 p q)
      = (∑ k : Fin 128, v0 (ix2 p k) * v21 (ix2 k q)) + (∑ k : Fin 128, v2 (ix2 p k) * v23 (ix2 k q))
        + ∑ k : Fin 128, ((∑ k' : Fin 128, max ((∑ j : Fin 1, v4 (ix2 p j) * v5 (ix2 j k')) + v8 (ix2 (0 : Fin 1) k')) 0
            * v14 (ix2 k' k)) + v17 (ix2 (0 : Fin 1) k)) * v25 (ix2 k q) := by
  unfold k3_pay2
  simp only [addf_apply, maximumf_apply, broadcast_apply, shapeCast_self, matmul128_apply, matmul1_apply,
    broadcastTo_1b_ab_apply, ofBits0]

theorem pay1_apply (v31 : FVec Ideal S10000x128 .f32) (v32 : Vec Ideal S1x128 .f32) (v38 : Vec Ideal S128x128 .f32)
    (v41 : Vec Ideal S1x128 .f32) (p : Fin 10000) (q : Fin 128) :
    k3_pay1 (F := Ideal) v31 v32 v38 v41 (ix2 p q)
      = (∑ k : Fin 128, max (v31 (ix2 p k) + v32 (ix2 (0 : Fin 1) k)) 0 * v38 (ix2 k q)) + v41 (ix2 (0 : Fin 1) q) := by
  unfold k3_pay1
  simp only [addf_apply, maximumf_apply, broadcast_apply, shapeCast_self, matmul128_apply,
    broadcastTo_1b_ab_apply, ofBits0]

theorem point_eq (x0 x1 : Vec Ideal S10000x128 .f32) (x2 : Vec Ideal S10000x1 .f32) (x3 x4 : Vec Ideal S1x128 .f32)
    (x5 : Vec Ideal S128x128 .f32) (x6 : Vec Ideal S1x128 .f32) (x7 x8 x9 : Vec Ideal S128x128 .f32)
    (x10 : Vec Ideal S1x128 .f32) (x11 : Vec Ideal S128x128 .f32) (x12 : Vec Ideal S1x128 .f32)
    (p : Fin 10000) (q : Fin 128) :
    k3_pay1 (F := Ideal) (k3_pay2 (F := Ideal) x0 x1 x2 x3 x4 x5 x6 x7 x8 x9) x10 x11 x12 (ix2 p q)
      = msgSplit (cur x0) (cur x1) (mlp2 (cur x2) (cur x3) (row x4) (cur x5) (row x6)) (cur x7) (cur x8) (cur x9)
          (row x10) (cur x11) (row x12) p q := by
  rw [pay1_apply]
  simp only [pay2_apply]
  simp only [msgSplit, mlp2, dense, relu, cur, row]

theorem hz : (![0, 0] : Fin 2 → Nat) = fun _ => 0 := funext fun a => by
  match a with
  | ⟨0, _⟩ => rfl
  | ⟨1, _⟩ => rfl

theorem idx0 : ∀ t : Fin cfg3.N, win3_0.index t (0 : Fin 2) = t.val ∧ win3_0.index t (1 : Fin 2) = 0 :=
  (by decide +kernel : ∀ t : Fin grid3.N, _)
theorem idx1 : ∀ t : Fin cfg3.N, win3_1.index t (0 : Fin 2) = t.val ∧ win3_1.index t (1 : Fin 2) = 0 :=
  (by decide +kernel : ∀ t : Fin grid3.N, _)
theorem idx2 : ∀ t : Fin cfg3.N, win3_2.index t (0 : Fin 2) = t.val ∧ win3_2.index t (1 : Fin 2) = 0 :=
  (by decide +kernel : ∀ t : Fin grid3.N, _)
theorem idx3 : ∀ t : Fin cfg3.N, win3_3.index t (0 : Fin 2) = 0 ∧ win3_3.index t (1 : Fin 2) = 0 :=
  (by decide +kernel : ∀ t : Fin grid3.N, _)
theorem idx4 : ∀ t : Fin cfg3.N, win3_4.index t (0 : Fin 2) = 0 ∧ win3_4.index t (1 : Fin 2) = 0 :=
  (by decide +kernel : ∀ t : Fin grid3.N, _)
theorem idx5 : ∀ t : Fin cfg3.N, win3_5.index t (0 : Fin 2) = 0 ∧ win3_5.index t (1 : Fin 2) = 0 :=
  (by decide +kernel : ∀ t : Fin grid3.N, _)
theorem idx6 : ∀ t : Fin cfg3.N, win3_6.index t (0 : Fin 2) = 0 ∧ win3_6.index t (1 : Fin 2) = 0 :=
  (by decide +kernel : ∀ t : Fin grid3.N, _)
theorem idx7 : ∀ t : Fin cfg3.N, win3_7.index t (0 : Fin 2) = 0 ∧ win3_7.index t (1 : Fin 2) = 0 :=
  (by decide +kernel : ∀ t : Fin grid3.N, _)
theorem idx8 : ∀ t : Fin cfg3.N, win3_8.index t (0 : Fin 2) = 0 ∧ win3_8.index t (1 : Fin 2) = 0 :=
  (by decide +kernel : ∀ t : Fin grid3.N, _)
theorem idx9 : ∀ t : Fin cfg3.N, win3_9.index t (0 : Fin 2) = 0 ∧ win3_9.index t (1 : Fin 2) = 0 :=
  (by decide +kernel : ∀ t : Fin grid3.N, _)
theorem idx10 : ∀ t : Fin cfg3.N, win3_10.index t (0 : Fin 2) = 0 ∧ win3_10.index t (1 : Fin 2) = 0 :=
  (by decide +kernel : ∀ t : Fin grid3.N, _)
theorem idx11 : ∀ t : Fin cfg3.N, win3_11.index t (0 : Fin 2) = 0 ∧ win3_11.index t (1 : Fin 2) = 0 :=
  (by decide +kernel : ∀ t : Fin grid3.N, _)
theorem idx12 : ∀ t : Fin cfg3.N, win3_12.index t (0 : Fin 2) = 0 ∧ win3_12.index t (1 : Fin 2) = 0 :=
  (by decide +kernel : ∀ t : Fin grid3.N, _)
theorem idx13 : ∀ t : Fin cfg3.N, win3_13.index t (0 : Fin 2) = t.val ∧ win3_13.index t (1 : Fin 2) = 0 :=
  (by decide +kernel : ∀ t : Fin grid3.N, _)

theorem row_lt (t : Fin cfg3.N) (p : Fin 10000) : t.val * 10000 + p.val < 200000 := by
  have hN : cfg3.N = 20 := N_3
  have ht := t.isLt
  have hp := p.isLt
  omega

theorem blk0_read (c : Dev nD) (t : Fin cfg3.N) (p : Fin 10000) (k : Fin 128) :
    (iblk3 V c 0 t : S10000x128.Idx → EReal) (ix2 p k)
      = (V c main_v50 : S200000x128.Idx → EReal) (ix2 (⟨t.val * 10000 + p.val, row_lt t p⟩ : Fin 200000) k) := by
  obtain ⟨e0, e1⟩ := idx0 t
  show (V c main_v50 : S200000x128.Idx → EReal) (((cfg3.win 0).blk t).view.emb (ix2 p k)) = _
  refine congrArg (V c main_v50 : S200000x128.Idx → EReal) ?_
  funext a; apply Fin.ext
  match a with
  | ⟨0, _⟩ => show win3_0.index t (0 : Fin 2) * 10000 + 1 * p.val = t.val * 10000 + p.val; omega
  | ⟨1, _⟩ => show win3_0.index t (1 : Fin 2) * 128 + 1 * k.val = k.val; omega

theorem blk1_read (c : Dev nD) (t : Fin cfg3.N) (p : Fin 10000) (k : Fin 128) :
    (iblk3 V c 1 t : S10000x128.Idx → EReal) (ix2 p k)
      = (V c main_v51 : S200000x128.Idx → EReal) (ix2 (⟨t.val * 10000 + p.val, row_lt t p⟩ : Fin 200000) k) := by
  obtain ⟨e0, e1⟩ := idx1 t
  show (V c main_v51 : S200000x128.Idx → EReal) (((cfg3.win 1).blk t).view.emb (ix2 p k)) = _
  refine congrArg (V c main_v51 : S200000x128.Idx → EReal) ?_
  funext a; apply Fin.ext
  match a with
  | ⟨0, _⟩ => show win3_1.index t (0 : Fin 2) * 10000 + 1 * p.val = t.val * 10000 + p.val; omega
  | ⟨1, _⟩ => show win3_1.index t (1 : Fin 2) * 128 + 1 * k.val = k.val; omega

theorem blk2_read (c : Dev nD) (t : Fin cfg3.N) (p : Fin 10000) (k : Fin 1) :
    (iblk3 V c 2 t : S10000x1.Idx → EReal) (ix2 p k)
      = (V c main_arg1 : S200000x1.Idx → EReal) (ix2 (⟨t.val * 10000 + p.val, row_lt t p⟩ : Fin 200000) k) := by
  obtain ⟨e0, e1⟩ := idx2 t
  show (V c main_arg1 : S200000x1.Idx → EReal) (((cfg3.win 2).blk t).view.emb (ix2 p k)) = _
  refine congrArg (V c main_arg1 : S200000x1.Idx → EReal) ?_
  funext a; apply Fin.ext
  match a with
  | ⟨0, _⟩ => show win3_2.index t (0 : Fin 2) * 10000 + 1 * p.val = t.val * 10000 + p.val; omega
  | ⟨1, _⟩ => show win3_2.index t (1 : Fin 2) * 1 + 1 * k.val = k.val; omega

theorem blk3_eq (c : Dev nD) (t : Fin cfg3.N) :
    (iblk3 V c 3 t : S1x128.Idx → EReal) = (V c main_v59 : S1x128.Idx → EReal) := by
  obtain ⟨e0, e1⟩ := idx3 t
  funext y
  show (V c main_v59 : S1x128.Idx → EReal) (((cfg3.win 3).blk t).view.emb y) = _
  refine congrArg (V c main_v59 : S1x128.Idx → EReal) ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem blk4_eq (c : Dev nD) (t : Fin cfg3.N) :
    (iblk3 V c 4 t : S1x128.Idx → EReal) = (V c main_v72 : S1x128.Idx → EReal) := by
  obtain ⟨e0, e1⟩ := idx4 t
  funext y
  show (V c main_v72 : S1x128.Idx → EReal) (((cfg3.win 4).blk t).view.emb y) = _
  refine congrArg (V c main_v72 : S1x128.Idx → EReal) ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem blk5_eq (c : Dev nD) (t : Fin cfg3.N) :
    (iblk3 V c 5 t : S128x128.Idx → EReal) = (V c main_v63 : S128x128.Idx → EReal) := by
  obtain ⟨e0, e1⟩ := idx5 t
  funext y
  show (V c main_v63 : S128x128.Idx → EReal) (((cfg3.win 5).blk t).view.emb y) = _
  refine congrArg (V c main_v63 : S128x128.Idx → EReal) ?_
  funext a; apply Fin.ext
  match a with
  | ⟨0, _⟩ => show win3_5.index t (0 : Fin 2) * 128 + 1 * (y 0).val = (y 0).val; omega
  | ⟨1, _⟩ => show win3_5.index t (1 : Fin 2) * 128 + 1 * (y 1).val = (y 1).val; omega

theorem blk6_eq (c : Dev nD) (t : Fin cfg3.N) :
    (iblk3 V c 6 t : S1x128.Idx → EReal) = (V c main_v73 : S1x128.Idx → EReal) := by
  obtain ⟨e0, e1⟩ := idx6 t
  funext y
  show (V c main_v73 : S1x128.Idx → EReal) (((cfg3.win 6).blk t).view.emb y) = _
  refine congrArg (V c main_v73 : S1x128.Idx → EReal) ?_
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

theorem blk7_eq (c : Dev nD) (t : Fin cfg3.N) :
    (iblk3 V c 7 t : S128x128.Idx → EReal) = (V c main_v53 : S128x128.Idx → EReal) := by
  obtain ⟨e0, e1⟩ := idx7 t
  funext y
  show (V c main_v53 : S128x128.Idx → EReal) (((cfg3.win 7).blk t).view.emb y) = _
  refine congrArg (V c main_v53 : S128x128.Idx → EReal) ?_
  funext a; apply Fin.ext
  match a with
  | ⟨0, _⟩ => show win3_7.index t (0 : Fin 2) * 128 + 1 * (y 0).val = (y 0).val; omega
  | ⟨1, _⟩ => show win3_7.index t (1 : Fin 2) * 128 + 1 * (y 1).val = (y 1).val; omega

theorem blk8_eq (c : Dev nD) (t : Fin cfg3.N) :
    (iblk3 V c 8 t : S128x128.Idx → EReal) = (V c main_v55 : S128x128.Idx → EReal) := by
  obtain ⟨e0, e1⟩ := idx8 t
  funext y
  show (V c main_v55 : S128x128.Idx → EReal) (((cfg3.win 8).blk t).view.emb y) = _
  refine congrArg (V c main_v55 : S128x128.Idx → EReal) ?_
  funext a; apply Fin.ext
  match a with
  | ⟨0, _⟩ => show win3_8.index t (0 : Fin 2) * 128 + 1 * (y 0).val = (y 0).val; omega
  | ⟨1, _⟩ => show win3_8.index t (1 : Fin 2) * 128 + 1 * (y 1).val = (y 1).val; omega

theorem blk9_eq (c : Dev nD) (t : Fin cfg3.N) :
    (iblk3 V c 9 t : S128x128.Idx → EReal) = (V c main_v57 : S128x128.Idx → EReal) := by
  obtain ⟨e0, e1⟩ := idx9 t
  funext y
  show (V c main_v57 : S128x128.Idx → EReal) (((cfg3.win 9).blk t).view.emb y) = _
  refine congrArg (V c main_v57 : S128x128.Idx → EReal) ?_
  funext a; apply Fin.ext
  match a with
  | ⟨0, _⟩ => show win3_9.index t (0 : Fin 2) * 128 + 1 * (y 0).val = (y 0).val; omega
  | ⟨1, _⟩ => show win3_9.index t (1 : Fin 2) * 128 + 1 * (y 1).val = (y 1).val; omega

theorem blk10_eq (c : Dev nD) (t : Fin cfg3.N) :
    (iblk3 V c 10 t : S1x128.Idx → EReal) = (V c main_v74 : S1x128.Idx → EReal) := by
  obtain ⟨e0, e1⟩ := idx10 t
  funext y
  show (V c main_v74 : S1x128.Idx → EReal) (((cfg3.win 10).blk t).view.emb y) = _
  refine congrArg (V c main_v74 : S1x128.Idx → EReal) ?_
  funext a; apply Fin.ext
  match a with
  | ⟨0, _⟩ => show win3_10.index t (0 : Fin 2) * 1 + 1 * (y 0).val = (y 0).val; omega
  | ⟨1, _⟩ => show win3_10.index t (1 : Fin 2) * 128 + 1 * (y 1).val = (y 1).val; omega

theorem blk11_eq (c : Dev nD) (t : Fin cfg3.N) :
    (iblk3 V c 11 t : S128x128.Idx → EReal) = (V c main_v69 : S128x128.Idx → EReal) := by
  obtain ⟨e0, e1⟩ := idx11 t
  funext y
  show (V c main_v69 : S128x128.Idx → EReal) (((cfg3.win 11).blk t).view.emb y) = _
  refine congrArg (V c main_v69 : S128x128.Idx → EReal) ?_
  funext a; apply Fin.ext
  match a with
  | ⟨0, _⟩ => show win3_11.index t (0 : Fin 2) * 128 + 1 * (y 0).val = (y 0).val; omega
  | ⟨1, _⟩ => show win3_11.index t (1 : Fin 2) * 128 + 1 * (y 1).val = (y 1).val; omega

theorem blk12_eq (c : Dev nD) (t : Fin cfg3.N) :
    (iblk3 V c 12 t : S1x128.Idx → EReal) = (V c main_v75 : S1x128.Idx → EReal) := by
  obtain ⟨e0, e1⟩ := idx12 t
  funext y
  show (V c main_v75 : S1x128.Idx → EReal) (((cfg3.win 12).blk t).view.emb y) = _
  refine congrArg (V c main_v75 : S1x128.Idx → EReal) ?_
  funext a; apply Fin.ext
  match a with
  | ⟨0, _⟩ => show win3_12.index t (0 : Fin 2) * 1 + 1 * (y 0).val = (y 0).val; omega
  | ⟨1, _⟩ => show win3_12.index t (1 : Fin 2) * 128 + 1 * (y 1).val = (y 1).val; omega

abbrev G3 (c : Dev nD) : S200000x128.Idx → EReal :=
  unc (msgSplit (cur (V c main_v50 : S200000x128.Idx → EReal)) (cur (V c main_v51 : S200000x128.Idx → EReal))
      (mlp2 (cur (V c main_arg1 : S200000x1.Idx → EReal)) (cur (V c main_v59 : S1x128.Idx → EReal)) (row (V c main_v72 : S1x128.Idx → EReal))
        (cur (V c main_v63 : S128x128.Idx → EReal)) (row (V c main_v73 : S1x128.Idx → EReal)))
      (cur (V c main_v53 : S128x128.Idx → EReal)) (cur (V c main_v55 : S128x128.Idx → EReal)) (cur (V c main_v57 : S128x128.Idx → EReal))
      (row (V c main_v74 : S1x128.Idx → EReal)) (cur (V c main_v69 : S128x128.Idx → EReal)) (row (V c main_v75 : S1x128.Idx → EReal)))

theorem flushed_eq (c : Dev nD) (t : Fin cfg3.N) :
    (dat3 (F := Ideal) V c).flushed 13 t = ((cfg3.win 13).blk t).view.read (Elt Ideal) (G3 V c) := by
  show (cfg3.win 13).cut (grid3.coords t) ((dat3 (F := Ideal) V c).after 13 t) = _
  rw [after3_13]
  unfold out3_13
  rw [View.canon_unit_zero hz]
  simp only [View.ld_unit_zero (S := S10000x128) hz, View.ld_unit_zero (S := S10000x1) hz,
    View.ld_unit_zero (S := S1x128) hz, View.ld_unit_zero (S := S128x128) hz]
  funext j
  obtain ⟨p, q, rfl⟩ : ∃ (p : Fin 10000) (q : Fin 128), j = ix2 p q := ⟨j 0, j 1, eq_ix2 j⟩
  obtain ⟨e0, e1⟩ := idx13 t
  have hemb : ((cfg3.win 13).blk t).view.emb (ix2 p q)
      = (ix2 (⟨t.val * 10000 + p.val, row_lt t p⟩ : Fin 200000) q : S200000x128.Idx) := by
    funext a; apply Fin.ext
    match a with
    | ⟨0, _⟩ => show win3_13.index t (0 : Fin 2) * 10000 + 1 * p.val = t.val * 10000 + p.val; omega
    | ⟨1, _⟩ => show win3_13.index t (1 : Fin 2) * 128 + 1 * q.val = q.val; omega
  show k3_pay1 (F := Ideal) (k3_pay2 (F := Ideal) (iblk3 V c 0 t) (iblk3 V c 1 t) (iblk3 V c 2 t) (iblk3 V c 3 t) (iblk3 V c 4 t)
      (iblk3 V c 5 t) (iblk3 V c 6 t) (iblk3 V c 7 t) (iblk3 V c 8 t) (iblk3 V c 9 t)) (iblk3 V c 10 t) (iblk3 V c 11 t)
      (iblk3 V c 12 t) (ix2 p q) = unc (msgSplit (cur (V c main_v50 : S200000x128.Idx → EReal)) (cur (V c main_v51 : S200000x128.Idx → EReal))
      (mlp2 (cur (V c main_arg1 : S200000x1.Idx → EReal)) (cur (V c main_v59 : S1x128.Idx → EReal)) (row (V c main_v72 : S1x128.Idx → EReal))
        (cur (V c main_v63 : S128x128.Idx → EReal)) (row (V c main_v73 : S1x128.Idx → EReal)))
      (cur (V c main_v53 : S128x128.Idx → EReal)) (cur (V c main_v55 : S128x128.Idx → EReal)) (cur (V c main_v57 : S128x128.Idx → EReal))
      (row (V c main_v74 : S1x128.Idx → EReal)) (cur (V c main_v69 : S128x128.Idx → EReal)) (row (V c main_v75 : S1x128.Idx → EReal))) (((cfg3.win 13).blk t).view.emb (ix2 p q))
  rw [hemb, unc_apply]
  refine (point_eq (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) (iblk3 V c 12 t) p q).trans ?_
  exact msg_congr p (⟨t.val * 10000 + p.val, row_lt t p⟩ : Fin 200000) q
    (fun k => blk0_read V c t p k) (fun k => blk1_read V c t p k) (fun k => blk2_read V c t p k)
    (congrArg cur (blk3_eq V c t)) (congrArg row (blk4_eq V c t)) (congrArg cur (blk5_eq V c t))
    (congrArg row (blk6_eq V c t)) (congrArg cur (blk7_eq V c t)) (congrArg cur (blk8_eq V c t))
    (congrArg cur (blk9_eq V c t)) (congrArg row (blk10_eq V c t)) (congrArg cur (blk11_eq V c t))
    (congrArg row (blk12_eq V c t))

theorem mem_blk (t : Fin cfg3.N) (i : S200000x128.Idx) :
    i ∈ ((cfg3.win 13).blk t).view.set ↔ ∀ a : Fin 2, win3_13.index t a * S10000x128.size a ≤ (i a).val ∧ (i a).val < win3_13.index t a * S10000x128.size a + S10000x128.size a := by
  show i ∈ ((View.whole main_v76).slice (win3_13.rect t)).set ↔ _
  rw [View.set_slice_whole, Rect.mem_set_unit]
  exact Iff.rfl

theorem cover (i : S200000x128.Idx) :
    ∃ t : Fin cfg3.N, (cfg3.win 13).flush t = true ∧ i ∈ ((cfg3.win 13).blk t).view.set := by
  have hi0 : (i 0).val < 200000 := (i 0).isLt
  have hi1 : (i 1).val < 128 := (i 1).isLt
  have hN : cfg3.N = 20 := N_3
  obtain ⟨t, ht⟩ : ∃ t : Fin cfg3.N, t.val = (i 0).val / 10000 := ⟨⟨(i 0).val / 10000, by omega⟩, rfl⟩
  obtain ⟨e0, e1⟩ := idx13 t
  refine ⟨t, flush3_13 t, ?_⟩
  rw [mem_blk]
  intro a
  match a with
  | ⟨0, _⟩ => show win3_13.index t (0 : Fin 2) * 10000 ≤ (i 0).val ∧ (i 0).val < win3_13.index t (0 : Fin 2) * 10000 + 10000; omega
  | ⟨1, _⟩ => show win3_13.index t (1 : Fin 2) * 128 ≤ (i 1).val ∧ (i 1).val < win3_13.index t (1 : Fin 2) * 128 + 128; omega

end R3

theorem region3_value (c : Dev nD) :
    (dat3 (F := Ideal) V c).arrAt 13 cfg3.N
      = unc (msgSplit (cur (V c main_v50 : S200000x128.Idx → EReal)) (cur (V c main_v51 : S200000x128.Idx → EReal))
      (mlp2 (cur (V c main_arg1 : S200000x1.Idx → EReal)) (cur (V c main_v59 : S1x128.Idx → EReal)) (row (V c main_v72 : S1x128.Idx → EReal))
        (cur (V c main_v63 : S128x128.Idx → EReal)) (row (V c main_v73 : S1x128.Idx → EReal)))
      (cur (V c main_v53 : S128x128.Idx → EReal)) (cur (V c main_v55 : S128x128.Idx → EReal)) (cur (V c main_v57 : S128x128.Idx → EReal))
      (row (V c main_v74 : S1x128.Idx → EReal)) (cur (V c main_v69 : S128x128.Idx → EReal)) (row (V c main_v75 : S1x128.Idx → EReal))) :=
  (dat3 (F := Ideal) V c).arrAt_eq_of_cover 13 (R3.G3 V c) (fun t _ => R3.flushed_eq V c t) R3.cover

end Cert.KernelIdeal.RegVal

end
-- ==== Proof.KReg4.lean ====
/-
  Region 4: round 1's update region, the same function of its own arrays as round 0's;
  the facts about matrix products are round 0's.
-/
import proofs.«426174_j75376676045031_2_alg».proof.Proof.KReg2
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx
open Idealize.ShloMosaic.TcCoe

variable (V : (c : Dev nD) → (b : Ref sig .tc) → Buf (Elt Ideal) ((c : Thread nD τ).loc b))

namespace R4

open R2 (mm_apply updSplit_row)

theorem pay_apply (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) :
    k4_pay1 x0 x1 x2 x3 x4 x5 x6 (ix2 p q)
      = updSplit (cur x0) (cur x1) (cur x2) (cur x3) (row x4) (cur x5) (row x6) p q := by
  unfold k4_pay1
  simp only [shapeCast_self]
  have hz : Scalar.ofBits (F := Ideal) .f32 0x00000000#32 = 0 := Ideal.ofBits_zero_f32
  simp only [addf_apply, maximumf_apply, broadcast_apply, mm_apply, broadcastTo_1b_ab_apply, hz]
  rfl

theorem pay_point (A0 A1 : S50000x128.Idx → EReal) (A2 A3 : S128x128.Idx → EReal) (A4 : S1x128.Idx → EReal)
    (A5 : S128x128.Idx → EReal) (A6 : S1x128.Idx → EReal)
    (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) (r : Fin 50000)
    (h0 : ∀ k : Fin 128, x0 (ix2 p k) = A0 (ix2 r k)) (h1 : ∀ k : Fin 128, x1 (ix2 p k) = A1 (ix2 r k))
    (h2 : x2 = A2) (h3 : x3 = A3) (h4 : x4 = A4) (h5 : x5 = A5) (h6 : x6 = A6) :
    k4_pay1 x0 x1 x2 x3 x4 x5 x6 (ix2 p q)
      = updSplit (cur A0) (cur A1) (cur A2) (cur A3) (row A4) (cur A5) (row A6) r q := by
  subst h2 h3 h4 h5 h6
  rw [pay_apply]
  exact updSplit_row (cur x0) (cur x1) (cur A0) (cur A1) (cur x2) (cur x3) (row x4) (cur x5) (row x6) p r q
    (fun k => h0 k) (fun k => h1 k)

theorem hz : (![0, 0] : Fin 2 → Nat) = fun _ => 0 := funext fun a => by fin_cases a <;> rfl

abbrev G (c : Dev nD) : S50000x128.Idx → EReal :=
  unc (updSplit (cur (V c main_v49 : S50000x128.Idx → EReal)) (cur (V c main_v79 : S50000x128.Idx → EReal))
    (cur (V c main_v81 : S128x128.Idx → EReal)) (cur (V c main_v83 : S128x128.Idx → EReal))
    (row (V c main_v90 : S1x128.Idx → EReal)) (cur (V c main_v87 : S128x128.Idx → EReal))
    (row (V c main_v91 : S1x128.Idx → EReal)))

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem flushed_point (c : Dev nD) (t : Fin cfg4.N) (p : Fin 10000) (q : Fin 128) :
    k4_pay1 (iblk4 V c 0 t) (iblk4 V c 1 t) (iblk4 V c 2 t) (iblk4 V c 3 t) (iblk4 V c 4 t) (iblk4 V c 5 t)
        (iblk4 V c 6 t) (ix2 p q)
      = G V c (((cfg4.win 7).blk t).view.emb (ix2 p q)) := by
  obtain ⟨e00, e01, e10, e11, e20, e21, e30, e31, e40, e41, e50, e51, e60, e61, e70, e71⟩ := idx_facts t
  have ht : t.val < 5 := lt_of_lt_of_eq t.isLt N_4
  have hp : p.val < 10000 := p.isLt
  obtain ⟨r, hr⟩ : ∃ r : Fin 50000, r.val = t.val * 10000 + p.val := ⟨⟨t.val * 10000 + p.val, by omega⟩, rfl⟩
  have hR : ((cfg4.win 7).blk t).view.emb (ix2 p q) = ix2 r q := by
    funext a; apply Fin.ext
    match a with
    | ⟨0, _⟩ => show win4_7.index t (0 : Fin 2) * 10000 + 1 * p.val = r.val; omega
    | ⟨1, _⟩ => show win4_7.index t (1 : Fin 2) * 128 + 1 * q.val = q.val; omega
  rw [hR]
  refine pay_point (V c main_v49) (V c main_v79) (V c main_v81) (V c main_v83) (V c main_v90) (V c main_v87)
    (V c main_v91) (iblk4 V c 0 t) (iblk4 V c 1 t) (iblk4 V c 2 t) (iblk4 V c 3 t) (iblk4 V c 4 t) (iblk4 V c 5 t)
    (iblk4 V c 6 t) p q r ?_ ?_ ?_ ?_ ?_ ?_ ?_
  · intro k
    show V c main_v49 (((cfg4.win 0).blk t).view.emb (ix2 p k)) = V c main_v49 (ix2 r k)
    refine congrArg _ (funext fun a => Fin.ext ?_)
    match a with
    | ⟨0, _⟩ => show win4_0.index t (0 : Fin 2) * 10000 + 1 * p.val = r.val; omega
    | ⟨1, _⟩ => show win4_0.index t (1 : Fin 2) * 128 + 1 * k.val = k.val; omega
  · intro k
    show V c main_v79 (((cfg4.win 1).blk t).view.emb (ix2 p k)) = V c main_v79 (ix2 r k)
    refine congrArg _ (funext fun a => Fin.ext ?_)
    match a with
    | ⟨0, _⟩ => show win4_1.index t (0 : Fin 2) * 10000 + 1 * p.val = r.val; omega
    | ⟨1, _⟩ => show win4_1.index t (1 : Fin 2) * 128 + 1 * k.val = k.val; omega
  · funext y
    show V c main_v81 (((cfg4.win 2).blk t).view.emb y) = V c main_v81 y
    refine congrArg _ (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v83 (((cfg4.win 3).blk t).view.emb y) = V c main_v83 y
    refine congrArg _ (funext fun a => Fin.ext ?_)
    match a with
    | ⟨0, _⟩ => show win4_3.index t (0 : Fin 2) * 128 + 1 * (y 0).val = (y 0).val; omega
    | ⟨1, _⟩ => show win4_3.index t (1 : Fin 2) * 128 + 1 * (y 1).val = (y 1).val; omega
  · funext y
    show V c main_v90 (((cfg4.win 4).blk t).view.emb y) = V c main_v90 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 128 + 1 * (y 1).val = (y 1).val; omega
  · funext y
    show V c main_v87 (((cfg4.win 5).blk t).view.emb y) = V c main_v87 y
    refine congrArg _ (funext fun a => Fin.ext ?_)
    match a with
    | ⟨0, _⟩ => show win4_5.index t (0 : Fin 2) * 128 + 1 * (y 0).val = (y 0).val; omega
    | ⟨1, _⟩ => show win4_5.index t (1 : Fin 2) * 128 + 1 * (y 1).val = (y 1).val; omega
  · funext y
    show V c main_v91 (((cfg4.win 6).blk t).view.emb y) = V c main_v91 y
    refine congrArg _ (funext fun a => Fin.ext ?_)
    match a with
    | ⟨0, _⟩ => show win4_6.index t (0 : Fin 2) * 1 + 1 * (y 0).val = (y 0).val; omega
    | ⟨1, _⟩ => show win4_6.index t (1 : Fin 2) * 128 + 1 * (y 1).val = (y 1).val; omega

theorem flushed_eq (c : Dev nD) (t : Fin cfg4.N) :
    (dat4 (F := Ideal) V c).flushed 7 t = ((cfg4.win 7).blk t).view.read (Elt Ideal) (G V c) := by
  show (cfg4.win 7).cut (grid4.coords t) ((dat4 (F := Ideal) V c).after 7 t) = _
  rw [after4_7]
  unfold out4_7
  rw [View.canon_unit_zero hz]
  simp only [View.ld_unit_zero (S := S10000x128) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  exact flushed_point V c t p q

theorem mem_blk (t : Fin cfg4.N) (i : S50000x128.Idx) :
    i ∈ ((cfg4.win 7).blk t).view.set ↔ ∀ a : Fin 2, win4_7.index t a * S10000x128.size a ≤ (i a).val ∧ (i a).val < win4_7.index t a * S10000x128.size a + S10000x128.size a := by
  show i ∈ ((View.whole main_v92).slice (win4_7.rect t)).set ↔ _
  rw [View.set_slice_whole, Rect.mem_set_unit]
  exact Iff.rfl

theorem cover (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  obtain ⟨t, ht⟩ : ∃ t : Fin cfg4.N, t.val = (i 0).val / 10000 :=
    ⟨⟨(i 0).val / 10000, lt_of_lt_of_eq (by omega : (i 0).val / 10000 < 5) N_4.symm⟩, rfl⟩
  obtain ⟨-, -, -, -, -, -, -, -, -, -, -, -, -, -, e70, e71⟩ := idx_facts t
  refine ⟨t, flush4_7 t, ?_⟩
  rw [mem_blk]
  intro a
  match a with
  | ⟨0, _⟩ => show win4_7.index t (0 : Fin 2) * 10000 ≤ (i 0).val ∧ (i 0).val < win4_7.index t (0 : Fin 2) * 10000 + 10000; omega
  | ⟨1, _⟩ => show win4_7.index t (1 : Fin 2) * 128 ≤ (i 1).val ∧ (i 1).val < win4_7.index t (1 : Fin 2) * 128 + 128; omega

end R4

theorem region4_value (c : Dev nD) :
    (dat4 (F := Ideal) V c).arrAt 7 cfg4.N
      = unc (updSplit (cur (V c main_v49 : S50000x128.Idx → EReal)) (cur (V c main_v79 : S50000x128.Idx → EReal))
          (cur (V c main_v81 : S128x128.Idx → EReal)) (cur (V c main_v83 : S128x128.Idx → EReal))
          (row (V c main_v90 : S1x128.Idx → EReal)) (cur (V c main_v87 : S128x128.Idx → EReal))
          (row (V c main_v91 : S1x128.Idx → EReal))) :=
  (dat4 (F := Ideal) V c).arrAt_eq_of_cover 7 (R4.G V c) (fun t _ => R4.flushed_eq V c t) R4.cover

end Cert.KernelIdeal.RegVal

end
-- ==== Proof.RMsg1.lean ====
/-
  The message layer of round 1 in the reference program, read as one array. The edge attribute goes through a
  two-layer perceptron (a dense layer, the rectifier, a dense layer); the rows of the node array gathered at the
  edges' destinations and at their sources are set side by side with that encoded attribute, 128 columns each; the
  384 columns go through a second two-layer perceptron. The weights of round 1 are one slab of each stacked weight
  array and one row of each stacked bias array: a slice followed by a reshape reads exactly that slab or row, and a
  bias row is then repeated down the rows. Every operation is read at one row and one column; a product of matrices
  is the sum over the shared index, and the rectifier is the maximum with zero.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Cert.ReferenceIdeal Cert.ReferenceIdeal.Gen Cert.ReferenceIdeal.Read Cert.Gnn
open Idealize.ShloMosaic Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace M1

/-! ### Three arrays of 128 columns side by side, read at a row and a column -/

/-- A column below 128 falls in the first array, at the same column. -/
theorem concat3_lo {α : Type} (x y z : S200000x128.Idx → α) (r : Fin 200000) (j : Fin 384) (h : j.val < 128) :
    concatenate S200000x384 1 [⟨S200000x128, x⟩, ⟨S200000x128, y⟩, ⟨S200000x128, z⟩]
        concatenates_S200000x128_S200000x128_S200000x128_S200000x384_d1 (ix2 r j)
      = x (ix2 r ⟨j.val, h⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 0 (show 0 < 3 by omega) S200000x128 x rfl rfl 0 rfl
    (ix2 r ⟨j.val, h⟩) ?_ ?_
  · intro b hb
    match b with
    | ⟨0, _⟩ => rfl
    | ⟨1, _⟩ => exact absurd rfl hb
  · show 0 + j.val = j.val
    omega

/-- A column from 128 up to 255 falls in the second array, 128 columns to the left. -/
theorem concat3_mid {α : Type} (x y z : S200000x128.Idx → α) (r : Fin 200000) (j : Fin 384) (h1 : ¬ j.val < 128)
    (h2 : j.val < 256) :
    concatenate S200000x384 1 [⟨S200000x128, x⟩, ⟨S200000x128, y⟩, ⟨S200000x128, z⟩]
        concatenates_S200000x128_S200000x128_S200000x128_S200000x384_d1 (ix2 r j)
      = y (ix2 r ⟨j.val - 128, by omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 1 (show 1 < 3 by omega) S200000x128 y rfl rfl 128 rfl
    (ix2 r ⟨j.val - 128, by omega⟩) ?_ ?_
  · intro b hb
    match b with
    | ⟨0, _⟩ => rfl
    | ⟨1, _⟩ => exact absurd rfl hb
  · show 128 + (j.val - 128) = j.val
    omega

/-- A column from 256 on falls in the third array, 256 columns to the left. -/
theorem concat3_hi {α : Type} (x y z : S200000x128.Idx → α) (r : Fin 200000) (j : Fin 384) (h2 : ¬ j.val < 256) :
    concatenate S200000x384 1 [⟨S200000x128, x⟩, ⟨S200000x128, y⟩, ⟨S200000x128, z⟩]
        concatenates_S200000x128_S200000x128_S200000x128_S200000x384_d1 (ix2 r j)
      = z (ix2 r ⟨j.val - 256, by have := j.isLt; omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 2 (show 2 < 3 by omega) S200000x128 z rfl rfl 256 rfl
    (ix2 r ⟨j.val - 256, by have := j.isLt; omega⟩) ?_ ?_
  · intro b hb
    match b with
    | ⟨0, _⟩ => rfl
    | ⟨1, _⟩ => exact absurd rfl hb
  · show 256 + (j.val - 256) = j.val
    omega

/-- The three arrays side by side are the three matrices side by side. -/
theorem concat3_apply (x y z : S200000x128.Idx → EReal) (r : Fin 200000) (j : Fin 384) :
    concatenate S200000x384 1 [⟨S200000x128, x⟩, ⟨S200000x128, y⟩, ⟨S200000x128, z⟩]
        concatenates_S200000x128_S200000x128_S200000x128_S200000x384_d1 (ix2 r j)
      = cat3 (cur x) (cur y) (cur z) r j := by
  unfold cat3 cur
  split
  · next h => exact concat3_lo x y z r j h
  · split
    · next h h2 => exact concat3_mid x y z r j h h2
    · next h h2 => exact concat3_hi x y z r j h2

/-! ### The weights and biases of round 1 -/

/-- The first weight of the edge encoder: the slab of round 1, one row of 128 columns. -/
theorem wEncA_at (k : Fin 1) (n : Fin 128) : val_main_v84 (F := Ideal) a6 (ix2 k n) = slab 1 a6 k n := by
  rw [val_main_v84_apply, val_main_v83_apply]
  unfold slab
  exact congrArg a6 (funext fun a => Fin.ext (by
    match a with
    | ⟨0, _⟩ => rfl
    | ⟨1, _⟩ => have := k.isLt; show 0 = k.val; omega
    | ⟨2, _⟩ => have := k.isLt; have := n.isLt; show (k.val * 128 + n.val) % 128 = n.val; omega))

/-- The first bias of the edge encoder, repeated down the rows: the row of round 1. -/
theorem bEncA_at (r : Fin 200000) (n : Fin 128) : val_main_v93 (F := Ideal) a7 (ix2 r n) = brow 1 a7 n := by
  rw [val_main_v93_apply, val_main_v92_apply, val_main_v86_apply, val_main_v85_apply]
  unfold brow
  exact congrArg a7 (funext fun a => Fin.ext (by
    match a with
    | ⟨0, _⟩ => rfl
    | ⟨1, _⟩ => have := n.isLt; show n.val % 128 = n.val; omega))

/-- The second weight of the edge encoder: the slab of round 1. -/
theorem wEncB_at (k n : Fin 128) : val_main_v88 (F := Ideal) a8 (ix2 k n) = slab 1 a8 k n := by
  rw [val_main_v88_apply, val_main_v87_apply]
  unfold slab
  exact congrArg a8 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

/-- The second bias of the edge encoder, repeated down the rows: the row of round 1. -/
theorem bEncB_at (r : Fin 200000) (n : Fin 128) : val_main_v98 (F := Ideal) a9 (ix2 r n) = brow 1 a9 n := by
  rw [val_main_v98_apply, val_main_v97_apply, val_main_v90_apply, val_main_v89_apply]
  unfold brow
  exact congrArg a9 (funext fun a => Fin.ext (by
    match a with
    | ⟨0, _⟩ => rfl
    | ⟨1, _⟩ => have := n.isLt; show n.val % 128 = n.val; omega))

/-- The first weight of the message perceptron: the slab of round 1, 384 rows. -/
theorem wMsgA_at (k : Fin 384) (n : Fin 128) : val_main_v116 (F := Ideal) a10 (ix2 k n) = slab 1 a10 k n := by
  rw [val_main_v116_apply, val_main_v115_apply]
  unfold slab
  exact congrArg a10 (funext fun a => Fin.ext (by
    match a with
    | ⟨0, _⟩ => rfl
    | ⟨1, _⟩ => have := k.isLt; have := n.isLt; show (k.val * 128 + n.val) / 128 % 384 = k.val; omega
    | ⟨2, _⟩ => have := k.isLt; have := n.isLt; show (k.val * 128 + n.val) % 128 = n.val; omega))

/-- The first bias of the message perceptron, repeated down the rows: the row of round 1. -/
theorem bMsgA_at (r : Fin 200000) (n : Fin 128) : val_main_v125 (F := Ideal) a11 (ix2 r n) = brow 1 a11 n := by
  rw [val_main_v125_apply, val_main_v124_apply, val_main_v118_apply, val_main_v117_apply]
  unfold brow
  exact congrArg a11 (funext fun a => Fin.ext (by
    match a with
    | ⟨0, _⟩ => rfl
    | ⟨1, _⟩ => have := n.isLt; show n.val % 128 = n.val; omega))

/-- The second weight of the message perceptron: the slab of round 1. -/
theorem wMsgB_at (k n : Fin 128) : val_main_v120 (F := Ideal) a12 (ix2 k n) = slab 1 a12 k n := by
  rw [val_main_v120_apply, val_main_v119_apply]
  unfold slab
  exact congrArg a12 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

/-- The second bias of the message perceptron, repeated down the rows: the row of round 1. -/
theorem bMsgB_at (r : Fin 200000) (n : Fin 128) : val_main_v130 (F := Ideal) a13 (ix2 r n) = brow 1 a13 n := by
  rw [val_main_v130_apply, val_main_v129_apply, val_main_v122_apply, val_main_v121_apply]
  unfold brow
  exact congrArg a13 (funext fun a => Fin.ext (by
    match a with
    | ⟨0, _⟩ => rfl
    | ⟨1, _⟩ => have := n.isLt; show n.val % 128 = n.val; omega))

/-- The array the edge encoder's rectifier compares with: zero everywhere. -/
theorem zeroEnc_at (i : S200000x128.Idx) : val_main_call4_v0 (F := Ideal) i = (0 : EReal) := by
  rw [val_main_call4_v0_apply, val_main_call4_cst_apply, Ideal.ofBits_def, Ideal.ofBits_zero_f32]

/-- The array the message perceptron's rectifier compares with: zero everywhere. -/
theorem zeroMsg_at (i : S200000x128.Idx) : val_main_call5_v0 (F := Ideal) i = (0 : EReal) := by
  rw [val_main_call5_v0_apply, val_main_call5_cst_apply, Ideal.ofBits_def, Ideal.ofBits_zero_f32]

/-! ### The edge encoder -/

/-- The edge attribute times the first weight, at a row and a column. -/
theorem encLin_at (r : Fin 200000) (n : Fin 128) :
    val_main_v91 (F := Ideal) a1 a6 (ix2 r n) = ∑ k : Fin 1, cur a1 r k * slab 1 a6 k n := by
  rw [val_main_v91_apply]
  refine Finset.sum_congr rfl fun k _ => ?_
  have el : lidx_main_v91 (ix2 r n) k = ix2 r k :=
    funext fun a => Fin.ext (by match a with | ⟨0, _⟩ => rfl | ⟨1, _⟩ => rfl)
  have er : ridx_main_v91 (ix2 r n) k = ix2 k n :=
    funext fun a => Fin.ext (by match a with | ⟨0, _⟩ => rfl | ⟨1, _⟩ => rfl)
  rw [el, er, wEncA_at]
  rfl

/-- The encoded edge attribute is the two-layer perceptron of the edge attribute. -/
theorem enc_eq :
    val_main_v99 (F := Ideal) a1 a6 a7 a8 a9 = unc (mlp2 (cur a1) (slab 1 a6) (brow 1 a7) (slab 1 a8) (brow 1 a9)) := by
  funext i
  obtain ⟨r, n, rfl⟩ : ∃ (r : Fin 200000) (n : Fin 128), i = ix2 r n := ⟨i 0, i 1, eq_ix2 i⟩
  rw [val_main_v99_apply, val_main_v96_apply, bEncB_at, Ideal.addf_def]
  show _ = (∑ k : Fin 128, max ((∑ k' : Fin 1, cur a1 r k' * slab 1 a6 k' k) + brow 1 a7 k) 0 * slab 1 a8 k n)
    + brow 1 a9 n
  congr 1
  refine Finset.sum_congr rfl fun k _ => ?_
  have el : lidx_main_v96 (ix2 r n) k = ix2 r k :=
    funext fun a => Fin.ext (by match a with | ⟨0, _⟩ => rfl | ⟨1, _⟩ => rfl)
  have er : ridx_main_v96 (ix2 r n) k = ix2 k n :=
    funext fun a => Fin.ext (by match a with | ⟨0, _⟩ => rfl | ⟨1, _⟩ => rfl)
  rw [el, er, wEncB_at, val_main_v95_apply, val_main_v94_apply, encLin_at, bEncA_at, zeroEnc_at, Ideal.maximumf_def,
    Ideal.addf_def]

/-! ### The message perceptron -/

/-- The gathered destination rows, the gathered source rows and the encoded edge attribute side by side. -/
theorem cat_at (r : Fin 200000) (j : Fin 384) :
    val_main_v114 (F := Ideal) a0 a1 a2 a3 a4 a5 a6 a7 a8 a9 a10 a11 a12 a13 a14 a15 a16 a17 a22 (ix2 r j)
      = (cat3 (cur (val_main_v106 (F := Ideal) a0 a1 a2 a3 a4 a5 a6 a7 a8 a9 a10 a11 a12 a13 a14 a15 a16 a17 a22)) (cur (val_main_v113 (F := Ideal) a0 a1 a2 a3 a4 a5 a6 a7 a8 a9 a10 a11 a12 a13 a14 a15 a16 a17 a22)) (mlp2 (cur a1) (slab 1 a6) (brow 1 a7) (slab 1 a8) (brow 1 a9))) r j := by
  unfold val_main_v114
  rw [concat3_apply, enc_eq, cur_unc]

/-- The 384 columns times the first weight of the message perceptron, at a row and a column. -/
theorem msgLin_at (r : Fin 200000) (n : Fin 128) :
    val_main_v123 (F := Ideal) a0 a1 a2 a3 a4 a5 a6 a7 a8 a9 a10 a11 a12 a13 a14 a15 a16 a17 a22 (ix2 r n)
      = ∑ j : Fin 384, (cat3 (cur (val_main_v106 (F := Ideal) a0 a1 a2 a3 a4 a5 a6 a7 a8 a9 a10 a11 a12 a13 a14 a15 a16 a17 a22)) (cur (val_main_v113 (F := Ideal) a0 a1 a2 a3 a4 a5 a6 a7 a8 a9 a10 a11 a12 a13 a14 a15 a16 a17 a22)) (mlp2 (cur a1) (slab 1 a6) (brow 1 a7) (slab 1 a8) (brow 1 a9))) r j * slab 1 a10 j n := by
  rw [val_main_v123_apply]
  refine Finset.sum_congr rfl fun j _ => ?_
  have el : lidx_main_v123 (ix2 r n) j = ix2 r j :=
    funext fun a => Fin.ext (by match a with | ⟨0, _⟩ => rfl | ⟨1, _⟩ => rfl)
  have er : ridx_main_v123 (ix2 r n) j = ix2 j n :=
    funext fun a => Fin.ext (by match a with | ⟨0, _⟩ => rfl | ⟨1, _⟩ => rfl)
  rw [el, er, wMsgA_at, cat_at]

end M1

/-- The messages of round 1: the two-layer perceptron of the gathered destination rows, the gathered source rows and
    the encoded edge attribute side by side. -/
theorem m1_eq :
    val_main_v131 (F := Ideal) a0 a1 a2 a3 a4 a5 a6 a7 a8 a9 a10 a11 a12 a13 a14 a15 a16 a17 a22
      = unc (mlp2 (cat3 (cur (val_main_v106 (F := Ideal) a0 a1 a2 a3 a4 a5 a6 a7 a8 a9 a10 a11 a12 a13 a14 a15 a16 a17 a22)) (cur (val_main_v113 (F := Ideal) a0 a1 a2 a3 a4 a5 a6 a7 a8 a9 a10 a11 a12 a13 a14 a15 a16 a17 a22)) (mlp2 (cur a1) (slab 1 a6) (brow 1 a7) (slab 1 a8) (brow 1 a9)))
          (slab 1 a10) (brow 1 a11) (slab 1 a12) (brow 1 a13)) := by
  funext i
  obtain ⟨r, n, rfl⟩ : ∃ (r : Fin 200000) (n : Fin 128), i = ix2 r n := ⟨i 0, i 1, eq_ix2 i⟩
  rw [val_main_v131_apply, val_main_v128_apply, M1.bMsgB_at, Ideal.addf_def]
  show _ = (∑ k : Fin 128, max ((∑ j : Fin 384, (cat3 (cur (val_main_v106 (F := Ideal) a0 a1 a2 a3 a4 a5 a6 a7 a8 a9 a10 a11 a12 a13 a14 a15 a16 a17 a22)) (cur (val_main_v113 (F := Ideal) a0 a1 a2 a3 a4 a5 a6 a7 a8 a9 a10 a11 a12 a13 a14 a15 a16 a17 a22)) (mlp2 (cur a1) (slab 1 a6) (brow 1 a7) (slab 1 a8) (brow 1 a9))) r j * slab 1 a10 j k) + brow 1 a11 k) 0 * slab 1 a12 k n)
    + brow 1 a13 n
  congr 1
  refine Finset.sum_congr rfl fun k _ => ?_
  have el : lidx_main_v128 (ix2 r n) k = ix2 r k :=
    funext fun a => Fin.ext (by match a with | ⟨0, _⟩ => rfl | ⟨1, _⟩ => rfl)
  have er : ridx_main_v128 (ix2 r n) k = ix2 k n :=
    funext fun a => Fin.ext (by match a with | ⟨0, _⟩ => rfl | ⟨1, _⟩ => rfl)
  rw [el, er, M1.wMsgB_at, val_main_v127_apply, val_main_v126_apply, M1.msgLin_at, M1.bMsgA_at, M1.zeroMsg_at,
    Ideal.maximumf_def, Ideal.addf_def]

end Cert.ReferenceIdeal.StageVal

end
-- ==== Proof.RUpd1.lean ====
/-
  Round 1's update layer of the reference, as a whole array: the node array entering the round and the messages
  summed at each node are laid side by side along the columns (256 columns), and a two-layer perceptron with the
  rectifier between its layers is applied row by row, with round 1's slice of the stacked update weights and biases.
  Each operation is read at one index: the sliced and reshaped weights are round 1's matrix of the stack, the
  broadcast biases round 1's row, a column below 128 of the joined array comes from the node array and a column
  from 128 on from the summed messages, and the two matrix products are sums over the contracted column.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Finset Cert.ReferenceIdeal Cert.ReferenceIdeal.Gen Cert.ReferenceIdeal.Read Cert.Gnn Idealize.ShloMosaic
  Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace U1

/-- Two arrays of 128 columns joined along the columns, read at row `r` and column `j`: the first array's column
    `j` below 128, the second array's column `j - 128` from 128 on. -/
theorem cat_apply (x y : (⟨S50000x128, .f32⟩ : BufTy).Contents (Elt Ideal))
    (h : Shape.Concatenates [S50000x128, S50000x128] S50000x256 1) (r : Fin 50000) (j : Fin 256) :
    concatenate S50000x256 1 [⟨S50000x128, x⟩, ⟨S50000x128, y⟩] h (ix2 r j) = cat2 (cur x) (cur y) r j := by
  unfold cat2
  by_cases hj : j.val < 128
  · rw [dif_pos hj]
    exact concatenate_pair_apply_left (1 : Fin S50000x256.rank) x y h (ix2 r j) rfl (ix2 r ⟨j.val, hj⟩)
      (fun b => match b with | ⟨0, _⟩ => rfl | ⟨1, _⟩ => rfl)
  · rw [dif_neg hj]
    exact concatenate_pair_apply_right (1 : Fin S50000x256.rank) x y h (ix2 r j) rfl rfl
      (ix2 r ⟨j.val - 128, by have := j.isLt; omega⟩)
      (fun b hb => match b, hb with | ⟨0, _⟩, _ => rfl | ⟨1, _⟩, hb => absurd rfl hb)
      (by show j.val - 128 + 128 = j.val; omega)

/-- The perceptron's output at row `r` and column `n`: the second layer's sum over the hidden columns, then its bias. -/
theorem out_apply {M K H N : Nat} (x : Mat M K) (W0 : Mat K H) (b0 : Fin H → EReal) (W1 : Mat H N) (b1 : Fin N → EReal)
    (r : Fin M) (n : Fin N) :
    unc (mlp2 x W0 b0 W1 b1) (ix2 r n) = (∑ k : Fin H, relu (dense x W0 b0) r k * W1 k n) + b1 n := rfl

/-- The hidden layer at row `r` and column `k`: the first layer's sum over the input columns, its bias, then the rectifier. -/
theorem hid_apply {M K H : Nat} (x : Mat M K) (W0 : Mat K H) (b0 : Fin H → EReal) (r : Fin M) (k : Fin H) :
    relu (dense x W0 b0) r k = max ((∑ j : Fin K, x r j * W0 j k) + b0 k) 0 := rfl

/-- The joined array of the round at row `r` and column `j`. -/
theorem joined (r : Fin 50000) (j : Fin 256) :
    val_main_v135 (F := Ideal) a0 a1 a2 a3 a4 a5 a6 a7 a8 a9 a10 a11 a12 a13 a14 a15 a16 a17 a22 (ix2 r j) = cat2 (cur (val_main_v82 (F := Ideal) a0 a1 a2 a3 a4 a5 a6 a7 a8 a9 a10 a11 a12 a13 a14 a15 a16 a17 a22)) (cur (val_main_v134 (F := Ideal) a0 a1 a2 a3 a4 a5 a6 a7 a8 a9 a10 a11 a12 a13 a14 a15 a16 a17 a22)) r j := by
  unfold val_main_v135
  exact cat_apply _ _ _ r j

/-- The first layer's weights: the slice of the stacked array at the round, reshaped to a matrix, is the round's matrix. -/
theorem w_first (k : Fin 256) (n : Fin 128) : val_main_v137 (F := Ideal) a14 (ix2 k n) = slab 1 a14 k n := by
  rw [val_main_v137_apply, val_main_v136_apply]
  unfold slab
  exact congrArg a14 (funext fun a => Fin.ext (by
    have hk := k.isLt
    have hn := n.isLt
    match a with
    | ⟨0, _⟩ => rfl
    | ⟨1, _⟩ => show (k.val * 128 + n.val) / 128 % 256 = k.val; omega
    | ⟨2, _⟩ => show (k.val * 128 + n.val) % 128 = n.val; omega))

/-- The second layer's weights are the round's matrix of their stack. -/
theorem w_second (k : Fin 128) (n : Fin 128) : val_main_v141 (F := Ideal) a16 (ix2 k n) = slab 1 a16 k n := by
  rw [val_main_v141_apply, val_main_v140_apply]
  unfold slab
  exact congrArg a16 (funext fun a => Fin.ext (by
    have hk := k.isLt
    have hn := n.isLt
    match a with
    | ⟨0, _⟩ => rfl
    | ⟨1, _⟩ => show (k.val * 128 + n.val) / 128 % 128 = k.val; omega
    | ⟨2, _⟩ => show (k.val * 128 + n.val) % 128 = n.val; omega))

/-- The first layer's bias, broadcast down the rows, is the round's row of its stack at every row. -/
theorem b_first (r : Fin 50000) (n : Fin 128) : val_main_v146 (F := Ideal) a15 (ix2 r n) = brow 1 a15 n := by
  rw [val_main_v146_apply, val_main_v145_apply, val_main_v139_apply, val_main_v138_apply]
  unfold brow
  exact congrArg a15 (funext fun a => Fin.ext (by
    match a with
    | ⟨0, _⟩ => rfl
    | ⟨1, _⟩ => exact Nat.mod_eq_of_lt n.isLt))

/-- The second layer's bias is the round's row of its stack at every row. -/
theorem b_second (r : Fin 50000) (n : Fin 128) : val_main_v151 (F := Ideal) a17 (ix2 r n) = brow 1 a17 n := by
  rw [val_main_v151_apply, val_main_v150_apply, val_main_v143_apply, val_main_v142_apply]
  unfold brow
  exact congrArg a17 (funext fun a => Fin.ext (by
    match a with
    | ⟨0, _⟩ => rfl
    | ⟨1, _⟩ => exact Nat.mod_eq_of_lt n.isLt))

/-- The first product reads row `r` of its left operand at the contracted column … -/
theorem lidx_first (r : Fin 50000) (k : Fin 128) (j : Fin 256) : lidx_main_v144 (ix2 r k) j = ix2 r j :=
  funext fun a => Fin.ext (by match a with | ⟨0, _⟩ => rfl | ⟨1, _⟩ => rfl)

/-- … and column `k` of its right operand at the contracted row. -/
theorem ridx_first (r : Fin 50000) (k : Fin 128) (j : Fin 256) : ridx_main_v144 (ix2 r k) j = ix2 j k :=
  funext fun a => Fin.ext (by match a with | ⟨0, _⟩ => rfl | ⟨1, _⟩ => rfl)

/-- The second product's left index … -/
theorem lidx_second (r : Fin 50000) (n : Fin 128) (k : Fin 128) : lidx_main_v149 (ix2 r n) k = ix2 r k :=
  funext fun a => Fin.ext (by match a with | ⟨0, _⟩ => rfl | ⟨1, _⟩ => rfl)

/-- … and right index. -/
theorem ridx_second (r : Fin 50000) (n : Fin 128) (k : Fin 128) : ridx_main_v149 (ix2 r n) k = ix2 k n :=
  funext fun a => Fin.ext (by match a with | ⟨0, _⟩ => rfl | ⟨1, _⟩ => rfl)

/-- The hidden layer of the round at row `r` and column `k`: the product of the joined array with the first
    weights, the first bias, and the maximum with zero. -/
theorem hidden (r : Fin 50000) (k : Fin 128) :
    val_main_v148 (F := Ideal) a0 a1 a2 a3 a4 a5 a6 a7 a8 a9 a10 a11 a12 a13 a14 a15 a16 a17 a22 (ix2 r k)
      = relu (dense (cat2 (cur (val_main_v82 (F := Ideal) a0 a1 a2 a3 a4 a5 a6 a7 a8 a9 a10 a11 a12 a13 a14 a15 a16 a17 a22)) (cur (val_main_v134 (F := Ideal) a0 a1 a2 a3 a4 a5 a6 a7 a8 a9 a10 a11 a12 a13 a14 a15 a16 a17 a22))) (slab 1 a14) (brow 1 a15)) r k := by
  rw [hid_apply, val_main_v148_apply, val_main_v147_apply, val_main_v144_apply, val_main_call6_v0_apply,
    val_main_call6_cst_apply, Ideal.maximumf_def, Ideal.addf_def, Ideal.ofBits_def, Ideal.ofBits_zero_f32, b_first]
  refine congrArg (fun s => max (s + brow 1 a15 k) 0) (Finset.sum_congr rfl fun j _ => ?_)
  rw [lidx_first, ridx_first, joined, w_first]

end U1

/-- Round 1's update layer: the array after the round is the two-layer perceptron, with round 1's update weights and
    biases, of the node array entering the round and the summed messages side by side. -/
theorem x2_eq :
    val_main_v152 (F := Ideal) a0 a1 a2 a3 a4 a5 a6 a7 a8 a9 a10 a11 a12 a13 a14 a15 a16 a17 a22
      = unc (mlp2 (cat2 (cur (val_main_v82 (F := Ideal) a0 a1 a2 a3 a4 a5 a6 a7 a8 a9 a10 a11 a12 a13 a14 a15 a16 a17 a22)) (cur (val_main_v134 (F := Ideal) a0 a1 a2 a3 a4 a5 a6 a7 a8 a9 a10 a11 a12 a13 a14 a15 a16 a17 a22))) (slab 1 a14) (brow 1 a15) (slab 1 a16) (brow 1 a17)) := by
  funext i
  obtain ⟨r, n, rfl⟩ : ∃ (r : Fin 50000) (n : Fin 128), i = ix2 r n := ⟨i 0, i 1, eq_ix2 i⟩
  rw [U1.out_apply, val_main_v152_apply, val_main_v149_apply, Ideal.addf_def, U1.b_second]
  refine congrArg (fun s => s + brow 1 a17 n) (Finset.sum_congr rfl fun k _ => ?_)
  rw [U1.lidx_second, U1.ridx_second, U1.hidden, U1.w_second]

end Cert.ReferenceIdeal.StageVal

end
-- ==== Proof.Join1.lean ====
/-
  Round 1 of the message passing: the same join as round 0 over this round's arrays, parameters and boundaries.
-/
import proofs.«426174_j75376676045031_2_alg».proof.Proof.KReg3
import proofs.«426174_j75376676045031_2_alg».proof.Proof.KReg4
import proofs.«426174_j75376676045031_2_alg».proof.Proof.KHostW
import proofs.«426174_j75376676045031_2_alg».proof.Proof.KTake
import proofs.«426174_j75376676045031_2_alg».proof.Proof.KScat
import proofs.«426174_j75376676045031_2_alg».proof.Proof.RefBase
import proofs.«426174_j75376676045031_2_alg».proof.Proof.RMsg1
import proofs.«426174_j75376676045031_2_alg».proof.Proof.RUpd1

set_option maxRecDepth 16384
-- the notations below name terms over this section's variables
set_option quotPrecheck false

noncomputable section

namespace Cert.Proof.Join

open Idealize.ShloMosaic Idealize.ShloMosaic.TcCoe Idealize.SL.Sem Idealize.ShloMosaic.ValueIdx
open Cert.KernelIdeal Cert.KernelIdeal.Gen Cert.KernelIdeal.RegVal Cert.KernelIdeal.HostVal Cert.Gnn
open Cert.ReferenceIdeal.StageVal

variable (m : (ℓ : Loc nD τ sig) → Buf (Elt Ideal) ℓ) (ρ : Dev nD → PrngReg) (c : Dev nD)

local notation "𝔞" b => m ((c : Thread nD τ).loc b)

/-! ## The round -/

-- the round's arrays: the kernel program's at the boundaries of its run, the reference's as stages of its arguments
local notation "kX" => V9 m ρ c main_v49
local notation "rX" => (Cert.ReferenceIdeal.Read.val_main_v82 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "rGd" => (Cert.ReferenceIdeal.Read.val_main_v106 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "rGs" => (Cert.ReferenceIdeal.Read.val_main_v113 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kM" => V13 m ρ c main_v76
local notation "rM" => (Cert.ReferenceIdeal.Read.val_main_v131 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kAgg" => V14 m ρ c main_v79
local notation "rAgg" => (Cert.ReferenceIdeal.Read.val_main_v134 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kXn" => V15 m ρ c main_v92
local notation "rXn" => (Cert.ReferenceIdeal.Read.val_main_v152 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))

/-- The destination rows: the kernel program's gather of its node array is the reference's gather of an equal array at
    the same wrapped indices. -/
theorem gd1_join (hx : kX = rX) :
    Host.gather gather_S50000x128_S200000x1_S200000x128_1_0_n_n_0_1_1128 kX (wrapIdx (W3 m ρ c (Proc.devRef .tc main_v6))) = rGd := by
  rw [hx, idx_dst]; rfl

/-- The source rows, likewise. -/
theorem gs1_join (hx : kX = rX) :
    Host.gather gather_S50000x128_S200000x1_S200000x128_1_0_n_n_0_1_1128 kX (wrapIdx (W3 m ρ c (Proc.devRef .tc main_v4))) = rGs := by
  rw [hx, idx_src]; rfl

set_option maxHeartbeats 1000000 in
/-- The messages: the first dense layer's product taken block by block over the three inputs is the layer over the
    inputs side by side. -/
theorem m1_join (hr : InRange (W3 m ρ c (Proc.devRef .tc main_v6)) ∧ InRange (W3 m ρ c (Proc.devRef .tc main_v4)))
    (hx : kX = rX) : kM = rM := by
  rw [out3, region3_value (V12 m ρ) c, take1_dst m ρ c hr.1, take1_src m ρ c hr.2, gd1_join m ρ c hx, gs1_join m ρ c hx,
    b12_arg1, b12_v59, b12_v72, b12_v63, b12_v73, b12_v53, b12_v55, b12_v57, b12_v74, b12_v69, b12_v75, msgSplit_eq]
  exact (m1_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)).symm

/-- The aggregated messages: one scatter-add of equal updates at the same indices into zeros. -/
theorem agg1_join (hm : kM = rM) : kAgg = rAgg := by
  rw [scat1, hm, idx_dst]; rfl

set_option maxHeartbeats 1000000 in
/-- The updated node array: the two-block first layer is the layer over the two inputs side by side. -/
theorem x2_join (hx : kX = rX) (hagg : kAgg = rAgg) : kXn = rXn := by
  rw [out4, region4_value (V14 m ρ) c, x_at14, hx, hagg, b14_v81, b14_v83, b14_v90, b14_v87, b14_v91, updSplit_eq]
  exact (x2_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)).symm

end Cert.Proof.Join

end
-- ==== Proof.KReg5.lean ====
/-
  Region 5: round 2's message region, the same function of its own arrays as round 0's;
  the facts about matrix products are round 0's.
-/
import proofs.«426174_j75376676045031_2_alg».proof.Proof.KReg1
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx Idealize.ShloMosaic.TcCoe

variable (V : (c : Dev nD) → (b : Ref sig .tc) → Buf (Elt Ideal) ((c : Thread nD τ).loc b))

namespace R5

open R1 (matmul128_apply matmul1_apply ofBits0 msg_congr)

theorem pay2_apply (v0 v2 : Vec Ideal S10000x128 .f32) (v4 : Vec Ideal S10000x1 .f32) (v5 v8 : Vec Ideal S1x128 .f32)
    (v14 : Vec Ideal S128x128 .f32) (v17 : Vec Ideal S1x128 .f32) (v21 v23 v25 : Vec Ideal S128x128 .f32)
    (p : Fin 10000) (q : Fin 128) :
    k5_pay2 (F := Ideal) v0 v2 v4 v5 v8 v14 v17 v21 v23 v25 (ix2 p q)
      = (∑ k : Fin 128, v0 (ix2 p k) * v21 (ix2 k q)) + (∑ k : Fin 128, v2 (ix2 p k) * v23 (ix2 k q))
        + ∑ k : Fin 128, ((∑ k' : Fin 128, max ((∑ j : Fin 1, v4 (ix2 p j) * v5 (ix2 j k')) + v8 (ix2 (0 : Fin 1) k')) 0
            * v14 (ix2 k' k)) + v17 (ix2 (0 : Fin 1) k)) * v25 (ix2 k q) := by
  unfold k5_pay2
  simp only [addf_apply, maximumf_apply, broadcast_apply, shapeCast_self, matmul128_apply, matmul1_apply,
    broadcastTo_1b_ab_apply, ofBits0]

theorem pay1_apply (v31 : FVec Ideal S10000x128 .f32) (v32 : Vec Ideal S1x128 .f32) (v38 : Vec Ideal S128x128 .f32)
    (v41 : Vec Ideal S1x128 .f32) (p : Fin 10000) (q : Fin 128) :
    k5_pay1 (F := Ideal) v31 v32 v38 v41 (ix2 p q)
      = (∑ k : Fin 128, max (v31 (ix2 p k) + v32 (ix2 (0 : Fin 1) k)) 0 * v38 (ix2 k q)) + v41 (ix2 (0 : Fin 1) q) := by
  unfold k5_pay1
  simp only [addf_apply, maximumf_apply, broadcast_apply, shapeCast_self, matmul128_apply,
    broadcastTo_1b_ab_apply, ofBits0]

theorem point_eq (x0 x1 : Vec Ideal S10000x128 .f32) (x2 : Vec Ideal S10000x1 .f32) (x3 x4 : Vec Ideal S1x128 .f32)
    (x5 : Vec Ideal S128x128 .f32) (x6 : Vec Ideal S1x128 .f32) (x7 x8 x9 : Vec Ideal S128x128 .f32)
    (x10 : Vec Ideal S1x128 .f32) (x11 : Vec Ideal S128x128 .f32) (x12 : Vec Ideal S1x128 .f32)
    (p : Fin 10000) (q : Fin 128) :
    k5_pay1 (F := Ideal) (k5_pay2 (F := Ideal) x0 x1 x2 x3 x4 x5 x6 x7 x8 x9) x10 x11 x12 (ix2 p q)
      = msgSplit (cur x0) (cur x1) (mlp2 (cur x2) (cur x3) (row x4) (cur x5) (row x6)) (cur x7) (cur x8) (cur x9)
          (row x10) (cur x11) (row x12) p q := by
  rw [pay1_apply]
  simp only [pay2_apply]
  simp only [msgSplit, mlp2, dense, relu, cur, row]

theorem hz : (![0, 0] : Fin 2 → Nat) = fun _ => 0 := funext fun a => by
  match a with
  | ⟨0, _⟩ => rfl
  | ⟨1, _⟩ => rfl

theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 2) = t.val ∧ win5_1.index t (1 : Fin 2) = 0 :=
  (by decide +kernel : ∀ t : Fin grid5.N, _)
theorem idx2 : ∀ t : Fin cfg5.N, win5_2.index t (0 : Fin 2) = t.val ∧ win5_2.index t (1 : Fin 2) = 0 :=
  (by decide +kernel : ∀ t : Fin grid5.N, _)
theorem idx3 : ∀ t : Fin cfg5.N, win5_3.index t (0 : Fin 2) = 0 ∧ win5_3.index t (1 : Fin 2) = 0 :=
  (by decide +kernel : ∀ t : Fin grid5.N, _)
theorem idx4 : ∀ t : Fin cfg5.N, win5_4.index t (0 : Fin 2) = 0 ∧ win5_4.index t (1 : Fin 2) = 0 :=
  (by decide +kernel : ∀ t : Fin grid5.N, _)
theorem idx5 : ∀ t : Fin cfg5.N, win5_5.index t (0 : Fin 2) = 0 ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)
theorem idx7 : ∀ t : Fin cfg5.N, win5_7.index t (0 : Fin 2) = 0 ∧ win5_7.index t (1 : Fin 2) = 0 :=
  (by decide +kernel : ∀ t : Fin grid5.N, _)
theorem idx8 : ∀ t : Fin cfg5.N, win5_8.index t (0 : Fin 2) = 0 ∧ win5_8.index t (1 : Fin 2) = 0 :=
  (by decide +kernel : ∀ t : Fin grid5.N, _)
theorem idx9 : ∀ t : Fin cfg5.N, win5_9.index t (0 : Fin 2) = 0 ∧ win5_9.index t (1 : Fin 2) = 0 :=
  (by decide +kernel : ∀ t : Fin grid5.N, _)
theorem idx10 : ∀ t : Fin cfg5.N, win5_10.index t (0 : Fin 2) = 0 ∧ win5_10.index t (1 : Fin 2) = 0 :=
  (by decide +kernel : ∀ t : Fin grid5.N, _)
theorem idx11 : ∀ t : Fin cfg5.N, win5_11.index t (0 : Fin 2) = 0 ∧ win5_11.index t (1 : Fin 2) = 0 :=
  (by decide +kernel : ∀ t : Fin grid5.N, _)
theorem idx12 : ∀ t : Fin cfg5.N, win5_12.index t (0 : Fin 2) = 0 ∧ win5_12.index t (1 : Fin 2) = 0 :=
  (by decide +kernel : ∀ t : Fin grid5.N, _)
theorem idx13 : ∀ t : Fin cfg5.N, win5_13.index t (0 : Fin 2) = t.val ∧ win5_13.index t (1 : Fin 2) = 0 :=
  (by decide +kernel : ∀ t : Fin grid5.N, _)

theorem row_lt (t : Fin cfg5.N) (p : Fin 10000) : t.val * 10000 + p.val < 200000 := by
  have hN : cfg5.N = 20 := N_5
  have ht := t.isLt
  have hp := p.isLt
  omega

theorem blk0_read (c : Dev nD) (t : Fin cfg5.N) (p : Fin 10000) (k : Fin 128) :
    (iblk5 V c 0 t : S10000x128.Idx → EReal) (ix2 p k)
      = (V c main_v93 : S200000x128.Idx → EReal) (ix2 (⟨t.val * 10000 + p.val, row_lt t p⟩ : Fin 200000) k) := by
  obtain ⟨e0, e1⟩ := idx0 t
  show (V c main_v93 : S200000x128.Idx → EReal) (((cfg5.win 0).blk t).view.emb (ix2 p k)) = _
  refine congrArg (V c main_v93 : S200000x128.Idx → EReal) ?_
  funext a; apply Fin.ext
  match a with
  | ⟨0, _⟩ => show win5_0.index t (0 : Fin 2) * 10000 + 1 * p.val = t.val * 10000 + p.val; omega
  | ⟨1, _⟩ => show win5_0.index t (1 : Fin 2) * 128 + 1 * k.val = k.val; omega

theorem blk1_read (c : Dev nD) (t : Fin cfg5.N) (p : Fin 10000) (k : Fin 128) :
    (iblk5 V c 1 t : S10000x128.Idx → EReal) (ix2 p k)
      = (V c main_v94 : S200000x128.Idx → EReal) (ix2 (⟨t.val * 10000 + p.val, row_lt t p⟩ : Fin 200000) k) := by
  obtain ⟨e0, e1⟩ := idx1 t
  show (V c main_v94 : S200000x128.Idx → EReal) (((cfg5.win 1).blk t).view.emb (ix2 p k)) = _
  refine congrArg (V c main_v94 : S200000x128.Idx → EReal) ?_
  funext a; apply Fin.ext
  match a with
  | ⟨0, _⟩ => show win5_1.index t (0 : Fin 2) * 10000 + 1 * p.val = t.val * 10000 + p.val; omega
  | ⟨1, _⟩ => show win5_1.index t (1 : Fin 2) * 128 + 1 * k.val = k.val; omega

theorem blk2_read (c : Dev nD) (t : Fin cfg5.N) (p : Fin 10000) (k : Fin 1) :
    (iblk5 V c 2 t : S10000x1.Idx → EReal) (ix2 p k)
      = (V c main_arg1 : S200000x1.Idx → EReal) (ix2 (⟨t.val * 10000 + p.val, row_lt t p⟩ : Fin 200000) k) := by
  obtain ⟨e0, e1⟩ := idx2 t
  show (V c main_arg1 : S200000x1.Idx → EReal) (((cfg5.win 2).blk t).view.emb (ix2 p k)) = _
  refine congrArg (V c main_arg1 : S200000x1.Idx → EReal) ?_
  funext a; apply Fin.ext
  match a with
  | ⟨0, _⟩ => show win5_2.index t (0 : Fin 2) * 10000 + 1 * p.val = t.val * 10000 + p.val; omega
  | ⟨1, _⟩ => show win5_2.index t (1 : Fin 2) * 1 + 1 * k.val = k.val; omega

theorem blk3_eq (c : Dev nD) (t : Fin cfg5.N) :
    (iblk5 V c 3 t : S1x128.Idx → EReal) = (V c main_v102 : S1x128.Idx → EReal) := by
  obtain ⟨e0, e1⟩ := idx3 t
  funext y
  show (V c main_v102 : S1x128.Idx → EReal) (((cfg5.win 3).blk t).view.emb y) = _
  refine congrArg (V c main_v102 : S1x128.Idx → EReal) ?_
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

theorem blk4_eq (c : Dev nD) (t : Fin cfg5.N) :
    (iblk5 V c 4 t : S1x128.Idx → EReal) = (V c main_v115 : S1x128.Idx → EReal) := by
  obtain ⟨e0, e1⟩ := idx4 t
  funext y
  show (V c main_v115 : S1x128.Idx → EReal) (((cfg5.win 4).blk t).view.emb y) = _
  refine congrArg (V c main_v115 : S1x128.Idx → EReal) ?_
  funext a; apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega

theorem blk5_eq (c : Dev nD) (t : Fin cfg5.N) :
    (iblk5 V c 5 t : S128x128.Idx → EReal) = (V c main_v106 : S128x128.Idx → EReal) := by
  obtain ⟨e0, e1⟩ := idx5 t
  funext y
  show (V c main_v106 : S128x128.Idx → EReal) (((cfg5.win 5).blk t).view.emb y) = _
  refine congrArg (V c main_v106 : S128x128.Idx → EReal) ?_
  funext a; apply Fin.ext
  match a with
  | ⟨0, _⟩ => show win5_5.index t (0 : Fin 2) * 128 + 1 * (y 0).val = (y 0).val; omega
  | ⟨1, _⟩ => show win5_5.index t (1 : Fin 2) * 128 + 1 * (y 1).val = (y 1).val; omega

theorem blk6_eq (c : Dev nD) (t : Fin cfg5.N) :
    (iblk5 V c 6 t : S1x128.Idx → EReal) = (V c main_v116 : S1x128.Idx → EReal) := by
  obtain ⟨e0, e1⟩ := idx6 t
  funext y
  show (V c main_v116 : S1x128.Idx → EReal) (((cfg5.win 6).blk t).view.emb y) = _
  refine congrArg (V c main_v116 : S1x128.Idx → EReal) ?_
  funext a; apply Fin.ext
  match a with
  | ⟨0, _⟩ => show win5_6.index t (0 : Fin 2) * 1 + 1 * (y 0).val = (y 0).val; omega
  | ⟨1, _⟩ => show win5_6.index t (1 : Fin 2) * 128 + 1 * (y 1).val = (y 1).val; omega

theorem blk7_eq (c : Dev nD) (t : Fin cfg5.N) :
    (iblk5 V c 7 t : S128x128.Idx → EReal) = (V c main_v96 : S128x128.Idx → EReal) := by
  obtain ⟨e0, e1⟩ := idx7 t
  funext y
  show (V c main_v96 : S128x128.Idx → EReal) (((cfg5.win 7).blk t).view.emb y) = _
  refine congrArg (V c main_v96 : S128x128.Idx → EReal) ?_
  funext a; apply Fin.ext
  match a with
  | ⟨0, _⟩ => show win5_7.index t (0 : Fin 2) * 128 + 1 * (y 0).val = (y 0).val; omega
  | ⟨1, _⟩ => show win5_7.index t (1 : Fin 2) * 128 + 1 * (y 1).val = (y 1).val; omega

theorem blk8_eq (c : Dev nD) (t : Fin cfg5.N) :
    (iblk5 V c 8 t : S128x128.Idx → EReal) = (V c main_v98 : S128x128.Idx → EReal) := by
  obtain ⟨e0, e1⟩ := idx8 t
  funext y
  show (V c main_v98 : S128x128.Idx → EReal) (((cfg5.win 8).blk t).view.emb y) = _
  refine congrArg (V c main_v98 : S128x128.Idx → EReal) ?_
  funext a; apply Fin.ext
  match a with
  | ⟨0, _⟩ => show win5_8.index t (0 : Fin 2) * 128 + 1 * (y 0).val = (y 0).val; omega
  | ⟨1, _⟩ => show win5_8.index t (1 : Fin 2) * 128 + 1 * (y 1).val = (y 1).val; omega

theorem blk9_eq (c : Dev nD) (t : Fin cfg5.N) :
    (iblk5 V c 9 t : S128x128.Idx → EReal) = (V c main_v100 : S128x128.Idx → EReal) := by
  obtain ⟨e0, e1⟩ := idx9 t
  funext y
  show (V c main_v100 : S128x128.Idx → EReal) (((cfg5.win 9).blk t).view.emb y) = _
  refine congrArg (V c main_v100 : S128x128.Idx → EReal) ?_
  funext a; apply Fin.ext
  match a with
  | ⟨0, _⟩ => show win5_9.index t (0 : Fin 2) * 128 + 1 * (y 0).val = (y 0).val; omega
  | ⟨1, _⟩ => show win5_9.index t (1 : Fin 2) * 128 + 1 * (y 1).val = (y 1).val; omega

theorem blk10_eq (c : Dev nD) (t : Fin cfg5.N) :
    (iblk5 V c 10 t : S1x128.Idx → EReal) = (V c main_v117 : S1x128.Idx → EReal) := by
  obtain ⟨e0, e1⟩ := idx10 t
  funext y
  show (V c main_v117 : S1x128.Idx → EReal) (((cfg5.win 10).blk t).view.emb y) = _
  refine congrArg (V c main_v117 : S1x128.Idx → EReal) ?_
  funext a; apply Fin.ext
  match a with
  | ⟨0, _⟩ => show win5_10.index t (0 : Fin 2) * 1 + 1 * (y 0).val = (y 0).val; omega
  | ⟨1, _⟩ => show win5_10.index t (1 : Fin 2) * 128 + 1 * (y 1).val = (y 1).val; omega

theorem blk11_eq (c : Dev nD) (t : Fin cfg5.N) :
    (iblk5 V c 11 t : S128x128.Idx → EReal) = (V c main_v112 : S128x128.Idx → EReal) := by
  obtain ⟨e0, e1⟩ := idx11 t
  funext y
  show (V c main_v112 : S128x128.Idx → EReal) (((cfg5.win 11).blk t).view.emb y) = _
  refine congrArg (V c main_v112 : S128x128.Idx → EReal) ?_
  funext a; apply Fin.ext
  match a with
  | ⟨0, _⟩ => show win5_11.index t (0 : Fin 2) * 128 + 1 * (y 0).val = (y 0).val; omega
  | ⟨1, _⟩ => show win5_11.index t (1 : Fin 2) * 128 + 1 * (y 1).val = (y 1).val; omega

theorem blk12_eq (c : Dev nD) (t : Fin cfg5.N) :
    (iblk5 V c 12 t : S1x128.Idx → EReal) = (V c main_v118 : S1x128.Idx → EReal) := by
  obtain ⟨e0, e1⟩ := idx12 t
  funext y
  show (V c main_v118 : S1x128.Idx → EReal) (((cfg5.win 12).blk t).view.emb y) = _
  refine congrArg (V c main_v118 : S1x128.Idx → EReal) ?_
  funext a; apply Fin.ext
  match a with
  | ⟨0, _⟩ => show win5_12.index t (0 : Fin 2) * 1 + 1 * (y 0).val = (y 0).val; omega
  | ⟨1, _⟩ => show win5_12.index t (1 : Fin 2) * 128 + 1 * (y 1).val = (y 1).val; omega

abbrev G5 (c : Dev nD) : S200000x128.Idx → EReal :=
  unc (msgSplit (cur (V c main_v93 : S200000x128.Idx → EReal)) (cur (V c main_v94 : S200000x128.Idx → EReal))
      (mlp2 (cur (V c main_arg1 : S200000x1.Idx → EReal)) (cur (V c main_v102 : S1x128.Idx → EReal)) (row (V c main_v115 : S1x128.Idx → EReal))
        (cur (V c main_v106 : S128x128.Idx → EReal)) (row (V c main_v116 : S1x128.Idx → EReal)))
      (cur (V c main_v96 : S128x128.Idx → EReal)) (cur (V c main_v98 : S128x128.Idx → EReal)) (cur (V c main_v100 : S128x128.Idx → EReal))
      (row (V c main_v117 : S1x128.Idx → EReal)) (cur (V c main_v112 : S128x128.Idx → EReal)) (row (V c main_v118 : S1x128.Idx → EReal)))

theorem flushed_eq (c : Dev nD) (t : Fin cfg5.N) :
    (dat5 (F := Ideal) V c).flushed 13 t = ((cfg5.win 13).blk t).view.read (Elt Ideal) (G5 V c) := by
  show (cfg5.win 13).cut (grid5.coords t) ((dat5 (F := Ideal) V c).after 13 t) = _
  rw [after5_13]
  unfold out5_13
  rw [View.canon_unit_zero hz]
  simp only [View.ld_unit_zero (S := S10000x128) hz, View.ld_unit_zero (S := S10000x1) hz,
    View.ld_unit_zero (S := S1x128) hz, View.ld_unit_zero (S := S128x128) hz]
  funext j
  obtain ⟨p, q, rfl⟩ : ∃ (p : Fin 10000) (q : Fin 128), j = ix2 p q := ⟨j 0, j 1, eq_ix2 j⟩
  obtain ⟨e0, e1⟩ := idx13 t
  have hemb : ((cfg5.win 13).blk t).view.emb (ix2 p q)
      = (ix2 (⟨t.val * 10000 + p.val, row_lt t p⟩ : Fin 200000) q : S200000x128.Idx) := by
    funext a; apply Fin.ext
    match a with
    | ⟨0, _⟩ => show win5_13.index t (0 : Fin 2) * 10000 + 1 * p.val = t.val * 10000 + p.val; omega
    | ⟨1, _⟩ => show win5_13.index t (1 : Fin 2) * 128 + 1 * q.val = q.val; omega
  show k5_pay1 (F := Ideal) (k5_pay2 (F := Ideal) (iblk5 V c 0 t) (iblk5 V c 1 t) (iblk5 V c 2 t) (iblk5 V c 3 t) (iblk5 V c 4 t)
      (iblk5 V c 5 t) (iblk5 V c 6 t) (iblk5 V c 7 t) (iblk5 V c 8 t) (iblk5 V c 9 t)) (iblk5 V c 10 t) (iblk5 V c 11 t)
      (iblk5 V c 12 t) (ix2 p q) = unc (msgSplit (cur (V c main_v93 : S200000x128.Idx → EReal)) (cur (V c main_v94 : S200000x128.Idx → EReal))
      (mlp2 (cur (V c main_arg1 : S200000x1.Idx → EReal)) (cur (V c main_v102 : S1x128.Idx → EReal)) (row (V c main_v115 : S1x128.Idx → EReal))
        (cur (V c main_v106 : S128x128.Idx → EReal)) (row (V c main_v116 : S1x128.Idx → EReal)))
      (cur (V c main_v96 : S128x128.Idx → EReal)) (cur (V c main_v98 : S128x128.Idx → EReal)) (cur (V c main_v100 : S128x128.Idx → EReal))
      (row (V c main_v117 : S1x128.Idx → EReal)) (cur (V c main_v112 : S128x128.Idx → EReal)) (row (V c main_v118 : S1x128.Idx → EReal))) (((cfg5.win 13).blk t).view.emb (ix2 p q))
  rw [hemb, unc_apply]
  refine (point_eq (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) (iblk5 V c 11 t) (iblk5 V c 12 t) p q).trans ?_
  exact msg_congr p (⟨t.val * 10000 + p.val, row_lt t p⟩ : Fin 200000) q
    (fun k => blk0_read V c t p k) (fun k => blk1_read V c t p k) (fun k => blk2_read V c t p k)
    (congrArg cur (blk3_eq V c t)) (congrArg row (blk4_eq V c t)) (congrArg cur (blk5_eq V c t))
    (congrArg row (blk6_eq V c t)) (congrArg cur (blk7_eq V c t)) (congrArg cur (blk8_eq V c t))
    (congrArg cur (blk9_eq V c t)) (congrArg row (blk10_eq V c t)) (congrArg cur (blk11_eq V c t))
    (congrArg row (blk12_eq V c t))

theorem mem_blk (t : Fin cfg5.N) (i : S200000x128.Idx) :
    i ∈ ((cfg5.win 13).blk t).view.set ↔ ∀ a : Fin 2, win5_13.index t a * S10000x128.size a ≤ (i a).val ∧ (i a).val < win5_13.index t a * S10000x128.size a + S10000x128.size a := by
  show i ∈ ((View.whole main_v119).slice (win5_13.rect t)).set ↔ _
  rw [View.set_slice_whole, Rect.mem_set_unit]
  exact Iff.rfl

theorem cover (i : S200000x128.Idx) :
    ∃ t : Fin cfg5.N, (cfg5.win 13).flush t = true ∧ i ∈ ((cfg5.win 13).blk t).view.set := by
  have hi0 : (i 0).val < 200000 := (i 0).isLt
  have hi1 : (i 1).val < 128 := (i 1).isLt
  have hN : cfg5.N = 20 := N_5
  obtain ⟨t, ht⟩ : ∃ t : Fin cfg5.N, t.val = (i 0).val / 10000 := ⟨⟨(i 0).val / 10000, by omega⟩, rfl⟩
  obtain ⟨e0, e1⟩ := idx13 t
  refine ⟨t, flush5_13 t, ?_⟩
  rw [mem_blk]
  intro a
  match a with
  | ⟨0, _⟩ => show win5_13.index t (0 : Fin 2) * 10000 ≤ (i 0).val ∧ (i 0).val < win5_13.index t (0 : Fin 2) * 10000 + 10000; omega
  | ⟨1, _⟩ => show win5_13.index t (1 : Fin 2) * 128 ≤ (i 1).val ∧ (i 1).val < win5_13.index t (1 : Fin 2) * 128 + 128; omega

end R5

theorem region5_value (c : Dev nD) :
    (dat5 (F := Ideal) V c).arrAt 13 cfg5.N
      = unc (msgSplit (cur (V c main_v93 : S200000x128.Idx → EReal)) (cur (V c main_v94 : S200000x128.Idx → EReal))
      (mlp2 (cur (V c main_arg1 : S200000x1.Idx → EReal)) (cur (V c main_v102 : S1x128.Idx → EReal)) (row (V c main_v115 : S1x128.Idx → EReal))
        (cur (V c main_v106 : S128x128.Idx → EReal)) (row (V c main_v116 : S1x128.Idx → EReal)))
      (cur (V c main_v96 : S128x128.Idx → EReal)) (cur (V c main_v98 : S128x128.Idx → EReal)) (cur (V c main_v100 : S128x128.Idx → EReal))
      (row (V c main_v117 : S1x128.Idx → EReal)) (cur (V c main_v112 : S128x128.Idx → EReal)) (row (V c main_v118 : S1x128.Idx → EReal))) :=
  (dat5 (F := Ideal) V c).arrAt_eq_of_cover 13 (R5.G5 V c) (fun t _ => R5.flushed_eq V c t) R5.cover

end Cert.KernelIdeal.RegVal

end
-- ==== Proof.KReg6.lean ====
/-
  Region 6: round 2's update region, the same function of its own arrays as round 0's;
  the facts about matrix products are round 0's.
-/
import proofs.«426174_j75376676045031_2_alg».proof.Proof.KReg2
import proofs.«426174_j75376676045031_2_alg».proof.Proof.Gen.KernelIdeal.Frame
import proofs.«426174_j75376676045031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gnn Idealize.ShloMosaic Idealize.ShloMosaic.ValueIdx
open Idealize.ShloMosaic.TcCoe

variable (V : (c : Dev nD) → (b : Ref sig .tc) → Buf (Elt Ideal) ((c : Thread nD τ).loc b))

namespace R6

open R2 (mm_apply updSplit_row)

theorem pay_apply (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) :
    k6_pay1 x0 x1 x2 x3 x4 x5 x6 (ix2 p q)
      = updSplit (cur x0) (cur x1) (cur x2) (cur x3) (row x4) (cur x5) (row x6) p q := by
  unfold k6_pay1
  simp only [shapeCast_self]
  have hz : Scalar.ofBits (F := Ideal) .f32 0x00000000#32 = 0 := Ideal.ofBits_zero_f32
  simp only [addf_apply, maximumf_apply, broadcast_apply, mm_apply, broadcastTo_1b_ab_apply, hz]
  rfl

theorem pay_point (A0 A1 : S50000x128.Idx → EReal) (A2 A3 : S128x128.Idx → EReal) (A4 : S1x128.Idx → EReal)
    (A5 : S128x128.Idx → EReal) (A6 : S1x128.Idx → EReal)
    (x0 x1 : Vec Ideal S10000x128 .f32) (x2 x3 : Vec Ideal S128x128 .f32) (x4 : Vec Ideal S1x128 .f32)
    (x5 : Vec Ideal S128x128 .f32) (x6 : Vec Ideal S1x128 .f32) (p : Fin 10000) (q : Fin 128) (r : Fin 50000)
    (h0 : ∀ k : Fin 128, x0 (ix2 p k) = A0 (ix2 r k)) (h1 : ∀ k : Fin 128, x1 (ix2 p k) = A1 (ix2 r k))
    (h2 : x2 = A2) (h3 : x3 = A3) (h4 : x4 = A4) (h5 : x5 = A5) (h6 : x6 = A6) :
    k6_pay1 x0 x1 x2 x3 x4 x5 x6 (ix2 p q)
      = updSplit (cur A0) (cur A1) (cur A2) (cur A3) (row A4) (cur A5) (row A6) r q := by
  subst h2 h3 h4 h5 h6
  rw [pay_apply]
  exact updSplit_row (cur x0) (cur x1) (cur A0) (cur A1) (cur x2) (cur x3) (row x4) (cur x5) (row x6) p r q
    (fun k => h0 k) (fun k => h1 k)

theorem hz : (![0, 0] : Fin 2 → Nat) = fun _ => 0 := funext fun a => by fin_cases a <;> rfl

abbrev G (c : Dev nD) : S50000x128.Idx → EReal :=
  unc (updSplit (cur (V c main_v92 : S50000x128.Idx → EReal)) (cur (V c main_v122 : S50000x128.Idx → EReal))
    (cur (V c main_v124 : S128x128.Idx → EReal)) (cur (V c main_v126 : S128x128.Idx → EReal))
    (row (V c main_v133 : S1x128.Idx → EReal)) (cur (V c main_v130 : S128x128.Idx → EReal))
    (row (V c main_v134 : S1x128.Idx → EReal)))

theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

theorem flushed_point (c : Dev nD) (t : Fin cfg6.N) (p : Fin 10000) (q : Fin 128) :
    k6_pay1 (iblk6 V c 0 t) (iblk6 V c 1 t) (iblk6 V c 2 t) (iblk6 V c 3 t) (iblk6 V c 4 t) (iblk6 V c 5 t)
        (iblk6 V c 6 t) (ix2 p q)
      = G V c (((cfg6.win 7).blk t).view.emb (ix2 p q)) := by
  obtain ⟨e00, e01, e10, e11, e20, e21, e30, e31, e40, e41, e50, e51, e60, e61, e70, e71⟩ := idx_facts t
  have ht : t.val < 5 := lt_of_lt_of_eq t.isLt N_6
  have hp : p.val < 10000 := p.isLt
  obtain ⟨r, hr⟩ : ∃ r : Fin 50000, r.val = t.val * 10000 + p.val := ⟨⟨t.val * 10000 + p.val, by omega⟩, rfl⟩
  have hR : ((cfg6.win 7).blk t).view.emb (ix2 p q) = ix2 r q := by
    funext a; apply Fin.ext
    match a with
    | ⟨0, _⟩ => show win6_7.index t (0 : Fin 2) * 10000 + 1 * p.val = r.val; omega
    | ⟨1, _⟩ => show win6_7.index t (1 : Fin 2) * 128 + 1 * q.val = q.val; omega
  rw [hR]
  refine pay_point (V c main_v92) (V c main_v122) (V c main_v124) (V c main_v126) (V c main_v133) (V c main_v130)
    (V c main_v134) (iblk6 V c 0 t) (iblk6 V c 1 t) (iblk6 V c 2 t) (iblk6 V c 3 t) (iblk6 V c 4 t) (iblk6 V c 5 t)
    (iblk6 V c 6 t) p q r ?_ ?_ ?_ ?_ ?_ ?_ ?_
  · intro k
    show V c main_v92 (((cfg6.win 0).blk t).view.emb (ix2 p k)) = V c main_v92 (ix2 r k)
    refine congrArg _ (funext fun a => Fin.ext ?_)
    match a with
    | ⟨0, _⟩ => show win6_0.index t (0 : Fin 2) * 10000 + 1 * p.val = r.val; omega
    | ⟨1, _⟩ => show win6_0.index t (1 : Fin 2) * 128 + 1 * k.val = k.val; omega
  · intro k
    show V c main_v122 (((cfg6.win 1).blk t).view.emb (ix2 p k)) = V c main_v122 (ix2 r k)
    refine congrArg _ (funext fun a => Fin.ext ?_)
    match a with
    | ⟨0, _⟩ => show win6_1.index t (0 : Fin 2) * 10000 + 1 * p.val = r.val; omega
    | ⟨1, _⟩ => show win6_1.index t (1 : Fin 2) * 128 + 1 * k.val = k.val; omega
  · funext y
    show V c main_v124 (((cfg6.win 2).blk t).view.emb y) = V c main_v124 y
    refine congrArg _ (funext fun a => Fin.ext ?_)
    match a with
    | ⟨0, _⟩ => show win6_2.index t (0 : Fin 2) * 128 + 1 * (y 0).val = (y 0).val; omega
    | ⟨1, _⟩ => show win6_2.index t (1 : Fin 2) * 128 + 1 * (y 1).val = (y 1).val; omega
  · funext y
    show V c main_v126 (((cfg6.win 3).blk t).view.emb y) = V c main_v126 y
    refine congrArg _ (funext fun a => Fin.ext ?_)
    match a with
    | ⟨0, _⟩ => show win6_3.index t (0 : Fin 2) * 128 + 1 * (y 0).val = (y 0).val; omega
    | ⟨1, _⟩ => show win6_3.index t (1 : Fin 2) * 128 + 1 * (y 1).val = (y 1).val; omega
  · funext y
    show V c main_v133 (((cfg6.win 4).blk t).view.emb y) = V c main_v133 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 128 + 1 * (y 1).val = (y 1).val; omega
  · funext y
    show V c main_v130 (((cfg6.win 5).blk t).view.emb y) = V c main_v130 y
    refine congrArg _ (funext fun a => Fin.ext ?_)
    match a with
    | ⟨0, _⟩ => show win6_5.index t (0 : Fin 2) * 128 + 1 * (y 0).val = (y 0).val; omega
    | ⟨1, _⟩ => show win6_5.index t (1 : Fin 2) * 128 + 1 * (y 1).val = (y 1).val; omega
  · funext y
    show V c main_v134 (((cfg6.win 6).blk t).view.emb y) = V c main_v134 y
    refine congrArg _ (funext fun a => Fin.ext ?_)
    match a with
    | ⟨0, _⟩ => show win6_6.index t (0 : Fin 2) * 1 + 1 * (y 0).val = (y 0).val; omega
    | ⟨1, _⟩ => show win6_6.index t (1 : Fin 2) * 128 + 1 * (y 1).val = (y 1).val; omega

theorem flushed_eq (c : Dev nD) (t : Fin cfg6.N) :
    (dat6 (F := Ideal) V c).flushed 7 t = ((cfg6.win 7).blk t).view.read (Elt Ideal) (G V c) := by
  show (cfg6.win 7).cut (grid6.coords t) ((dat6 (F := Ideal) V c).after 7 t) = _
  rw [after6_7]
  unfold out6_7
  rw [View.canon_unit_zero hz]
  simp only [View.ld_unit_zero (S := S10000x128) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  exact flushed_point V c t p q

theorem mem_blk (t : Fin cfg6.N) (i : S50000x128.Idx) :
    i ∈ ((cfg6.win 7).blk t).view.set ↔ ∀ a : Fin 2, win6_7.index t a * S10000x128.size a ≤ (i a).val ∧ (i a).val < win6_7.index t a * S10000x128.size a + S10000x128.size a := by
  show i ∈ ((View.whole main_v135).slice (win6_7.rect t)).set ↔ _
  rw [View.set_slice_whole, Rect.mem_set_unit]
  exact Iff.rfl

theorem cover (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  obtain ⟨t, ht⟩ : ∃ t : Fin cfg6.N, t.val = (i 0).val / 10000 :=
    ⟨⟨(i 0).val / 10000, lt_of_lt_of_eq (by omega : (i 0).val / 10000 < 5) N_6.symm⟩, rfl⟩
  obtain ⟨-, -, -, -, -, -, -, -, -, -, -, -, -, -, e70, e71⟩ := idx_facts t
  refine ⟨t, flush6_7 t, ?_⟩
  rw [mem_blk]
  intro a
  match a with
  | ⟨0, _⟩ => show win6_7.index t (0 : Fin 2) * 10000 ≤ (i 0).val ∧ (i 0).val < win6_7.index t (0 : Fin 2) * 10000 + 10000; omega
  | ⟨1, _⟩ => show win6_7.index t (1 : Fin 2) * 128 ≤ (i 1).val ∧ (i 1).val < win6_7.index t (1 : Fin 2) * 128 + 128; omega

end R6

theorem region6_value (c : Dev nD) :
    (dat6 (F := Ideal) V c).arrAt 7 cfg6.N
      = unc (updSplit (cur (V c main_v92 : S50000x128.Idx → EReal)) (cur (V c main_v122 : S50000x128.Idx → EReal))
          (cur (V c main_v124 : S128x128.Idx → EReal)) (cur (V c main_v126 : S128x128.Idx → EReal))
          (row (V c main_v133 : S1x128.Idx → EReal)) (cur (V c main_v130 : S128x128.Idx → EReal))
          (row (V c main_v134 : S1x128.Idx → EReal))) :=
  (dat6 (F := Ideal) V c).arrAt_eq_of_cover 7 (R6.G V c) (fun t _ => R6.flushed_eq V c t) R6.cover

end Cert.KernelIdeal.RegVal

end
-- ==== Proof.RMsg2.lean ====
/-
  The message layer of round 2 in the reference program, read as one array. The edge attribute goes through a
  two-layer perceptron (a dense layer, the rectifier, a dense layer); the rows of the node array gathered at the
  edges' destinations and at their sources are set side by side with that encoded attribute, 128 columns each; the
  384 columns go through a second two-layer perceptron. The weights of round 2 are one slab of each stacked weight
  array and one row of each stacked bias array: a slice followed by a reshape reads exactly that slab or row, and a
  bias row is then repeated down the rows. Every operation is read at one row and one column; a product of matrices
  is the sum over the shared index, and the rectifier is the maximum with zero.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Cert.ReferenceIdeal Cert.ReferenceIdeal.Gen Cert.ReferenceIdeal.Read Cert.Gnn
open Idealize.ShloMosaic Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace M2

/-! ### Three arrays of 128 columns side by side, read at a row and a column -/

/-- A column below 128 falls in the first array, at the same column. -/
theorem concat3_lo {α : Type} (x y z : S200000x128.Idx → α) (r : Fin 200000) (j : Fin 384) (h : j.val < 128) :
    concatenate S200000x384 1 [⟨S200000x128, x⟩, ⟨S200000x128, y⟩, ⟨S200000x128, z⟩]
        concatenates_S200000x128_S200000x128_S200000x128_S200000x384_d1 (ix2 r j)
      = x (ix2 r ⟨j.val, h⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 0 (show 0 < 3 by omega) S200000x128 x rfl rfl 0 rfl
    (ix2 r ⟨j.val, h⟩) ?_ ?_
  · intro b hb
    match b with
    | ⟨0, _⟩ => rfl
    | ⟨1, _⟩ => exact absurd rfl hb
  · show 0 + j.val = j.val
    omega

/-- A column from 128 up to 255 falls in the second array, 128 columns to the left. -/
theorem concat3_mid {α : Type} (x y z : S200000x128.Idx → α) (r : Fin 200000) (j : Fin 384) (h1 : ¬ j.val < 128)
    (h2 : j.val < 256) :
    concatenate S200000x384 1 [⟨S200000x128, x⟩, ⟨S200000x128, y⟩, ⟨S200000x128, z⟩]
        concatenates_S200000x128_S200000x128_S200000x128_S200000x384_d1 (ix2 r j)
      = y (ix2 r ⟨j.val - 128, by omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 1 (show 1 < 3 by omega) S200000x128 y rfl rfl 128 rfl
    (ix2 r ⟨j.val - 128, by omega⟩) ?_ ?_
  · intro b hb
    match b with
    | ⟨0, _⟩ => rfl
    | ⟨1, _⟩ => exact absurd rfl hb
  · show 128 + (j.val - 128) = j.val
    omega

/-- A column from 256 on falls in the third array, 256 columns to the left. -/
theorem concat3_hi {α : Type} (x y z : S200000x128.Idx → α) (r : Fin 200000) (j : Fin 384) (h2 : ¬ j.val < 256) :
    concatenate S200000x384 1 [⟨S200000x128, x⟩, ⟨S200000x128, y⟩, ⟨S200000x128, z⟩]
        concatenates_S200000x128_S200000x128_S200000x128_S200000x384_d1 (ix2 r j)
      = z (ix2 r ⟨j.val - 256, by have := j.isLt; omega⟩) := by
  refine concatenate_apply_piece (t := S200000x384) (1 : Fin 2)
    [⟨S200000x128, x⟩, ⟨S200000x128, y⟩, ⟨S200000x128, z⟩]
    concatenates_S200000x128_S200000x128_S200000x128_S200000x384_d1 (ix2 r j) 2 (show 2 < 3 by omega) S200000x128 z rfl rfl 256 rfl
    (ix2 r ⟨j.val - 256, by have := j.isLt; omega⟩) ?_ ?_
  · intro b hb
    match b with
    | ⟨0, _⟩ => rfl
    | ⟨1, _⟩ => exact absurd rfl hb
  · show 256 + (j.val - 256) = j.val
    omega

/-- The three arrays side by side are the three matrices side by side. -/
theorem concat3_apply (x y z : S200000x128.Idx → EReal) (r : Fin 200000) (j : Fin 384) :
    concatenate S200000x384 1 [⟨S200000x128, x⟩, ⟨S200000x128, y⟩, ⟨S200000x128, z⟩]
        concatenates_S200000x128_S200000x128_S200000x128_S200000x384_d1 (ix2 r j)
      = cat3 (cur x) (cur y) (cur z) r j := by
  unfold cat3 cur
  split
  · next h => exact concat3_lo x y z r j h
  · split
    · next h h2 => exact concat3_mid x y z r j h h2
    · next h h2 => exact concat3_hi x y z r j h2

/-! ### The weights and biases of round 2 -/

/-- The first weight of the edge encoder: the slab of round 2, one row of 128 columns. -/
theorem wEncA_at (k : Fin 1) (n : Fin 128) : val_main_v154 (F := Ideal) a6 (ix2 k n) = slab 2 a6 k n := by
  rw [val_main_v154_apply, val_main_v153_apply]
  unfold slab
  exact congrArg a6 (funext fun a => Fin.ext (by
    match a with
    | ⟨0, _⟩ => rfl
    | ⟨1, _⟩ => have := k.isLt; show 0 = k.val; omega
    | ⟨2, _⟩ => have := k.isLt; have := n.isLt; show (k.val * 128 + n.val) % 128 = n.val; omega))

/-- The first bias of the edge encoder, repeated down the rows: the row of round 2. -/
theorem bEncA_at (r : Fin 200000) (n : Fin 128) : val_main_v163 (F := Ideal) a7 (ix2 r n) = brow 2 a7 n := by
  rw [val_main_v163_apply, val_main_v162_apply, val_main_v156_apply, val_main_v155_apply]
  unfold brow
  exact congrArg a7 (funext fun a => Fin.ext (by
    match a with
    | ⟨0, _⟩ => rfl
    | ⟨1, _⟩ => have := n.isLt; show n.val % 128 = n.val; omega))

/-- The second weight of the edge encoder: the slab of round 2. -/
theorem wEncB_at (k n : Fin 128) : val_main_v158 (F := Ideal) a8 (ix2 k n) = slab 2 a8 k n := by
  rw [val_main_v158_apply, val_main_v157_apply]
  unfold slab
  exact congrArg a8 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

/-- The second bias of the edge encoder, repeated down the rows: the row of round 2. -/
theorem bEncB_at (r : Fin 200000) (n : Fin 128) : val_main_v168 (F := Ideal) a9 (ix2 r n) = brow 2 a9 n := by
  rw [val_main_v168_apply, val_main_v167_apply, val_main_v160_apply, val_main_v159_apply]
  unfold brow
  exact congrArg a9 (funext fun a => Fin.ext (by
    match a with
    | ⟨0, _⟩ => rfl
    | ⟨1, _⟩ => have := n.isLt; show n.val % 128 = n.val; omega))

/-- The first weight of the message perceptron: the slab of round 2, 384 rows. -/
theorem wMsgA_at (k : Fin 384) (n : Fin 128) : val_main_v186 (F := Ideal) a10 (ix2 k n) = slab 2 a10 k n := by
  rw [val_main_v186_apply, val_main_v185_apply]
  unfold slab
  exact congrArg a10 (funext fun a => Fin.ext (by
    match a with
    | ⟨0, _⟩ => rfl
    | ⟨1, _⟩ => have := k.isLt; have := n.isLt; show (k.val * 128 + n.val) / 128 % 384 = k.val; omega
    | ⟨2, _⟩ => have := k.isLt; have := n.isLt; show (k.val * 128 + n.val) % 128 = n.val; omega))

/-- The first bias of the message perceptron, repeated down the rows: the row of round 2. -/
theorem bMsgA_at (r : Fin 200000) (n : Fin 128) : val_main_v195 (F := Ideal) a11 (ix2 r n) = brow 2 a11 n := by
  rw [val_main_v195_apply, val_main_v194_apply, val_main_v188_apply, val_main_v187_apply]
  unfold brow
  exact congrArg a11 (funext fun a => Fin.ext (by
    match a with
    | ⟨0, _⟩ => rfl
    | ⟨1, _⟩ => have := n.isLt; show n.val % 128 = n.val; omega))

/-- The second weight of the message perceptron: the slab of round 2. -/
theorem wMsgB_at (k n : Fin 128) : val_main_v190 (F := Ideal) a12 (ix2 k n) = slab 2 a12 k n := by
  rw [val_main_v190_apply, val_main_v189_apply]
  unfold slab
  exact congrArg a12 (funext fun a => Fin.ext (by
    match a with
    | ⟨0, _⟩ => rfl
    | ⟨1, _⟩ => have := k.isLt; have := n.isLt; show (k.val * 128 + n.val) / 128 % 128 = k.val; omega
    | ⟨2, _⟩ => have := k.isLt; have := n.isLt; show (k.val * 128 + n.val) % 128 = n.val; omega))

/-- The second bias of the message perceptron, repeated down the rows: the row of round 2. -/
theorem bMsgB_at (r : Fin 200000) (n : Fin 128) : val_main_v200 (F := Ideal) a13 (ix2 r n) = brow 2 a13 n := by
  rw [val_main_v200_apply, val_main_v199_apply, val_main_v192_apply, val_main_v191_apply]
  unfold brow
  exact congrArg a13 (funext fun a => Fin.ext (by
    match a with
    | ⟨0, _⟩ => rfl
    | ⟨1, _⟩ => have := n.isLt; show n.val % 128 = n.val; omega))

/-- The array the edge encoder's rectifier compares with: zero everywhere. -/
theorem zeroEnc_at (i : S200000x128.Idx) : val_main_call7_v0 (F := Ideal) i = (0 : EReal) := by
  rw [val_main_call7_v0_apply, val_main_call7_cst_apply, Ideal.ofBits_def, Ideal.ofBits_zero_f32]

/-- The array the message perceptron's rectifier compares with: zero everywhere. -/
theorem zeroMsg_at (i : S200000x128.Idx) : val_main_call8_v0 (F := Ideal) i = (0 : EReal) := by
  rw [val_main_call8_v0_apply, val_main_call8_cst_apply, Ideal.ofBits_def, Ideal.ofBits_zero_f32]

/-! ### The edge encoder -/

/-- The edge attribute times the first weight, at a row and a column. -/
theorem encLin_at (r : Fin 200000) (n : Fin 128) :
    val_main_v161 (F := Ideal) a1 a6 (ix2 r n) = ∑ k : Fin 1, cur a1 r k * slab 2 a6 k n := by
  rw [val_main_v161_apply]
  refine Finset.sum_congr rfl fun k _ => ?_
  have el : lidx_main_v161 (ix2 r n) k = ix2 r k :=
    funext fun a => Fin.ext (by match a with | ⟨0, _⟩ => rfl | ⟨1, _⟩ => rfl)
  have er : ridx_main_v161 (ix2 r n) k = ix2 k n :=
    funext fun a => Fin.ext (by match a with | ⟨0, _⟩ => rfl | ⟨1, _⟩ => rfl)
  rw [el, er, wEncA_at]
  rfl

/-- The encoded edge attribute is the two-layer perceptron of the edge attribute. -/
theorem enc_eq :
    val_main_v169 (F := Ideal) a1 a6 a7 a8 a9 = unc (mlp2 (cur a1) (slab 2 a6) (brow 2 a7) (slab 2 a8) (brow 2 a9)) := by
  funext i
  obtain ⟨r, n, rfl⟩ : ∃ (r : Fin 200000) (n : Fin 128), i = ix2 r n := ⟨i 0, i 1, eq_ix2 i⟩
  rw [val_main_v169_apply, val_main_v166_apply, bEncB_at, Ideal.addf_def]
  show _ = (∑ k : Fin 128, max ((∑ k' : Fin 1, cur a1 r k' * slab 2 a6 k' k) + brow 2 a7 k) 0 * slab 2 a8 k n)
    + brow 2 a9 n
  congr 1
  refine Finset.sum_congr rfl fun k _ => ?_
  have el : lidx_main_v166 (ix2 r n) k = ix2 r k :=
    funext fun a => Fin.ext (by match a with | ⟨0, _⟩ => rfl | ⟨1, _⟩ => rfl)
  have er : ridx_main_v166 (ix2 r n) k = ix2 k n :=
    funext fun a => Fin.ext (by match a with | ⟨0, _⟩ => rfl | ⟨1, _⟩ => rfl)
  rw [el, er, wEncB_at, val_main_v165_apply, val_main_v164_apply, encLin_at, bEncA_at, zeroEnc_at, Ideal.maximumf_def,
    Ideal.addf_def]

/-! ### The message perceptron -/

/-- The gathered destination rows, the gathered source rows and the encoded edge attribute side by side. -/
theorem cat_at (r : Fin 200000) (j : Fin 384) :
    val_main_v184 (F := Ideal) a0 a1 a2 a3 a4 a5 a6 a7 a8 a9 a10 a11 a12 a13 a14 a15 a16 a17 a22 (ix2 r j)
      = (cat3 (cur (val_main_v176 (F := Ideal) a0 a1 a2 a3 a4 a5 a6 a7 a8 a9 a10 a11 a12 a13 a14 a15 a16 a17 a22)) (cur (val_main_v183 (F := Ideal) a0 a1 a2 a3 a4 a5 a6 a7 a8 a9 a10 a11 a12 a13 a14 a15 a16 a17 a22)) (mlp2 (cur a1) (slab 2 a6) (brow 2 a7) (slab 2 a8) (brow 2 a9))) r j := by
  unfold val_main_v184
  rw [concat3_apply, enc_eq, cur_unc]

/-- The 384 columns times the first weight of the message perceptron, at a row and a column. -/
theorem msgLin_at (r : Fin 200000) (n : Fin 128) :
    val_main_v193 (F := Ideal) a0 a1 a2 a3 a4 a5 a6 a7 a8 a9 a10 a11 a12 a13 a14 a15 a16 a17 a22 (ix2 r n)
      = ∑ j : Fin 384, (cat3 (cur (val_main_v176 (F := Ideal) a0 a1 a2 a3 a4 a5 a6 a7 a8 a9 a10 a11 a12 a13 a14 a15 a16 a17 a22)) (cur (val_main_v183 (F := Ideal) a0 a1 a2 a3 a4 a5 a6 a7 a8 a9 a10 a11 a12 a13 a14 a15 a16 a17 a22)) (mlp2 (cur a1) (slab 2 a6) (brow 2 a7) (slab 2 a8) (brow 2 a9))) r j * slab 2 a10 j n := by
  rw [val_main_v193_apply]
  refine Finset.sum_congr rfl fun j _ => ?_
  have el : lidx_main_v193 (ix2 r n) j = ix2 r j :=
    funext fun a => Fin.ext (by match a with | ⟨0, _⟩ => rfl | ⟨1, _⟩ => rfl)
  have er : ridx_main_v193 (ix2 r n) j = ix2 j n :=
    funext fun a => Fin.ext (by match a with | ⟨0, _⟩ => rfl | ⟨1, _⟩ => rfl)
  rw [el, er, wMsgA_at, cat_at]

end M2

/-- The messages of round 2: the two-layer perceptron of the gathered destination rows, the gathered source rows and
    the encoded edge attribute side by side. -/
theorem m2_eq :
    val_main_v201 (F := Ideal) a0 a1 a2 a3 a4 a5 a6 a7 a8 a9 a10 a11 a12 a13 a14 a15 a16 a17 a22
      = unc (mlp2 (cat3 (cur (val_main_v176 (F := Ideal) a0 a1 a2 a3 a4 a5 a6 a7 a8 a9 a10 a11 a12 a13 a14 a15 a16 a17 a22)) (cur (val_main_v183 (F := Ideal) a0 a1 a2 a3 a4 a5 a6 a7 a8 a9 a10 a11 a12 a13 a14 a15 a16 a17 a22)) (mlp2 (cur a1) (slab 2 a6) (brow 2 a7) (slab 2 a8) (brow 2 a9)))
          (slab 2 a10) (brow 2 a11) (slab 2 a12) (brow 2 a13)) := by
  funext i
  obtain ⟨r, n, rfl⟩ : ∃ (r : Fin 200000) (n : Fin 128), i = ix2 r n := ⟨i 0, i 1, eq_ix2 i⟩
  rw [val_main_v201_apply, val_main_v198_apply, M2.bMsgB_at, Ideal.addf_def]
  show _ = (∑ k : Fin 128, max ((∑ j : Fin 384, (cat3 (cur (val_main_v176 (F := Ideal) a0 a1 a2 a3 a4 a5 a6 a7 a8 a9 a10 a11 a12 a13 a14 a15 a16 a17 a22)) (cur (val_main_v183 (F := Ideal) a0 a1 a2 a3 a4 a5 a6 a7 a8 a9 a10 a11 a12 a13 a14 a15 a16 a17 a22)) (mlp2 (cur a1) (slab 2 a6) (brow 2 a7) (slab 2 a8) (brow 2 a9))) r j * slab 2 a10 j k) + brow 2 a11 k) 0 * slab 2 a12 k n)
    + brow 2 a13 n
  congr 1
  refine Finset.sum_congr rfl fun k _ => ?_
  have el : lidx_main_v198 (ix2 r n) k = ix2 r k :=
    funext fun a => Fin.ext (by match a with | ⟨0, _⟩ => rfl | ⟨1, _⟩ => rfl)
  have er : ridx_main_v198 (ix2 r n) k = ix2 k n :=
    funext fun a => Fin.ext (by match a with | ⟨0, _⟩ => rfl | ⟨1, _⟩ => rfl)
  rw [el, er, M2.wMsgB_at, val_main_v197_apply, val_main_v196_apply, M2.msgLin_at, M2.bMsgA_at, M2.zeroMsg_at,
    Ideal.maximumf_def, Ideal.addf_def]

end Cert.ReferenceIdeal.StageVal

end
-- ==== Proof.RUpd2.lean ====
/-
  Round 2's update layer of the reference, as a whole array: the node array entering the round and the messages
  summed at each node are laid side by side along the columns (256 columns), and a two-layer perceptron with the
  rectifier between its layers is applied row by row, with round 2's slice of the stacked update weights and biases.
  Each operation is read at one index: the sliced and reshaped weights are round 2's matrix of the stack, the
  broadcast biases round 2's row, a column below 128 of the joined array comes from the node array and a column
  from 128 on from the summed messages, and the two matrix products are sums over the contracted column.
-/
import proofs.«426174_j75376676045031_2_alg».proof.Proof.RefBase
import proofs.«426174_j75376676045031_2_alg».proof.Proof.Spec
import proofs.«426174_j75376676045031_2_alg».proof.Proof.Params
import Idealize.ShloMosaic.Lib.Pipeline.Value
import Idealize.ShloMosaic.Lib.ValueIdx
import Idealize.ShloMosaic.PureOps.Ideal.Laws

set_option maxRecDepth 16384

noncomputable section

namespace Cert.ReferenceIdeal.StageVal

open Finset Cert.ReferenceIdeal Cert.ReferenceIdeal.Gen Cert.ReferenceIdeal.Read Cert.Gnn Idealize.ShloMosaic
  Idealize.ShloMosaic.ValueIdx

variable (a0 : (⟨S50000x4, .f32⟩ : BufTy).Contents (Elt Ideal)) (a1 : (⟨S200000x1, .f32⟩ : BufTy).Contents (Elt Ideal))
  (a2 : (⟨S4x128, .f32⟩ : BufTy).Contents (Elt Ideal)) (a3 : (⟨S128, .f32⟩ : BufTy).Contents (Elt Ideal))
  (a4 : (⟨S128x128, .f32⟩ : BufTy).Contents (Elt Ideal)) (a5 : (⟨S128, .f32⟩ : BufTy).Contents (Elt Ideal))
  (a6 : (⟨S3x1x128, .f32⟩ : BufTy).Contents (Elt Ideal)) (a7 : (⟨S3x128, .f32⟩ : BufTy).Contents (Elt Ideal))
  (a8 : (⟨S3x128x128, .f32⟩ : BufTy).Contents (Elt Ideal)) (a9 : (⟨S3x128, .f32⟩ : BufTy).Contents (Elt Ideal))
  (a10 : (⟨S3x384x128, .f32⟩ : BufTy).Contents (Elt Ideal)) (a11 : (⟨S3x128, .f32⟩ : BufTy).Contents (Elt Ideal))
  (a12 : (⟨S3x128x128, .f32⟩ : BufTy).Contents (Elt Ideal)) (a13 : (⟨S3x128, .f32⟩ : BufTy).Contents (Elt Ideal))
  (a14 : (⟨S3x256x128, .f32⟩ : BufTy).Contents (Elt Ideal)) (a15 : (⟨S3x128, .f32⟩ : BufTy).Contents (Elt Ideal))
  (a16 : (⟨S3x128x128, .f32⟩ : BufTy).Contents (Elt Ideal)) (a17 : (⟨S3x128, .f32⟩ : BufTy).Contents (Elt Ideal))
  (a22 : (⟨S2x200000, .i32⟩ : BufTy).Contents (Elt Ideal))

namespace U2

/-- Two arrays of 128 columns joined along the columns, read at row `r` and column `j`: the first array's column
    `j` below 128, the second array's column `j - 128` from 128 on. -/
theorem cat_apply (x y : (⟨S50000x128, .f32⟩ : BufTy).Contents (Elt Ideal))
    (h : Shape.Concatenates [S50000x128, S50000x128] S50000x256 1) (r : Fin 50000) (j : Fin 256) :
    concatenate S50000x256 1 [⟨S50000x128, x⟩, ⟨S50000x128, y⟩] h (ix2 r j) = cat2 (cur x) (cur y) r j := by
  unfold cat2
  by_cases hj : j.val < 128
  · rw [dif_pos hj]
    exact concatenate_pair_apply_left (1 : Fin S50000x256.rank) x y h (ix2 r j) rfl (ix2 r ⟨j.val, hj⟩)
      (fun b => match b with | ⟨0, _⟩ => rfl | ⟨1, _⟩ => rfl)
  · rw [dif_neg hj]
    exact concatenate_pair_apply_right (1 : Fin S50000x256.rank) x y h (ix2 r j) rfl rfl
      (ix2 r ⟨j.val - 128, by have := j.isLt; omega⟩)
      (fun b hb => match b, hb with | ⟨0, _⟩, _ => rfl | ⟨1, _⟩, hb => absurd rfl hb)
      (by show j.val - 128 + 128 = j.val; omega)

/-- The perceptron's output at row `r` and column `n`: the second layer's sum over the hidden columns, then its bias. -/
theorem out_apply {M K H N : Nat} (x : Mat M K) (W0 : Mat K H) (b0 : Fin H → EReal) (W1 : Mat H N) (b1 : Fin N → EReal)
    (r : Fin M) (n : Fin N) :
    unc (mlp2 x W0 b0 W1 b1) (ix2 r n) = (∑ k : Fin H, relu (dense x W0 b0) r k * W1 k n) + b1 n := rfl

/-- The hidden layer at row `r` and column `k`: the first layer's sum over the input columns, its bias, then the rectifier. -/
theorem hid_apply {M K H : Nat} (x : Mat M K) (W0 : Mat K H) (b0 : Fin H → EReal) (r : Fin M) (k : Fin H) :
    relu (dense x W0 b0) r k = max ((∑ j : Fin K, x r j * W0 j k) + b0 k) 0 := rfl

/-- The joined array of the round at row `r` and column `j`. -/
theorem joined (r : Fin 50000) (j : Fin 256) :
    val_main_v205 (F := Ideal) a0 a1 a2 a3 a4 a5 a6 a7 a8 a9 a10 a11 a12 a13 a14 a15 a16 a17 a22 (ix2 r j) = cat2 (cur (val_main_v152 (F := Ideal) a0 a1 a2 a3 a4 a5 a6 a7 a8 a9 a10 a11 a12 a13 a14 a15 a16 a17 a22)) (cur (val_main_v204 (F := Ideal) a0 a1 a2 a3 a4 a5 a6 a7 a8 a9 a10 a11 a12 a13 a14 a15 a16 a17 a22)) r j := by
  unfold val_main_v205
  exact cat_apply _ _ _ r j

/-- The first layer's weights: the slice of the stacked array at the round, reshaped to a matrix, is the round's matrix. -/
theorem w_first (k : Fin 256) (n : Fin 128) : val_main_v207 (F := Ideal) a14 (ix2 k n) = slab 2 a14 k n := by
  rw [val_main_v207_apply, val_main_v206_apply]
  unfold slab
  exact congrArg a14 (funext fun a => Fin.ext (by
    have hk := k.isLt
    have hn := n.isLt
    match a with
    | ⟨0, _⟩ => rfl
    | ⟨1, _⟩ => show (k.val * 128 + n.val) / 128 % 256 = k.val; omega
    | ⟨2, _⟩ => show (k.val * 128 + n.val) % 128 = n.val; omega))

/-- The second layer's weights are the round's matrix of their stack. -/
theorem w_second (k : Fin 128) (n : Fin 128) : val_main_v211 (F := Ideal) a16 (ix2 k n) = slab 2 a16 k n := by
  rw [val_main_v211_apply, val_main_v210_apply]
  unfold slab
  exact congrArg a16 (funext fun a => Fin.ext (by
    have hk := k.isLt
    have hn := n.isLt
    match a with
    | ⟨0, _⟩ => rfl
    | ⟨1, _⟩ => show (k.val * 128 + n.val) / 128 % 128 = k.val; omega
    | ⟨2, _⟩ => show (k.val * 128 + n.val) % 128 = n.val; omega))

/-- The first layer's bias, broadcast down the rows, is the round's row of its stack at every row. -/
theorem b_first (r : Fin 50000) (n : Fin 128) : val_main_v216 (F := Ideal) a15 (ix2 r n) = brow 2 a15 n := by
  rw [val_main_v216_apply, val_main_v215_apply, val_main_v209_apply, val_main_v208_apply]
  unfold brow
  exact congrArg a15 (funext fun a => Fin.ext (by
    match a with
    | ⟨0, _⟩ => rfl
    | ⟨1, _⟩ => exact Nat.mod_eq_of_lt n.isLt))

/-- The second layer's bias is the round's row of its stack at every row. -/
theorem b_second (r : Fin 50000) (n : Fin 128) : val_main_v221 (F := Ideal) a17 (ix2 r n) = brow 2 a17 n := by
  rw [val_main_v221_apply, val_main_v220_apply, val_main_v213_apply, val_main_v212_apply]
  unfold brow
  exact congrArg a17 (funext fun a => Fin.ext (by
    match a with
    | ⟨0, _⟩ => rfl
    | ⟨1, _⟩ => exact Nat.mod_eq_of_lt n.isLt))

/-- The first product reads row `r` of its left operand at the contracted column … -/
theorem lidx_first (r : Fin 50000) (k : Fin 128) (j : Fin 256) : lidx_main_v214 (ix2 r k) j = ix2 r j :=
  funext fun a => Fin.ext (by match a with | ⟨0, _⟩ => rfl | ⟨1, _⟩ => rfl)

/-- … and column `k` of its right operand at the contracted row. -/
theorem ridx_first (r : Fin 50000) (k : Fin 128) (j : Fin 256) : ridx_main_v214 (ix2 r k) j = ix2 j k :=
  funext fun a => Fin.ext (by match a with | ⟨0, _⟩ => rfl | ⟨1, _⟩ => rfl)

/-- The second product's left index … -/
theorem lidx_second (r : Fin 50000) (n : Fin 128) (k : Fin 128) : lidx_main_v219 (ix2 r n) k = ix2 r k :=
  funext fun a => Fin.ext (by match a with | ⟨0, _⟩ => rfl | ⟨1, _⟩ => rfl)

/-- … and right index. -/
theorem ridx_second (r : Fin 50000) (n : Fin 128) (k : Fin 128) : ridx_main_v219 (ix2 r n) k = ix2 k n :=
  funext fun a => Fin.ext (by match a with | ⟨0, _⟩ => rfl | ⟨1, _⟩ => rfl)

/-- The hidden layer of the round at row `r` and column `k`: the product of the joined array with the first
    weights, the first bias, and the maximum with zero. -/
theorem hidden (r : Fin 50000) (k : Fin 128) :
    val_main_v218 (F := Ideal) a0 a1 a2 a3 a4 a5 a6 a7 a8 a9 a10 a11 a12 a13 a14 a15 a16 a17 a22 (ix2 r k)
      = relu (dense (cat2 (cur (val_main_v152 (F := Ideal) a0 a1 a2 a3 a4 a5 a6 a7 a8 a9 a10 a11 a12 a13 a14 a15 a16 a17 a22)) (cur (val_main_v204 (F := Ideal) a0 a1 a2 a3 a4 a5 a6 a7 a8 a9 a10 a11 a12 a13 a14 a15 a16 a17 a22))) (slab 2 a14) (brow 2 a15)) r k := by
  rw [hid_apply, val_main_v218_apply, val_main_v217_apply, val_main_v214_apply, val_main_call9_v0_apply,
    val_main_call9_cst_apply, Ideal.maximumf_def, Ideal.addf_def, Ideal.ofBits_def, Ideal.ofBits_zero_f32, b_first]
  refine congrArg (fun s => max (s + brow 2 a15 k) 0) (Finset.sum_congr rfl fun j _ => ?_)
  rw [lidx_first, ridx_first, joined, w_first]

end U2

/-- Round 2's update layer: the array after the round is the two-layer perceptron, with round 2's update weights and
    biases, of the node array entering the round and the summed messages side by side. -/
theorem x3_eq :
    val_main_v222 (F := Ideal) a0 a1 a2 a3 a4 a5 a6 a7 a8 a9 a10 a11 a12 a13 a14 a15 a16 a17 a22
      = unc (mlp2 (cat2 (cur (val_main_v152 (F := Ideal) a0 a1 a2 a3 a4 a5 a6 a7 a8 a9 a10 a11 a12 a13 a14 a15 a16 a17 a22)) (cur (val_main_v204 (F := Ideal) a0 a1 a2 a3 a4 a5 a6 a7 a8 a9 a10 a11 a12 a13 a14 a15 a16 a17 a22))) (slab 2 a14) (brow 2 a15) (slab 2 a16) (brow 2 a17)) := by
  funext i
  obtain ⟨r, n, rfl⟩ : ∃ (r : Fin 50000) (n : Fin 128), i = ix2 r n := ⟨i 0, i 1, eq_ix2 i⟩
  rw [U2.out_apply, val_main_v222_apply, val_main_v219_apply, Ideal.addf_def, U2.b_second]
  refine congrArg (fun s => s + brow 2 a17 n) (Finset.sum_congr rfl fun k _ => ?_)
  rw [U2.lidx_second, U2.ridx_second, U2.hidden, U2.w_second]

end Cert.ReferenceIdeal.StageVal

end
-- ==== Proof.Join2.lean ====
/-
  Round 2 of the message passing: the same join as round 0 over this round's arrays, parameters and boundaries.
-/
import proofs.«426174_j75376676045031_2_alg».proof.Proof.KReg5
import proofs.«426174_j75376676045031_2_alg».proof.Proof.KReg6
import proofs.«426174_j75376676045031_2_alg».proof.Proof.KHostW
import proofs.«426174_j75376676045031_2_alg».proof.Proof.KTake
import proofs.«426174_j75376676045031_2_alg».proof.Proof.KScat
import proofs.«426174_j75376676045031_2_alg».proof.Proof.RefBase
import proofs.«426174_j75376676045031_2_alg».proof.Proof.RMsg2
import proofs.«426174_j75376676045031_2_alg».proof.Proof.RUpd2

set_option maxRecDepth 16384
-- the notations below name terms over this section's variables
set_option quotPrecheck false

noncomputable section

namespace Cert.Proof.Join

open Idealize.ShloMosaic Idealize.ShloMosaic.TcCoe Idealize.SL.Sem Idealize.ShloMosaic.ValueIdx
open Cert.KernelIdeal Cert.KernelIdeal.Gen Cert.KernelIdeal.RegVal Cert.KernelIdeal.HostVal Cert.Gnn
open Cert.ReferenceIdeal.StageVal

variable (m : (ℓ : Loc nD τ sig) → Buf (Elt Ideal) ℓ) (ρ : Dev nD → PrngReg) (c : Dev nD)

local notation "𝔞" b => m ((c : Thread nD τ).loc b)

/-! ## The round -/

-- the round's arrays: the kernel program's at the boundaries of its run, the reference's as stages of its arguments
local notation "kX" => V15 m ρ c main_v92
local notation "rX" => (Cert.ReferenceIdeal.Read.val_main_v152 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "rGd" => (Cert.ReferenceIdeal.Read.val_main_v176 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "rGs" => (Cert.ReferenceIdeal.Read.val_main_v183 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kM" => V19 m ρ c main_v119
local notation "rM" => (Cert.ReferenceIdeal.Read.val_main_v201 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kAgg" => V20 m ρ c main_v122
local notation "rAgg" => (Cert.ReferenceIdeal.Read.val_main_v204 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))
local notation "kXn" => V21 m ρ c main_v135
local notation "rXn" => (Cert.ReferenceIdeal.Read.val_main_v222 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22))

/-- The destination rows: the kernel program's gather of its node array is the reference's gather of an equal array at
    the same wrapped indices. -/
theorem gd2_join (hx : kX = rX) :
    Host.gather gather_S50000x128_S200000x1_S200000x128_1_0_n_n_0_1_1128 kX (wrapIdx (W3 m ρ c (Proc.devRef .tc main_v6))) = rGd := by
  rw [hx, idx_dst]; rfl

/-- The source rows, likewise. -/
theorem gs2_join (hx : kX = rX) :
    Host.gather gather_S50000x128_S200000x1_S200000x128_1_0_n_n_0_1_1128 kX (wrapIdx (W3 m ρ c (Proc.devRef .tc main_v4))) = rGs := by
  rw [hx, idx_src]; rfl

set_option maxHeartbeats 1000000 in
/-- The messages: the first dense layer's product taken block by block over the three inputs is the layer over the
    inputs side by side. -/
theorem m2_join (hr : InRange (W3 m ρ c (Proc.devRef .tc main_v6)) ∧ InRange (W3 m ρ c (Proc.devRef .tc main_v4)))
    (hx : kX = rX) : kM = rM := by
  rw [out5, region5_value (V18 m ρ) c, take2_dst m ρ c hr.1, take2_src m ρ c hr.2, gd2_join m ρ c hx, gs2_join m ρ c hx,
    b18_arg1, b18_v102, b18_v115, b18_v106, b18_v116, b18_v96, b18_v98, b18_v100, b18_v117, b18_v112, b18_v118, msgSplit_eq]
  exact (m2_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)).symm

/-- The aggregated messages: one scatter-add of equal updates at the same indices into zeros. -/
theorem agg2_join (hm : kM = rM) : kAgg = rAgg := by
  rw [scat2, hm, idx_dst]; rfl

set_option maxHeartbeats 1000000 in
/-- The updated node array: the two-block first layer is the layer over the two inputs side by side. -/
theorem x3_join (hx : kX = rX) (hagg : kAgg = rAgg) : kXn = rXn := by
  rw [out6, region6_value (V20 m ρ) c, x_at20, hx, hagg, b20_v124, b20_v126, b20_v133, b20_v130, b20_v134, updSplit_eq]
  exact (x3_eq (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)).symm

end Cert.Proof.Join

end
-- ==== Proof.JoinOut.lean ====
/-
  After the three rounds the per-graph mean and the readout agree on equal node arrays, so the kernel program's result
  is the reference's last stage of the same arguments.
-/
import proofs.«426174_j75376676045031_2_alg».proof.Proof.Join0
import proofs.«426174_j75376676045031_2_alg».proof.Proof.Join1
import proofs.«426174_j75376676045031_2_alg».proof.Proof.Join2
import proofs.«426174_j75376676045031_2_alg».proof.Proof.KReg0
import proofs.«426174_j75376676045031_2_alg».proof.Proof.KHostW
import proofs.«426174_j75376676045031_2_alg».proof.Proof.KScat
import proofs.«426174_j75376676045031_2_alg».proof.Proof.KTake
import proofs.«426174_j75376676045031_2_alg».proof.Proof.RefBase
import proofs.«426174_j75376676045031_2_alg».proof.Proof.RStage0

set_option maxRecDepth 16384

set_option quotPrecheck false

noncomputable section

namespace Cert.Proof.Join

open Idealize.ShloMosaic Idealize.ShloMosaic.TcCoe Idealize.SL.Sem Idealize.ShloMosaic.ValueIdx
open Cert.KernelIdeal Cert.KernelIdeal.Gen Cert.KernelIdeal.RegVal Cert.KernelIdeal.HostVal Cert.Gnn
open Cert.ReferenceIdeal.StageVal

variable (m : (ℓ : Loc nD τ sig) → Buf (Elt Ideal) ℓ) (ρ : Dev nD → PrngReg) (c : Dev nD)

local notation "𝔞" b => m ((c : Thread nD τ).loc b)

theorem x3_all (hr : InRange (W3 m ρ c (Proc.devRef .tc main_v6)) ∧ InRange (W3 m ρ c (Proc.devRef .tc main_v4))) :
    V21 m ρ c main_v135 = (Cert.ReferenceIdeal.Read.val_main_v222 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22)) := by
  have h0 := x0_join m ρ c
  have h1 := x1_join m ρ c h0 (agg0_join m ρ c (m0_join m ρ c hr h0))
  have h2 := x2_join m ρ c h1 (agg1_join m ρ c (m1_join m ρ c hr h1))
  exact x3_join m ρ c h2 (agg2_join m ρ c (m2_join m ρ c hr h2))

theorem pooled_join (hr : InRange (W3 m ρ c (Proc.devRef .tc main_v6)) ∧ InRange (W3 m ρ c (Proc.devRef .tc main_v4))) :
    V22 m ρ c main_v146 = (Cert.ReferenceIdeal.Read.val_main_v233 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg22) (𝔞 main_arg23)) := by
  rw [pooled, x3_all m ρ c hr, pooled_eq]; rfl

theorem out_join (hr : InRange (W3 m ρ c (Proc.devRef .tc main_v6)) ∧ InRange (W3 m ρ c (Proc.devRef .tc main_v4))) :
    W23 m ρ c (Proc.devRef .tc main_v149) = (Cert.ReferenceIdeal.Read.val_main_v242 (F := Ideal) (𝔞 main_arg0) (𝔞 main_arg1) (𝔞 main_arg2) (𝔞 main_arg3) (𝔞 main_arg4) (𝔞 main_arg5) (𝔞 main_arg6) (𝔞 main_arg7) (𝔞 main_arg8) (𝔞 main_arg9) (𝔞 main_arg10) (𝔞 main_arg11) (𝔞 main_arg12) (𝔞 main_arg13) (𝔞 main_arg14) (𝔞 main_arg15) (𝔞 main_arg16) (𝔞 main_arg17) (𝔞 main_arg18) (𝔞 main_arg19) (𝔞 main_arg20) (𝔞 main_arg21) (𝔞 main_arg22) (𝔞 main_arg23)) := by
  show V23 m ρ c main_v149 = _
  rw [out7, region7_value, pooled_join m ρ c hr, b22_arg18, b22_arg20, b22_v147, b22_v148]
  exact (out_eq _ _ _ _ _ _ _ _ _ _ _ _ _ _ _ _ _ _ _ _ _ _ _ _).symm

end Cert.Proof.Join

end
-- ==== Proof.lean ====
/-
  Three rounds of message passing over a graph, a mean over each graph's nodes and a two-layer readout: the block
  program and the plain program end at the same array of extended reals when the float inputs are finite and every
  edge end point is a node index. The two kernel programs' frames are the generated ones; the reference's frame is
  its run with the result dropped.
-/
import proofs.«426174_j75376676045031_2_alg».proof.Defs
import proofs.«426174_j75376676045031_2_alg».proof.Proof.Gen.Kernel
import proofs.«426174_j75376676045031_2_alg».proof.Proof.Gen.Kernel.Frame
import proofs.«426174_j75376676045031_2_alg».proof.Proof.Gen.KernelIdeal
import proofs.«426174_j75376676045031_2_alg».proof.Proof.Gen.KernelIdeal.Frame
import proofs.«426174_j75376676045031_2_alg».proof.Proof.Gen.ReferenceIdeal
import proofs.«426174_j75376676045031_2_alg».proof.Proof.Gen.Pre_finite_inputs
import proofs.«426174_j75376676045031_2_alg».proof.Proof.KRun
import proofs.«426174_j75376676045031_2_alg».proof.Proof.RRun
import proofs.«426174_j75376676045031_2_alg».proof.Proof.JoinOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunVal.run (F := Ideal) m ρ)

theorem algebraic : Cert.algebraic_KernelIdeal_ReferenceIdeal := by
  intro m ρ m' ρ' hpre hagree
  refine ⟨fun c => Cert.KernelIdeal.Gen.W23 m ρ c (Proc.devRef .tc Cert.KernelIdeal.main_v149), Cert.KernelIdeal.Gen.run_main m ρ, ?_⟩
  refine (θ_run Cert.ReferenceIdeal.defs _ _).mono (fun _ h c => ⟨(h c).1.trans ?_, (h c).2⟩)
    (Cert.ReferenceIdeal.RunVal.run (F := Ideal) m' ρ')
  obtain ⟨e0, e1, e2, e3, e4, e5, e6, e7, e8, e9, e10, e11, e12, e13, e14, e15, e16, e17, e18, e19, e20, e21, e22, e23⟩ := hagree c
  rw [e0, e1, e2, e3, e4, e5, e6, e7, e8, e9, e10, e11, e12, e13, e14, e15, e16, e17, e18, e19, e20, e21, e22, e23]
  exact (Cert.Proof.Join.out_join m ρ c (Cert.KernelIdeal.HostVal.range_of_pre m ρ c hpre)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
